-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S523264x128 : Shape := ⟨2, ![523264, 128]⟩
abbrev S256x256 : Shape := ⟨2, ![256, 256]⟩
abbrev S256 : Shape := ⟨1, ![256]⟩
abbrev S16x256 : Shape := ⟨2, ![16, 256]⟩
abbrev S522240 : Shape := ⟨1, ![522240]⟩
abbrev S_ : Shape := ⟨0, ![]⟩

class Facts : Prop where
  bcast_S_S523264x128 : S_.BroadcastsInDim S523264x128 (![] : Fin 0 → Fin S523264x128.rank)
  reducesTo_S523264x128_S_d0_1 : S523264x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S522240 : S_.BroadcastsInDim S522240 (![] : Fin 0 → Fin S522240.rank)
  reducesTo_S522240_S_d0 : S522240.ReducesTo [0] S_

variable [Facts]

def fn_part1 {F : FTy → Type} [FloatOps F] (main_arg4 : IVec S522240 32) (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  let main_c_6 : IVec S_ 32 := constantI S_ 32 0#32
  let main_v19 : IVec S522240 32 := broadcastInDim S522240 ![] bcast_S_S522240 main_c_6
  let main_v20 : IVec S522240 1 := cmpi .sge main_arg4 main_v19
  let main_c_7 : IVec S_ 32 := constantI S_ 32 16#32
  let main_v21 : IVec S522240 32 := broadcastInDim S522240 ![] bcast_S_S522240 main_c_7
  let main_v22 : IVec S522240 1 := cmpi .slt main_arg4 main_v21
  let main_v23 : IVec S522240 1 := andi main_v20 main_v22
  let main_c_8 : IVec S_ 1 := constantI S_ 1 1#1
  let main_v24 : IVec S_ 1 := (fun x v => Host.reduce IntOp.andi x v reducesTo_S522240_S_d0 h_S_) main_v23 main_c_8
  let main_v25 : IVec S_ 1 := andi main_v18 main_v24
  main_v25

def fn {F : FTy → Type} [FloatOps F] (main_arg0 : FVec F S523264x128 .f32) (main_arg1 : FVec F S256x256 .f32) (main_arg2 : FVec F S256 .f32) (main_arg3 : FVec F S16x256 .f32) (main_arg4 : IVec S522240 32) : IVec S_ 1 :=
  let main_v0 : FVec F S523264x128 .f32 := Host.absf main_arg0
  let main_cst : FVec F S_ .f32 := constant S_ .f32 0x7F800000#32
  let main_v1 : FVec F S523264x128 .f32 := broadcastInDim S523264x128 ![] bcast_S_S523264x128 main_cst
  let main_v2 : IVec S523264x128 1 := cmpf .olt main_v0 main_v1
  let main_c : IVec S_ 1 := constantI S_ 1 1#1
  let main_v3 : IVec S_ 1 := (fun x v => Host.reduce IntOp.andi x v reducesTo_S523264x128_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_arg4 main_v13 main_v16
-- ==== Kernel.lean ====
abbrev S523264x128 : Shape := ⟨2, ![523264, 128]⟩
abbrev S256x256 : Shape := ⟨2, ![256, 256]⟩
abbrev S256 : Shape := ⟨1, ![256]⟩
abbrev S16x256 : Shape := ⟨2, ![16, 256]⟩
abbrev S522240 : Shape := ⟨1, ![522240]⟩
abbrev S256x128 : Shape := ⟨2, ![256, 128]⟩
abbrev S128x256 : Shape := ⟨2, ![128, 256]⟩
abbrev S1x256 : Shape := ⟨2, ![1, 256]⟩
abbrev S522240x1 : Shape := ⟨2, ![522240, 1]⟩
abbrev S262144x256 : Shape := ⟨2, ![262144, 256]⟩
abbrev S8192x128 : Shape := ⟨2, ![8192, 128]⟩
abbrev S8192x256 : Shape := ⟨2, ![8192, 256]⟩
abbrev S131072x256 : Shape := ⟨2, ![131072, 256]⟩
abbrev S2048x128 : Shape := ⟨2, ![2048, 128]⟩
abbrev S4096x256 : Shape := ⟨2, ![4096, 256]⟩
abbrev S4096x1 : Shape := ⟨2, ![4096, 1]⟩
abbrev S2048x256 : Shape := ⟨2, ![2048, 256]⟩
abbrev S4096x16 : Shape := ⟨2, ![4096, 16]⟩
abbrev S2048x2x256 : Shape := ⟨3, ![2048, 2, 256]⟩
abbrev S65536x256 : Shape := ⟨2, ![65536, 256]⟩
abbrev S32768x256 : Shape := ⟨2, ![32768, 256]⟩
abbrev S16384x256 : Shape := ⟨2, ![16384, 256]⟩
abbrev S1024x256 : Shape := ⟨2, ![1024, 256]⟩
abbrev S1024x128 : Shape := ⟨2, ![1024, 128]⟩
abbrev S2048x1 : Shape := ⟨2, ![2048, 1]⟩
abbrev S2048x16 : Shape := ⟨2, ![2048, 16]⟩
abbrev S1024x2x256 : Shape := ⟨3, ![1024, 2, 256]⟩
abbrev S523264x256 : Shape := ⟨2, ![523264, 256]⟩

abbrev nBuf : Space → Nat
  | .hbm => 19
  | .vmem => 86
  | .smem => 0
  | _ => 0

abbrev bufTy : (tb : Table) → Fin (tcTables nBuf tb) → BufTy
  | .hbm, ⟨0, _⟩ => ⟨S523264x128, .f32⟩
  | .hbm, ⟨1, _⟩ => ⟨S256x256, .f32⟩
  | .hbm, ⟨2, _⟩ => ⟨S256, .f32⟩
  | .hbm, ⟨3, _⟩ => ⟨S16x256, .f32⟩
  | .hbm, ⟨4, _⟩ => ⟨S522240, .i32⟩
  | .hbm, ⟨5, _⟩ => ⟨S256x128, .f32⟩
  | .hbm, ⟨6, _⟩ => ⟨S128x256, .f32⟩
  | .hbm, ⟨7, _⟩ => ⟨S1x256, .f32⟩
  | .hbm, ⟨8, _⟩ => ⟨S522240x1, .i32⟩
  | .hbm, ⟨9, _⟩ => ⟨S262144x256, .f32⟩
  | .hbm, ⟨10, _⟩ => ⟨S131072x256, .f32⟩
  | .hbm, ⟨11, _⟩ => ⟨S65536x256, .f32⟩
  | .hbm, ⟨12, _⟩ => ⟨S32768x256, .f32⟩
  | .hbm, ⟨13, _⟩ => ⟨S16384x256, .f32⟩
  | .hbm, ⟨14, _⟩ => ⟨S8192x256, .f32⟩
  | .hbm, ⟨15, _⟩ => ⟨S4096x256, .f32⟩
  | .hbm, ⟨16, _⟩ => ⟨S2048x256, .f32⟩
  | .hbm, ⟨17, _⟩ => ⟨S1024x256, .f32⟩
  | .hbm, ⟨18, _⟩ => ⟨S523264x256, .f32⟩
  | .local _ .vmem, ⟨0, _⟩ => ⟨S8192x128, .f32⟩
  | .local _ .vmem, ⟨1, _⟩ => ⟨S8192x128, .f32⟩
  | .local _ .vmem, ⟨2, _⟩ => ⟨S128x256, .f32⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | .local _ .vmem, ⟨6, _⟩ => ⟨S2048x128, .f32⟩
  | .local _ .vmem, ⟨7, _⟩ => ⟨S2048x128, .f32⟩
  | .local _ .vmem, ⟨8, _⟩ => ⟨S4096x256, .f32⟩
  | .local _ .vmem, ⟨9, _⟩ => ⟨S4096x256, .f32⟩
  | .local _ .vmem, ⟨10, _⟩ => ⟨S4096x1, .i32⟩
  | .local _ .vmem, ⟨11, _⟩ => ⟨S4096x1, .i32⟩
  | .local _ .vmem, ⟨12, _⟩ => ⟨S16x256, .f32⟩
  | .local _ .vmem, ⟨13, _⟩ => ⟨S128x256, .f32⟩
  | .local _ .vmem, ⟨14, _⟩ => ⟨S1x256, .f32⟩
  | .local _ .vmem, ⟨15, _⟩ => ⟨S2048x256, .f32⟩
  | .local _ .vmem, ⟨16, _⟩ => ⟨S2048x256, .f32⟩
  | .local _ .vmem, ⟨17, _⟩ => ⟨S2048x128, .f32⟩
  | .local _ .vmem, ⟨18, _⟩ => ⟨S2048x128, .f32⟩
  | .local _ .vmem, ⟨19, _⟩ => ⟨S4096x256, .f32⟩
  | .local _ .vmem, ⟨20, _⟩ => ⟨S4096x256, .f32⟩
  | .local _ .vmem, ⟨21, _⟩ => ⟨S4096x1, .i32⟩
  | .local _ .vmem, ⟨22, _⟩ => ⟨S4096x1, .i32⟩
  | .local _ .vmem, ⟨23, _⟩ => ⟨S16x256, .f32⟩
  | .local _ .vmem, ⟨24, _⟩ => ⟨S128x256, .f32⟩
  | .local _ .vmem, ⟨25, _⟩ => ⟨S1x256, .f32⟩
  | .local _ .vmem, ⟨26, _⟩ => ⟨S2048x256, .f32⟩
  | .local _ .vmem, ⟨27, _⟩ => ⟨S2048x256, .f32⟩
  | .local _ .vmem, ⟨28, _⟩ => ⟨S2048x128, .f32⟩
  | .local _ .vmem, ⟨29, _⟩ => ⟨S2048x128, .f32⟩
  | .local _ .vmem, ⟨30, _⟩ => ⟨S4096x256, .f32⟩
  | .local _ .vmem, ⟨31, _⟩ => ⟨S4096x256, .f32⟩
  | .local _ .vmem, ⟨32, _⟩ => ⟨S4096x1, .i32⟩
  | .local _ .vmem, ⟨33, _⟩ => ⟨S4096x1, .i32⟩
  | .local _ .vmem, ⟨34, _⟩ => ⟨S16x256, .f32⟩
  | .local _ .vmem, ⟨35, _⟩ => ⟨S128x256, .f32⟩
  | .local _ .vmem, ⟨36, _⟩ => ⟨S1x256, .f32⟩
  | .local _ .vmem, ⟨37, _⟩ => ⟨S2048x256, .f32⟩
  | .local _ .vmem, ⟨38, _⟩ => ⟨S2048x256, .f32⟩
  | .local _ .vmem, ⟨39, _⟩ => ⟨S2048x128, .f32⟩
  | .local _ .vmem, ⟨40, _⟩ => ⟨S2048x128, .f32⟩
  | .local _ .vmem, ⟨41, _⟩ => ⟨S4096x256, .f32⟩
  | .local _ .vmem, ⟨42, _⟩ => ⟨S4096x256, .f32⟩
  | .local _ .vmem, ⟨43, _⟩ => ⟨S4096x1, .i32⟩
  | .local _ .vmem, ⟨44, _⟩ => ⟨S4096x1, .i32⟩
  | .local _ .vmem, ⟨45, _⟩ => ⟨S16x256, .f32⟩
  | .local _ .vmem, ⟨46, _⟩ => ⟨S128x256, .f32⟩
  | .local _ .vmem, ⟨47, _⟩ => ⟨S1x256, .f32⟩
  | .local _ .vmem, ⟨48, _⟩ => ⟨S2048x256, .f32⟩
  | .local _ .vmem, ⟨49, _⟩ => ⟨S2048x256, .f32⟩
  | .local _ .vmem, ⟨50, _⟩ => ⟨S2048x128, .f32⟩
  | .local _ .vmem, ⟨51, _⟩ => ⟨S2048x128, .f32⟩
  | .local _ .vmem, ⟨52, _⟩ => ⟨S4096x256, .f32⟩
  | .local _ .vmem, ⟨53, _⟩ => ⟨S4096x256, .f32⟩
  | .local _ .vmem, ⟨54, _⟩ => ⟨S4096x1, .i32⟩
  | .local _ .vmem, ⟨55, _⟩ => ⟨S4096x1, .i32⟩
  | .local _ .vmem, ⟨56, _⟩ => ⟨S16x256, .f32⟩
  | .local _ .vmem, ⟨57, _⟩ => ⟨S128x256, .f32⟩
  | .local _ .vmem, ⟨58, _⟩ => ⟨S1x256, .f32⟩
  | .local _ .vmem, ⟨59, _⟩ => ⟨S2048x256, .f32⟩
  | .local _ .vmem, ⟨60, _⟩ => ⟨S2048x256, .f32⟩
  | .local _ .vmem, ⟨61, _⟩ => ⟨S2048x128, .f32⟩
  | .local _ .vmem, ⟨62, _⟩ => ⟨S2048x128, .f32⟩
  | .local _ .vmem, ⟨63, _⟩ => ⟨S4096x256, .f32⟩
  | .local _ .vmem, ⟨64, _⟩ => ⟨S4096x256, .f32⟩
  | .local _ .vmem, ⟨65, _⟩ => ⟨S4096x1, .i32⟩
  | .local _ .vmem, ⟨66, _⟩ => ⟨S4096x1, .i32⟩
  | .local _ .vmem, ⟨67, _⟩ => ⟨S16x256, .f32⟩
  | .local _ .vmem, ⟨68, _⟩ => ⟨S128x256, .f32⟩
  | .local _ .vmem, ⟨69, _⟩ => ⟨S1x256, .f32⟩
  | .local _ .vmem, ⟨70, _⟩ => ⟨S2048x256, .f32⟩
  | .local _ .vmem, ⟨71, _⟩ => ⟨S2048x256, .f32⟩
  | .local _ .vmem, ⟨72, _⟩ => ⟨S2048x128, .f32⟩
  | .local _ .vmem, ⟨73, _⟩ => ⟨S4096x256, .f32⟩
  | .local _ .vmem, ⟨74, _⟩ => ⟨S4096x1, .i32⟩
  | .local _ .vmem, ⟨75, _⟩ => ⟨S16x256, .f32⟩
  | .local _ .vmem, ⟨76, _⟩ => ⟨S128x256, .f32⟩
  | .local _ .vmem, ⟨77, _⟩ => ⟨S1x256, .f32⟩
  | .local _ .vmem, ⟨78, _⟩ => ⟨S2048x256, .f32⟩
  | .local _ .vmem, ⟨79, _⟩ => ⟨S1024x128, .f32⟩
  | .local _ .vmem, ⟨80, _⟩ => ⟨S2048x256, .f32⟩
  | .local _ .vmem, ⟨81, _⟩ => ⟨S2048x1, .i32⟩
  | .local _ .vmem, ⟨82, _⟩ => ⟨S16x256, .f32⟩
  | .local _ .vmem, ⟨83, _⟩ => ⟨S128x256, .f32⟩
  | .local _ .vmem, ⟨84, _⟩ => ⟨S1x256, .f32⟩
  | .local _ .vmem, ⟨85, _⟩ => ⟨S1024x256, .f32⟩
  | _, _ => ⟨S523264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg6_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg2_1 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg6_1 : Ref sig .tc := ⟨.vmem, 71, rfl⟩
abbrev cc7_stg0_0 : Ref sig .tc := ⟨.vmem, 72, rfl⟩
abbrev cc7_stg1_0 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc8_stg0_0 : Ref sig .tc := ⟨.vmem, 79, rfl⟩
abbrev cc8_stg1_0 : Ref sig .tc := ⟨.vmem, 80, rfl⟩
abbrev cc8_stg2_0 : Ref sig .tc := ⟨.vmem, 81, rfl⟩
abbrev cc8_stg3_0 : Ref sig .tc := ⟨.vmem, 82, rfl⟩
abbrev cc8_stg4_0 : Ref sig .tc := ⟨.vmem, 83, rfl⟩
abbrev cc8_stg5_0 : Ref sig .tc := ⟨.vmem, 84, rfl⟩
abbrev cc8_stg6_0 : Ref sig .tc := ⟨.vmem, 85, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem6_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem2_1 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem6_1 : DmaSem sig := 71
abbrev cc7_sem0_0 : DmaSem sig := 72
abbrev cc7_sem1_0 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem6_0 : DmaSem sig := 78
abbrev cc8_sem0_0 : DmaSem sig := 79
abbrev cc8_sem1_0 : DmaSem sig := 80
abbrev cc8_sem2_0 : DmaSem sig := 81
abbrev cc8_sem3_0 : DmaSem sig := 82
abbrev cc8_sem4_0 : DmaSem sig := 83
abbrev cc8_sem5_0 : DmaSem sig := 84
abbrev cc8_sem6_0 : DmaSem sig := 85

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2048x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c240_i32 : BitVec 32 := 240#32
  let v0 : BitVec 32 := Scalar.addi c240_i32 arg0
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c112_i32 : BitVec 32 := 112#32
  let v0 : BitVec 32 := Scalar.addi c112_i32 arg0
  let c0_i32 : BitVec 32 := 0#32
  let c0_i32_0 : BitVec 32 := 0#32
  ![v0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S16x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2048x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c248_i32 : BitVec 32 := 248#32
  let v0 : BitVec 32 := Scalar.addi c248_i32 arg0
  let c0_i32 : BitVec 32 := 0#32
  let c0_i32_0 : BitVec 32 := 0#32
  ![v0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c120_i32 : BitVec 32 := 120#32
  let v0 : BitVec 32 := Scalar.addi c120_i32 arg0
  let c0_i32 : BitVec 32 := 0#32
  let c0_i32_0 : BitVec 32 := 0#32
  ![v0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S16x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2048x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c252_i32 : BitVec 32 := 252#32
  let v0 : BitVec 32 := Scalar.addi c252_i32 arg0
  let c0_i32 : BitVec 32 := 0#32
  let c0_i32_0 : BitVec 32 := 0#32
  ![v0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c124_i32 : BitVec 32 := 124#32
  let v0 : BitVec 32 := Scalar.addi c124_i32 arg0
  let c0_i32 : BitVec 32 := 0#32
  let c0_i32_0 : BitVec 32 := 0#32
  ![v0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096x1 .i32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S16x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2048x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c254_i32 : BitVec 32 := 254#32
  let v0 : BitVec 32 := Scalar.addi c254_i32 arg0
  let c0_i32 : BitVec 32 := 0#32
  let c0_i32_0 : BitVec 32 := 0#32
  ![v0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c126_i32 : BitVec 32 := 126#32
  let v0 : BitVec 32 := Scalar.addi c126_i32 arg0
  let c0_i32 : BitVec 32 := 0#32
  let c0_i32_0 : BitVec 32 := 0#32
  ![v0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S2048x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S4096x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S4096x1 .i32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S16x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S2048x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c510_i32 : BitVec 32 := 510#32
  let v0 : BitVec 32 := Scalar.addi c510_i32 arg0
  let c0_i32 : BitVec 32 := 0#32
  let c0_i32_0 : BitVec 32 := 0#32
  ![v0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c254_i32 : BitVec 32 := 254#32
  let v0 : BitVec 32 := Scalar.addi c254_i32 arg0
  let c0_i32 : BitVec 32 := 0#32
  let c0_i32_0 : BitVec 32 := 0#32
  ![v0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S1024x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S2048x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S2048x1 .i32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S16x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1024x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![true]

class Facts₀ : Prop where
  slices_S256x256_S256x128_0_0 : S256x256.Slices ![0, 0] S256x128
  transposes_S256x128_S128x256_1_0 : S256x128.Transposes [1, 0] S128x256
  shapeCasts_S256_S1x256 : S256.ShapeCasts S1x256
  shapeCasts_S522240_S522240x1 : S522240.ShapeCasts S522240x1
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S8192x256_S8192x256_0_0 : ∀ a, (![0, 0] : Fin 2 → Nat) a + S8192x256.size a ≤ S8192x256.size a
  h_S8192x256 : 0 < S8192x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x16_d1_w32 : S4096x16.Iotas .tc 32 [1]
  broadcasts_S4096x1_S4096x16 : S4096x1.Broadcasts S4096x16
  natLt_1_32 : 1 < 32
  inb_S16x256_S16x256_0_0 : ∀ a, (![0, 0] : Fin 2 → Nat) a + S16x256.size a ≤ S16x256.size a
  h_S16x256 : 0 < S16x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S4096x256_S2048x2x256 : S4096x256.ShapeCasts S2048x2x256
  reduces_S2048x2x256_S2048x256 : S2048x2x256.Reduces [1] S2048x256
  inb_S2048x128_S2048x128_0_0 : ∀ a, (![0, 0] : Fin 2 → Nat) a + S2048x128.size a ≤ S2048x128.size a
  h_S2048x128 : 0 < S2048x128.numel
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x16_d1_w32 : S2048x16.Iotas .tc 32 [1]
  broadcasts_S2048x1_S2048x16 : S2048x1.Broadcasts S2048x16
  shapeCasts_S2048x256_S2048x256 : S2048x256.ShapeCasts S2048x256
  shapeCasts_S2048x256_S1024x2x256 : S2048x256.ShapeCasts S1024x2x256
  reduces_S1024x2x256_S1024x256 : S1024x2x256.Reduces [1] S1024x256
  inb_S1024x128_S1024x128_0_0 : ∀ a, (![0, 0] : Fin 2 → Nat) a + S1024x128.size a ≤ S1024x128.size a
  h_S1024x128 : 0 < S1024x128.numel
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  concatenates_S262144x256_S131072x256_S65536x256_S32768x256_S16384x256_S8192x256_S4096x256_S2048x256_S1024x256_S523264x256_d0 : Shape.Concatenates [S262144x256, S131072x256, S65536x256, S32768x256, S16384x256, S8192x256, S4096x256, S2048x256, S1024x256] S523264x256 0
  dot_S8192x128_S128x256_S8192x256_1_0_0_1_n_n_wf : DotDims.WF S8192x128 S128x256 S8192x256 [1] [0] [0] [1] [] []
  dot_S4096x16_S16x256_S4096x256_1_0_0_1_n_n_wf : DotDims.WF S4096x16 S16x256 S4096x256 [1] [0] [0] [1] [] []
  dot_S2048x128_S128x256_S2048x256_1_0_0_1_n_n_wf : DotDims.WF S2048x128 S128x256 S2048x256 [1] [0] [0] [1] [] []
  dot_S2048x16_S16x256_S2048x256_1_0_0_1_n_n_wf : DotDims.WF S2048x16 S16x256 S2048x256 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S523264x128.size a
  hwx0_0 : ∀ i : grid0.Coords, EltTy.bits .f32 = 32 ∨ (Rect.unit (s := S523264x128) (fun a => cc0_transform_0 i a * S8192x128.size a) (fun a => (Pipeline.Clip.of (cc0_transform_0 i a) (S8192x128.size a) (S523264x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S523264x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S262144x256.size a
  hwx0_3 : ∀ i : grid0.Coords, EltTy.bits .f32 = 32 ∨ (Rect.block (s := S262144x256) S8192x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2048x128.size a < S523264x128.size a
  hwx1_0 : ∀ i : grid1.Coords, EltTy.bits .f32 = 32 ∨ (Rect.unit (s := S523264x128) (fun a => cc1_transform_0 i a * S2048x128.size a) (fun a => (Pipeline.Clip.of (cc1_transform_0 i a) (S2048x128.size a) (S523264x128.size a)).extent (S2048x128.size a)) fun a => Pipeline.Clip.inb (Pipeline.Clip.ok_of (hstart1_0 i a))).WholeWords (EltTy.packing .f32)
  hwxs1_0 : ∀ i : grid1.Coords, EltTy.bits .f32 = 32 ∨ (Rect.unit (s := S2048x128) (fun _ => 0) (fun a => (Pipeline.Clip.of (cc1_transform_0 i a) (S2048x128.size a) (S523264x128.size a)).extent (S2048x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S262144x256.size a
  hwx1_1 : ∀ i : grid1.Coords, EltTy.bits .f32 = 32 ∨ (Rect.block (s := S262144x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4096x1.size a < S522240x1.size a
  hwx1_2 : ∀ i : grid1.Coords, EltTy.bits .i32 = 32 ∨ (Rect.unit (s := S522240x1) (fun a => cc1_transform_2 i a * S4096x1.size a) (fun a => (Pipeline.Clip.of (cc1_transform_2 i a) (S4096x1.size a) (S522240x1.size a)).extent (S4096x1.size a)) fun a => Pipeline.Clip.inb (Pipeline.Clip.ok_of (hstart1_2 i a))).WholeWords (EltTy.packing .i32)
  hwxs1_2 : ∀ i : grid1.Coords, EltTy.bits .i32 = 32 ∨ (Rect.unit (s := S4096x1) (fun _ => 0) (fun a => (Pipeline.Clip.of (cc1_transform_2 i a) (S4096x1.size a) (S522240x1.size a)).extent (S4096x1.size a)) fun a => (Nat.zero_add _).trans_le (Pipeline.Clip.extent_le (Pipeline.Clip.ok_of (hstart1_2 i a)))).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x256.size a ≤ S16x256.size a
  hwx1_3 : ∀ i : grid1.Coords, EltTy.bits .f32 = 32 ∨ (Rect.block (s := S16x256) S16x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S131072x256.size a
  hwx1_6 : ∀ i : grid1.Coords, EltTy.bits .f32 = 32 ∨ (Rect.block (s := S131072x256) S2048x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S2048x128.size a < S523264x128.size a
  hwx2_0 : ∀ i : grid2.Coords, EltTy.bits .f32 = 32 ∨ (Rect.unit (s := S523264x128) (fun a => cc2_transform_0 i a * S2048x128.size a) (fun a => (Pipeline.Clip.of (cc2_transform_0 i a) (S2048x128.size a) (S523264x128.size a)).extent (S2048x128.size a)) fun a => Pipeline.Clip.inb (Pipeline.Clip.ok_of (hstart2_0 i a))).WholeWords (EltTy.packing .f32)
  hwxs2_0 : ∀ i : grid2.Coords, EltTy.bits .f32 = 32 ∨ (Rect.unit (s := S2048x128) (fun _ => 0) (fun a => (Pipeline.Clip.of (cc2_transform_0 i a) (S2048x128.size a) (S523264x128.size a)).extent (S2048x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S131072x256.size a
  hwx2_1 : ∀ i : grid2.Coords, EltTy.bits .f32 = 32 ∨ (Rect.block (s := S131072x256) S4096x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S4096x1.size a < S522240x1.size a
  hwx2_2 : ∀ i : grid2.Coords, EltTy.bits .i32 = 32 ∨ (Rect.unit (s := S522240x1) (fun a => cc2_transform_2 i a * S4096x1.size a) (fun a => (Pipeline.Clip.of (cc2_transform_2 i a) (S4096x1.size a) (S522240x1.size a)).extent (S4096x1.size a)) fun a => Pipeline.Clip.inb (Pipeline.Clip.ok_of (hstart2_2 i a))).WholeWords (EltTy.packing .i32)
  hwxs2_2 : ∀ i : grid2.Coords, EltTy.bits .i32 = 32 ∨ (Rect.unit (s := S4096x1) (fun _ => 0) (fun a => (Pipeline.Clip.of (cc2_transform_2 i a) (S4096x1.size a) (S522240x1.size a)).extent (S4096x1.size a)) fun a => (Nat.zero_add _).trans_le (Pipeline.Clip.extent_le (Pipeline.Clip.ok_of (hstart2_2 i a)))).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x256.size a ≤ S16x256.size a
  hwx2_3 : ∀ i : grid2.Coords, EltTy.bits .f32 = 32 ∨ (Rect.block (s := S16x256) S16x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x256.size a ≤ S65536x256.size a
  hwx2_6 : ∀ i : grid2.Coords, EltTy.bits .f32 = 32 ∨ (Rect.block (s := S65536x256) S2048x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S2048x128.size a < S523264x128.size a
  hwx3_0 : ∀ i : grid3.Coords, EltTy.bits .f32 = 32 ∨ (Rect.unit (s := S523264x128) (fun a => cc3_transform_0 i a * S2048x128.size a) (fun a => (Pipeline.Clip.of (cc3_transform_0 i a) (S2048x128.size a) (S523264x128.size a)).extent (S2048x128.size a)) fun a => Pipeline.Clip.inb (Pipeline.Clip.ok_of (hstart3_0 i a))).WholeWords (EltTy.packing .f32)
  hwxs3_0 : ∀ i : grid3.Coords, EltTy.bits .f32 = 32 ∨ (Rect.unit (s := S2048x128) (fun _ => 0) (fun a => (Pipeline.Clip.of (cc3_transform_0 i a) (S2048x128.size a) (S523264x128.size a)).extent (S2048x128.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x256.size a ≤ S65536x256.size a
  hwx3_1 : ∀ i : grid3.Coords, EltTy.bits .f32 = 32 ∨ (Rect.block (s := S65536x256) S4096x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S4096x1.size a < S522240x1.size a
  hwx3_2 : ∀ i : grid3.Coords, EltTy.bits .i32 = 32 ∨ (Rect.unit (s := S522240x1) (fun a => cc3_transform_2 i a * S4096x1.size a) (fun a => (Pipeline.Clip.of (cc3_transform_2 i a) (S4096x1.size a) (S522240x1.size a)).extent (S4096x1.size a)) fun a => Pipeline.Clip.inb (Pipeline.Clip.ok_of (hstart3_2 i a))).WholeWords (EltTy.packing .i32)
  hwxs3_2 : ∀ i : grid3.Coords, EltTy.bits .i32 = 32 ∨ (Rect.unit (s := S4096x1) (fun _ => 0) (fun a => (Pipeline.Clip.of (cc3_transform_2 i a) (S4096x1.size a) (S522240x1.size a)).extent (S4096x1.size a)) fun a => (Nat.zero_add _).trans_le (Pipeline.Clip.extent_le (Pipeline.Clip.ok_of (hstart3_2 i a)))).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x256.size a ≤ S16x256.size a
  hwx3_3 : ∀ i : grid3.Coords, EltTy.bits .f32 = 32 ∨ (Rect.block (s := S16x256) S16x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .f32 = 32 ∨ (Rect.block (s := S128x256) S128x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x256.size a ≤ S32768x256.size a
  hwx3_6 : ∀ i : grid3.Coords, EltTy.bits .f32 = 32 ∨ (Rect.block (s := S32768x256) S2048x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S2048x128.size a < S523264x128.size a
  hwx4_0 : ∀ i : grid4.Coords, EltTy.bits .f32 = 32 ∨ (Rect.unit (s := S523264x128) (fun a => cc4_transform_0 i a * S2048x128.size a) (fun a => (Pipeline.Clip.of (cc4_transform_0 i a) (S2048x128.size a) (S523264x128.size a)).extent (S2048x128.size a)) fun a => Pipeline.Clip.inb (Pipeline.Clip.ok_of (hstart4_0 i a))).WholeWords (EltTy.packing .f32)
  hwxs4_0 : ∀ i : grid4.Coords, EltTy.bits .f32 = 32 ∨ (Rect.unit (s := S2048x128) (fun _ => 0) (fun a => (Pipeline.Clip.of (cc4_transform_0 i a) (S2048x128.size a) (S523264x128.size a)).extent (S2048x128.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x256.size a ≤ S32768x256.size a
  hwx4_1 : ∀ i : grid4.Coords, EltTy.bits .f32 = 32 ∨ (Rect.block (s := S32768x256) S4096x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S4096x1.size a < S522240x1.size a
  hwx4_2 : ∀ i : grid4.Coords, EltTy.bits .i32 = 32 ∨ (Rect.unit (s := S522240x1) (fun a => cc4_transform_2 i a * S4096x1.size a) (fun a => (Pipeline.Clip.of (cc4_transform_2 i a) (S4096x1.size a) (S522240x1.size a)).extent (S4096x1.size a)) fun a => Pipeline.Clip.inb (Pipeline.Clip.ok_of (hstart4_2 i a))).WholeWords (EltTy.packing .i32)
  hwxs4_2 : ∀ i : grid4.Coords, EltTy.bits .i32 = 32 ∨ (Rect.unit (s := S4096x1) (fun _ => 0) (fun a => (Pipeline.Clip.of (cc4_transform_2 i a) (S4096x1.size a) (S522240x1.size a)).extent (S4096x1.size a)) fun a => (Nat.zero_add _).trans_le (Pipeline.Clip.extent_le (Pipeline.Clip.ok_of (hstart4_2 i a)))).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x256.size a ≤ S16x256.size a
  hwx4_3 : ∀ i : grid4.Coords, EltTy.bits .f32 = 32 ∨ (Rect.block (s := S16x256) S16x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x256.size a ≤ S128x256.size a
  hwx4_4 : ∀ i : grid4.Coords, EltTy.bits .f32 = 32 ∨ (Rect.block (s := S128x256) S128x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x256.size a ≤ S16384x256.size a
  hwx4_6 : ∀ i : grid4.Coords, EltTy.bits .f32 = 32 ∨ (Rect.block (s := S16384x256) S2048x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S2048x128.size a < S523264x128.size a
  hwx5_0 : ∀ i : grid5.Coords, EltTy.bits .f32 = 32 ∨ (Rect.unit (s := S523264x128) (fun a => cc5_transform_0 i a * S2048x128.size a) (fun a => (Pipeline.Clip.of (cc5_transform_0 i a) (S2048x128.size a) (S523264x128.size a)).extent (S2048x128.size a)) fun a => Pipeline.Clip.inb (Pipeline.Clip.ok_of (hstart5_0 i a))).WholeWords (EltTy.packing .f32)
  hwxs5_0 : ∀ i : grid5.Coords, EltTy.bits .f32 = 32 ∨ (Rect.unit (s := S2048x128) (fun _ => 0) (fun a => (Pipeline.Clip.of (cc5_transform_0 i a) (S2048x128.size a) (S523264x128.size a)).extent (S2048x128.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x256.size a ≤ S16384x256.size a
  hwx5_1 : ∀ i : grid5.Coords, EltTy.bits .f32 = 32 ∨ (Rect.block (s := S16384x256) S4096x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hstart5_2 : ∀ (i : grid5.Coords) a, cc5_transform_2 i a * S4096x1.size a < S522240x1.size a
  hwx5_2 : ∀ i : grid5.Coords, EltTy.bits .i32 = 32 ∨ (Rect.unit (s := S522240x1) (fun a => cc5_transform_2 i a * S4096x1.size a) (fun a => (Pipeline.Clip.of (cc5_transform_2 i a) (S4096x1.size a) (S522240x1.size a)).extent (S4096x1.size a)) fun a => Pipeline.Clip.inb (Pipeline.Clip.ok_of (hstart5_2 i a))).WholeWords (EltTy.packing .i32)
  hwxs5_2 : ∀ i : grid5.Coords, EltTy.bits .i32 = 32 ∨ (Rect.unit (s := S4096x1) (fun _ => 0) (fun a => (Pipeline.Clip.of (cc5_transform_2 i a) (S4096x1.size a) (S522240x1.size a)).extent (S4096x1.size a)) fun a => (Nat.zero_add _).trans_le (Pipeline.Clip.extent_le (Pipeline.Clip.ok_of (hstart5_2 i a)))).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x256.size a ≤ S16x256.size a
  hwx5_3 : ∀ i : grid5.Coords, EltTy.bits .f32 = 32 ∨ (Rect.block (s := S16x256) S16x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x256.size a ≤ S128x256.size a
  hwx5_4 : ∀ i : grid5.Coords, EltTy.bits .f32 = 32 ∨ (Rect.block (s := S128x256) S128x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2048x256.size a ≤ S8192x256.size a
  hwx5_6 : ∀ i : grid5.Coords, EltTy.bits .f32 = 32 ∨ (Rect.block (s := S8192x256) S2048x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hstart6_0 : ∀ (i : grid6.Coords) a, cc6_transform_0 i a * S2048x128.size a < S523264x128.size a
  hwx6_0 : ∀ i : grid6.Coords, EltTy.bits .f32 = 32 ∨ (Rect.unit (s := S523264x128) (fun a => cc6_transform_0 i a * S2048x128.size a) (fun a => (Pipeline.Clip.of (cc6_transform_0 i a) (S2048x128.size a) (S523264x128.size a)).extent (S2048x128.size a)) fun a => Pipeline.Clip.inb (Pipeline.Clip.ok_of (hstart6_0 i a))).WholeWords (EltTy.packing .f32)
  hwxs6_0 : ∀ i : grid6.Coords, EltTy.bits .f32 = 32 ∨ (Rect.unit (s := S2048x128) (fun _ => 0) (fun a => (Pipeline.Clip.of (cc6_transform_0 i a) (S2048x128.size a) (S523264x128.size a)).extent (S2048x128.size a)) fun a => (Nat.zero_add _).trans_le (Pipeline.Clip.extent_le (Pipeline.Clip.ok_of (hstart6_0 i a)))).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x256.size a ≤ S8192x256.size a
  hwx6_1 : ∀ i : grid6.Coords, EltTy.bits .f32 = 32 ∨ (Rect.block (s := S8192x256) S4096x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hstart6_2 : ∀ (i : grid6.Coords) a, cc6_transform_2 i a * S4096x1.size a < S522240x1.size a
  hwx6_2 : ∀ i : grid6.Coords, EltTy.bits .i32 = 32 ∨ (Rect.unit (s := S522240x1) (fun a => cc6_transform_2 i a * S4096x1.size a) (fun a => (Pipeline.Clip.of (cc6_transform_2 i a) (S4096x1.size a) (S522240x1.size a)).extent (S4096x1.size a)) fun a => Pipeline.Clip.inb (Pipeline.Clip.ok_of (hstart6_2 i a))).WholeWords (EltTy.packing .i32)
  hwxs6_2 : ∀ i : grid6.Coords, EltTy.bits .i32 = 32 ∨ (Rect.unit (s := S4096x1) (fun _ => 0) (fun a => (Pipeline.Clip.of (cc6_transform_2 i a) (S4096x1.size a) (S522240x1.size a)).extent (S4096x1.size a)) fun a => (Nat.zero_add _).trans_le (Pipeline.Clip.extent_le (Pipeline.Clip.ok_of (hstart6_2 i a)))).WholeWords (EltTy.packing .i32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x256.size a ≤ S16x256.size a
  hwx6_3 : ∀ i : grid6.Coords, EltTy.bits .f32 = 32 ∨ (Rect.block (s := S16x256) S16x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x256.size a ≤ S128x256.size a
  hwx6_4 : ∀ i : grid6.Coords, EltTy.bits .f32 = 32 ∨ (Rect.block (s := S128x256) S128x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2048x256.size a ≤ S4096x256.size a
  hwx6_6 : ∀ i : grid6.Coords, EltTy.bits .f32 = 32 ∨ (Rect.block (s := S4096x256) S2048x256.size (cc6_transform_6 i) (hinb6_6 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hstart7_0 : ∀ (i : grid7.Coords) a, cc7_transform_0 i a * S2048x128.size a < S523264x128.size a
  hwx7_0 : ∀ i : grid7.Coords, EltTy.bits .f32 = 32 ∨ (Rect.unit (s := S523264x128) (fun a => cc7_transform_0 i a * S2048x128.size a) (fun a => (Pipeline.Clip.of (cc7_transform_0 i a) (S2048x128.size a) (S523264x128.size a)).extent (S2048x128.size a)) fun a => Pipeline.Clip.inb (Pipeline.Clip.ok_of (hstart7_0 i a))).WholeWords (EltTy.packing .f32)
  hwxs7_0 : ∀ i : grid7.Coords, EltTy.bits .f32 = 32 ∨ (Rect.unit (s := S2048x128) (fun _ => 0) (fun a => (Pipeline.Clip.of (cc7_transform_0 i a) (S2048x128.size a) (S523264x128.size a)).extent (S2048x128.size a)) fun a => (Nat.zero_add _).trans_le (Pipeline.Clip.extent_le (Pipeline.Clip.ok_of (hstart7_0 i a)))).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S4096x256.size a ≤ S4096x256.size a
  hwx7_1 : ∀ i : grid7.Coords, EltTy.bits .f32 = 32 ∨ (Rect.block (s := S4096x256) S4096x256.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hstart7_2 : ∀ (i : grid7.Coords) a, cc7_transform_2 i a * S4096x1.size a < S522240x1.size a
  hwx7_2 : ∀ i : grid7.Coords, EltTy.bits .i32 = 32 ∨ (Rect.unit (s := S522240x1) (fun a => cc7_transform_2 i a * S4096x1.size a) (fun a => (Pipeline.Clip.of (cc7_transform_2 i a) (S4096x1.size a) (S522240x1.size a)).extent (S4096x1.size a)) fun a => Pipeline.Clip.inb (Pipeline.Clip.ok_of (hstart7_2 i a))).WholeWords (EltTy.packing .i32)
  hwxs7_2 : ∀ i : grid7.Coords, EltTy.bits .i32 = 32 ∨ (Rect.unit (s := S4096x1) (fun _ => 0) (fun a => (Pipeline.Clip.of (cc7_transform_2 i a) (S4096x1.size a) (S522240x1.size a)).extent (S4096x1.size a)) fun a => (Nat.zero_add _).trans_le (Pipeline.Clip.extent_le (Pipeline.Clip.ok_of (hstart7_2 i a)))).WholeWords (EltTy.packing .i32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S16x256.size a ≤ S16x256.size a
  hwx7_3 : ∀ i : grid7.Coords, EltTy.bits .f32 = 32 ∨ (Rect.block (s := S16x256) S16x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x256.size a ≤ S128x256.size a
  hwx7_4 : ∀ i : grid7.Coords, EltTy.bits .f32 = 32 ∨ (Rect.block (s := S128x256) S128x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 false = 1
  hreads7_6 : ∀ i i' : grid7.Coords, (∀ a, reads7_6 a = true → i a = i' a) → cc7_transform_6 i = cc7_transform_6 i'
  hinb7_6 : ∀ (i : grid7.Coords) a, (cc7_transform_6 i a + 1) * S2048x256.size a ≤ S2048x256.size a
  hwx7_6 : ∀ i : grid7.Coords, EltTy.bits .f32 = 32 ∨ (Rect.block (s := S2048x256) S2048x256.size (cc7_transform_6 i) (hinb7_6 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S1024x128.size a ≤ S523264x128.size a
  hwx8_0 : ∀ i : grid8.Coords, EltTy.bits .f32 = 32 ∨ (Rect.block (s := S523264x128) S1024x128.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S2048x256.size a ≤ S2048x256.size a
  hwx8_1 : ∀ i : grid8.Coords, EltTy.bits .f32 = 32 ∨ (Rect.block (s := S2048x256) S2048x256.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S2048x1.size a ≤ S522240x1.size a
  hwx8_2 : ∀ i : grid8.Coords, EltTy.bits .i32 = 32 ∨ (Rect.block (s := S522240x1) S2048x1.size (cc8_transform_2 i) (hinb8_2 i)).WholeWords (EltTy.packing .i32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S16x256.size a ≤ S16x256.size a
  hwx8_3 : ∀ i : grid8.Coords, EltTy.bits .f32 = 32 ∨ (Rect.block (s := S16x256) S16x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x256.size a ≤ S128x256.size a
  hwx8_4 : ∀ i : grid8.Coords, EltTy.bits .f32 = 32 ∨ (Rect.block (s := S128x256) S128x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 false = 1
  hreads8_6 : ∀ i i' : grid8.Coords, (∀ a, reads8_6 a = true → i a = i' a) → cc8_transform_6 i = cc8_transform_6 i'
  hinb8_6 : ∀ (i : grid8.Coords) a, (cc8_transform_6 i a + 1) * S1024x256.size a ≤ S1024x256.size a
  hwx8_6 : ∀ i : grid8.Coords, EltTy.bits .f32 = 32 ∨ (Rect.block (s := S1024x256) S1024x256.size (cc8_transform_6 i) (hinb8_6 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpecClip (Memref.whole main_arg0) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_arg0) S2048x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v4) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpecClip (Memref.whole main_v3) S4096x1.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_arg3) S16x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpecClip (Memref.whole main_arg0) S2048x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v5) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpecClip (Memref.whole main_v3) S4096x1.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_arg3) S16x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S2048x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpecClip (Memref.whole main_arg0) S2048x128.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v6) S4096x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpecClip (Memref.whole main_v3) S4096x1.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpec (Memref.whole main_arg3) S16x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v1) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v2) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v7) S2048x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpecClip (Memref.whole main_arg0) S2048x128.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpec (Memref.whole main_v7) S4096x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpecClip (Memref.whole main_v3) S4096x1.size cc4_transform_2 reads4_2 false false 2 stage4_2 sem4_2
    hrank4 hreads4_2 hstart4_2 nbuf4_2 (Memref.isWhole_whole _) hwx4_2 hwxs4_2 hstage4_2

abbrev win4_3 : Pipeline.Window sig grid4 :=
  Pipeline.Window.ofSpec (Memref.whole main_arg3) S16x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v1) S128x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v2) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v8) S2048x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpecClip (Memref.whole main_arg0) S2048x128.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpec (Memref.whole main_v8) S4096x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpecClip (Memref.whole main_v3) S4096x1.size cc5_transform_2 reads5_2 false false 2 stage5_2 sem5_2
    hrank5 hreads5_2 hstart5_2 nbuf5_2 (Memref.isWhole_whole _) hwx5_2 hwxs5_2 hstage5_2

abbrev win5_3 : Pipeline.Window sig grid5 :=
  Pipeline.Window.ofSpec (Memref.whole main_arg3) S16x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v1) S128x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v2) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v9) S2048x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpecClip (Memref.whole main_arg0) S2048x128.size cc6_transform_0 reads6_0 false false 2 stage6_0 sem6_0
    hrank6 hreads6_0 hstart6_0 nbuf6_0 (Memref.isWhole_whole _) hwx6_0 hwxs6_0 hstage6_0

abbrev win6_1 : Pipeline.Window sig grid6 :=
  Pipeline.Window.ofSpec (Memref.whole main_v9) S4096x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpecClip (Memref.whole main_v3) S4096x1.size cc6_transform_2 reads6_2 false false 2 stage6_2 sem6_2
    hrank6 hreads6_2 hstart6_2 nbuf6_2 (Memref.isWhole_whole _) hwx6_2 hwxs6_2 hstage6_2

abbrev win6_3 : Pipeline.Window sig grid6 :=
  Pipeline.Window.ofSpec (Memref.whole main_arg3) S16x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v1) S128x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v2) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v10) S2048x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpecClip (Memref.whole main_arg0) S2048x128.size cc7_transform_0 reads7_0 false false 1 stage7_0 sem7_0
    hrank7 hreads7_0 hstart7_0 nbuf7_0 (Memref.isWhole_whole _) hwx7_0 hwxs7_0 hstage7_0

abbrev win7_1 : Pipeline.Window sig grid7 :=
  Pipeline.Window.ofSpec (Memref.whole main_v10) S4096x256.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpecClip (Memref.whole main_v3) S4096x1.size cc7_transform_2 reads7_2 false false 1 stage7_2 sem7_2
    hrank7 hreads7_2 hstart7_2 nbuf7_2 (Memref.isWhole_whole _) hwx7_2 hwxs7_2 hstage7_2

abbrev win7_3 : Pipeline.Window sig grid7 :=
  Pipeline.Window.ofSpec (Memref.whole main_arg3) S16x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v1) S128x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v2) S1x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v11) S2048x256.size cc7_transform_6 reads7_6 true false 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_arg0) S1024x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v11) S2048x256.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v3) S2048x1.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_arg3) S16x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v1) S128x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v2) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v12) S1024x256.size cc8_transform_6 reads8_6 true false 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S523264x128 : Shape := ⟨2, ![523264, 128]⟩
abbrev S256x256 : Shape := ⟨2, ![256, 256]⟩
abbrev S256 : Shape := ⟨1, ![256]⟩
abbrev S16x256 : Shape := ⟨2, ![16, 256]⟩
abbrev S522240 : Shape := ⟨1, ![522240]⟩
abbrev S_ : Shape := ⟨0, ![]⟩
abbrev S523264x256 : Shape := ⟨2, ![523264, 256]⟩
abbrev S522240x1 : Shape := ⟨2, ![522240, 1]⟩
abbrev S522240x256 : Shape := ⟨2, ![522240, 256]⟩
abbrev S262144x256 : Shape := ⟨2, ![262144, 256]⟩
abbrev S1x256 : Shape := ⟨2, ![1, 256]⟩
abbrev S131072x2x256 : Shape := ⟨3, ![131072, 2, 256]⟩
abbrev S131072x256 : Shape := ⟨2, ![131072, 256]⟩
abbrev S65536x2x256 : Shape := ⟨3, ![65536, 2, 256]⟩
abbrev S65536x256 : Shape := ⟨2, ![65536, 256]⟩
abbrev S32768x2x256 : Shape := ⟨3, ![32768, 2, 256]⟩
abbrev S32768x256 : Shape := ⟨2, ![32768, 256]⟩
abbrev S16384x2x256 : Shape := ⟨3, ![16384, 2, 256]⟩
abbrev S16384x256 : Shape := ⟨2, ![16384, 256]⟩
abbrev S8192x2x256 : Shape := ⟨3, ![8192, 2, 256]⟩
abbrev S8192x256 : Shape := ⟨2, ![8192, 256]⟩
abbrev S4096x2x256 : Shape := ⟨3, ![4096, 2, 256]⟩
abbrev S4096x256 : Shape := ⟨2, ![4096, 256]⟩
abbrev S2048x2x256 : Shape := ⟨3, ![2048, 2, 256]⟩
abbrev S2048x256 : Shape := ⟨2, ![2048, 256]⟩
abbrev S1024x2x256 : Shape := ⟨3, ![1024, 2, 256]⟩
abbrev S1024x256 : Shape := ⟨2, ![1024, 256]⟩

abbrev nBuf : Space → Nat
  | .hbm => 137
  | .vmem => 0
  | .smem => 0
  | _ => 0

abbrev hbmTy0_0 (i : Nat) : BufTy := match i % 128 with
  | 0 => ⟨S523264x128, .f32⟩
  | 1 => ⟨S256x256, .f32⟩
  | 2 => ⟨S256, .f32⟩
  | 3 => ⟨S16x256, .f32⟩
  | 4 => ⟨S522240, .i32⟩
  | 5 => ⟨S_, .f32⟩
  | 6 => ⟨S523264x128, .f32⟩
  | 7 => ⟨S523264x256, .f32⟩
  | 8 => ⟨S_, .i32⟩
  | 9 => ⟨S522240, .i32⟩
  | 10 => ⟨S522240, .i1⟩
  | 11 => ⟨S_, .i32⟩
  | 12 => ⟨S522240, .i32⟩
  | 13 => ⟨S522240, .i32⟩
  | 14 => ⟨S522240, .i32⟩
  | 15 => ⟨S522240x1, .i32⟩
  | 16 => ⟨S522240x256, .f32⟩
  | 17 => ⟨S262144x256, .f32⟩
  | 18 => ⟨S256x256, .f32⟩
  | 19 => ⟨S262144x256, .f32⟩
  | 20 => ⟨S1x256, .f32⟩
  | 21 => ⟨S262144x256, .f32⟩
  | 22 => ⟨S262144x256, .f32⟩
  | 23 => ⟨S262144x256, .f32⟩
  | 24 => ⟨S262144x256, .f32⟩
  | 25 => ⟨S131072x2x256, .f32⟩
  | 26 => ⟨S131072x2x256, .f32⟩
  | 27 => ⟨S131072x2x256, .f32⟩
  | 28 => ⟨S_, .f32⟩
  | 29 => ⟨S131072x256, .f32⟩
  | 30 => ⟨S131072x256, .f32⟩
  | 31 => ⟨S256x256, .f32⟩
  | 32 => ⟨S131072x256, .f32⟩
  | 33 => ⟨S1x256, .f32⟩
  | 34 => ⟨S131072x256, .f32⟩
  | 35 => ⟨S131072x256, .f32⟩
  | 36 => ⟨S131072x256, .f32⟩
  | 37 => ⟨S131072x256, .f32⟩
  | 38 => ⟨S131072x256, .f32⟩
  | 39 => ⟨S65536x2x256, .f32⟩
  | 40 => ⟨S65536x2x256, .f32⟩
  | 41 => ⟨S65536x2x256, .f32⟩
  | 42 => ⟨S_, .f32⟩
  | 43 => ⟨S65536x256, .f32⟩
  | 44 => ⟨S65536x256, .f32⟩
  | 45 => ⟨S256x256, .f32⟩
  | 46 => ⟨S65536x256, .f32⟩
  | 47 => ⟨S1x256, .f32⟩
  | 48 => ⟨S65536x256, .f32⟩
  | 49 => ⟨S65536x256, .f32⟩
  | 50 => ⟨S65536x256, .f32⟩
  | 51 => ⟨S65536x256, .f32⟩
  | 52 => ⟨S65536x256, .f32⟩
  | 53 => ⟨S32768x2x256, .f32⟩
  | 54 => ⟨S32768x2x256, .f32⟩
  | 55 => ⟨S32768x2x256, .f32⟩
  | 56 => ⟨S_, .f32⟩
  | 57 => ⟨S32768x256, .f32⟩
  | 58 => ⟨S32768x256, .f32⟩
  | 59 => ⟨S256x256, .f32⟩
  | 60 => ⟨S32768x256, .f32⟩
  | 61 => ⟨S1x256, .f32⟩
  | 62 => ⟨S32768x256, .f32⟩
  | 63 => ⟨S32768x256, .f32⟩
  | 64 => ⟨S32768x256, .f32⟩
  | 65 => ⟨S32768x256, .f32⟩
  | 66 => ⟨S32768x256, .f32⟩
  | 67 => ⟨S16384x2x256, .f32⟩
  | 68 => ⟨S16384x2x256, .f32⟩
  | 69 => ⟨S16384x2x256, .f32⟩
  | 70 => ⟨S_, .f32⟩
  | 71 => ⟨S16384x256, .f32⟩
  | 72 => ⟨S16384x256, .f32⟩
  | 73 => ⟨S256x256, .f32⟩
  | 74 => ⟨S16384x256, .f32⟩
  | 75 => ⟨S1x256, .f32⟩
  | 76 => ⟨S16384x256, .f32⟩
  | 77 => ⟨S16384x256, .f32⟩
  | 78 => ⟨S16384x256, .f32⟩
  | 79 => ⟨S16384x256, .f32⟩
  | 80 => ⟨S16384x256, .f32⟩
  | 81 => ⟨S8192x2x256, .f32⟩
  | 82 => ⟨S8192x2x256, .f32⟩
  | 83 => ⟨S8192x2x256, .f32⟩
  | 84 => ⟨S_, .f32⟩
  | 85 => ⟨S8192x256, .f32⟩
  | 86 => ⟨S8192x256, .f32⟩
  | 87 => ⟨S256x256, .f32⟩
  | 88 => ⟨S8192x256, .f32⟩
  | 89 => ⟨S1x256, .f32⟩
  | 90 => ⟨S8192x256, .f32⟩
  | 91 => ⟨S8192x256, .f32⟩
  | 92 => ⟨S8192x256, .f32⟩
  | 93 => ⟨S8192x256, .f32⟩
  | 94 => ⟨S8192x256, .f32⟩
  | 95 => ⟨S4096x2x256, .f32⟩
  | 96 => ⟨S4096x2x256, .f32⟩
  | 97 => ⟨S4096x2x256, .f32⟩
  | 98 => ⟨S_, .f32⟩
  | 99 => ⟨S4096x256, .f32⟩
  | 100 => ⟨S4096x256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S4096x256, .f32⟩
  | 107 => ⟨S4096x256, .f32⟩
  | 108 => ⟨S4096x256, .f32⟩
  | 109 => ⟨S2048x2x256, .f32⟩
  | 110 => ⟨S2048x2x256, .f32⟩
  | 111 => ⟨S2048x2x256, .f32⟩
  | 112 => ⟨S_, .f32⟩
  | 113 => ⟨S2048x256, .f32⟩
  | 114 => ⟨S2048x256, .f32⟩
  | 115 => ⟨S256x256, .f32⟩
  | 116 => ⟨S2048x256, .f32⟩
  | 117 => ⟨S1x256, .f32⟩
  | 118 => ⟨S2048x256, .f32⟩
  | 119 => ⟨S2048x256, .f32⟩
  | 120 => ⟨S2048x256, .f32⟩
  | 121 => ⟨S2048x256, .f32⟩
  | 122 => ⟨S2048x256, .f32⟩
  | 123 => ⟨S1024x2x256, .f32⟩
  | 124 => ⟨S1024x2x256, .f32⟩
  | 125 => ⟨S1024x2x256, .f32⟩
  | 126 => ⟨S_, .f32⟩
  | 127 => ⟨S1024x256, .f32⟩
  | _ => ⟨S523264x128, .f32⟩

abbrev hbmTy0_1 (i : Nat) : BufTy := match i % 128 with
  | 0 => ⟨S1024x256, .f32⟩
  | 1 => ⟨S256x256, .f32⟩
  | 2 => ⟨S1024x256, .f32⟩
  | 3 => ⟨S1x256, .f32⟩
  | 4 => ⟨S1024x256, .f32⟩
  | 5 => ⟨S1024x256, .f32⟩
  | 6 => ⟨S1024x256, .f32⟩
  | 7 => ⟨S1024x256, .f32⟩
  | 8 => ⟨S523264x256, .f32⟩
  | _ => ⟨S523264x128, .f32⟩

abbrev hbmTy (i : Nat) : BufTy := match i / 128 with
  | 0 => hbmTy0_0 i
  | 1 => hbmTy0_1 i
  | _ => ⟨S523264x128, .f32⟩

abbrev bufTy : (tb : Table) → Fin (tcTables nBuf tb) → BufTy
  | .hbm, ⟨i, _⟩ => hbmTy i
  | _, _ => ⟨S523264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_6 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_7 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_cst_8 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩

abbrev nD : Nat := 1
abbrev τ : Topo := Topo.v7x

variable {F : FTy → Type} [FloatOps F]

class Facts₀ : Prop where
  bcast_S_S523264x128 : S_.BroadcastsInDim S523264x128 (![] : Fin 0 → Fin S523264x128.rank)
  concatenates_S523264x128_S523264x128_S523264x256_d1 : Shape.Concatenates [S523264x128, S523264x128] S523264x256 1
  bcast_S_S522240 : S_.BroadcastsInDim S522240 (![] : Fin 0 → Fin S522240.rank)
  bcast_S522240_S522240x1_0 : S522240.BroadcastsInDim S522240x1 (![0] : Fin 1 → Fin S522240x1.rank)
  slices_S523264x256_S262144x256_0_0 : S523264x256.Slices ![0, 0] S262144x256
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S522240x256_S262144x256_0_0 : S522240x256.Slices ![0, 0] S262144x256
  shapeCasts_S262144x256_S131072x2x256 : S262144x256.ShapeCasts S131072x2x256
  reducesTo_S131072x2x256_S131072x256_d1 : S131072x2x256.ReducesTo [1] S131072x256
  h_S_ : 0 < S_.numel
  slices_S523264x256_S131072x256_262144_0 : S523264x256.Slices ![262144, 0] S131072x256
  bcast_S1x256_S131072x256_0_1 : S1x256.BroadcastsInDim S131072x256 (![0, 1] : Fin 2 → Fin S131072x256.rank)
  slices_S522240x256_S131072x256_262144_0 : S522240x256.Slices ![262144, 0] S131072x256
  shapeCasts_S131072x256_S65536x2x256 : S131072x256.ShapeCasts S65536x2x256
  reducesTo_S65536x2x256_S65536x256_d1 : S65536x2x256.ReducesTo [1] S65536x256
  slices_S523264x256_S65536x256_393216_0 : S523264x256.Slices ![393216, 0] S65536x256
  bcast_S1x256_S65536x256_0_1 : S1x256.BroadcastsInDim S65536x256 (![0, 1] : Fin 2 → Fin S65536x256.rank)
  slices_S522240x256_S65536x256_393216_0 : S522240x256.Slices ![393216, 0] S65536x256
  shapeCasts_S65536x256_S32768x2x256 : S65536x256.ShapeCasts S32768x2x256
  reducesTo_S32768x2x256_S32768x256_d1 : S32768x2x256.ReducesTo [1] S32768x256
  slices_S523264x256_S32768x256_458752_0 : S523264x256.Slices ![458752, 0] S32768x256
  bcast_S1x256_S32768x256_0_1 : S1x256.BroadcastsInDim S32768x256 (![0, 1] : Fin 2 → Fin S32768x256.rank)
  slices_S522240x256_S32768x256_458752_0 : S522240x256.Slices ![458752, 0] S32768x256
  shapeCasts_S32768x256_S16384x2x256 : S32768x256.ShapeCasts S16384x2x256
  reducesTo_S16384x2x256_S16384x256_d1 : S16384x2x256.ReducesTo [1] S16384x256
  slices_S523264x256_S16384x256_491520_0 : S523264x256.Slices ![491520, 0] S16384x256
  bcast_S1x256_S16384x256_0_1 : S1x256.BroadcastsInDim S16384x256 (![0, 1] : Fin 2 → Fin S16384x256.rank)
  slices_S522240x256_S16384x256_491520_0 : S522240x256.Slices ![491520, 0] S16384x256
  shapeCasts_S16384x256_S8192x2x256 : S16384x256.ShapeCasts S8192x2x256
  reducesTo_S8192x2x256_S8192x256_d1 : S8192x2x256.ReducesTo [1] S8192x256
  slices_S523264x256_S8192x256_507904_0 : S523264x256.Slices ![507904, 0] S8192x256
  bcast_S1x256_S8192x256_0_1 : S1x256.BroadcastsInDim S8192x256 (![0, 1] : Fin 2 → Fin S8192x256.rank)
  slices_S522240x256_S8192x256_507904_0 : S522240x256.Slices ![507904, 0] S8192x256
  shapeCasts_S8192x256_S4096x2x256 : S8192x256.ShapeCasts S4096x2x256
  reducesTo_S4096x2x256_S4096x256_d1 : S4096x2x256.ReducesTo [1] S4096x256
  slices_S523264x256_S4096x256_516096_0 : S523264x256.Slices ![516096, 0] S4096x256
  bcast_S1x256_S4096x256_0_1 : S1x256.BroadcastsInDim S4096x256 (![0, 1] : Fin 2 → Fin S4096x256.rank)
  slices_S522240x256_S4096x256_516096_0 : S522240x256.Slices ![516096, 0] S4096x256
  shapeCasts_S4096x256_S2048x2x256 : S4096x256.ShapeCasts S2048x2x256
  reducesTo_S2048x2x256_S2048x256_d1 : S2048x2x256.ReducesTo [1] S2048x256
  slices_S523264x256_S2048x256_520192_0 : S523264x256.Slices ![520192, 0] S2048x256
  bcast_S1x256_S2048x256_0_1 : S1x256.BroadcastsInDim S2048x256 (![0, 1] : Fin 2 → Fin S2048x256.rank)
  slices_S522240x256_S2048x256_520192_0 : S522240x256.Slices ![520192, 0] S2048x256
  shapeCasts_S2048x256_S1024x2x256 : S2048x256.ShapeCasts S1024x2x256
  reducesTo_S1024x2x256_S1024x256_d1 : S1024x2x256.ReducesTo [1] S1024x256
  slices_S523264x256_S1024x256_522240_0 : S523264x256.Slices ![522240, 0] S1024x256
  bcast_S1x256_S1024x256_0_1 : S1x256.BroadcastsInDim S1024x256 (![0, 1] : Fin 2 → Fin S1024x256.rank)
  concatenates_S262144x256_S131072x256_S65536x256_S32768x256_S16384x256_S8192x256_S4096x256_S2048x256_S1024x256_S523264x256_d0 : Shape.Concatenates [S262144x256, S131072x256, S65536x256, S32768x256, S16384x256, S8192x256, S4096x256, S2048x256, S1024x256] S523264x256 0
  gather_S16x256_S522240x1_S522240x256_1_0_n_n_0_1_1256_wf : GatherDims.WF S16x256 S522240x1 S522240x256 [1] [0] [] [0] [] 1 ![1, 256]
  dot_S262144x256_S256x256_S262144x256_1_0_0_1_n_n_wf : DotDims.WF S262144x256 S256x256 S262144x256 [1] [0] [0] [1] [] []
  dot_S131072x256_S256x256_S131072x256_1_0_0_1_n_n_wf : DotDims.WF S131072x256 S256x256 S131072x256 [1] [0] [0] [1] [] []
  dot_S65536x256_S256x256_S65536x256_1_0_0_1_n_n_wf : DotDims.WF S65536x256 S256x256 S65536x256 [1] [0] [0] [1] [] []
  dot_S32768x256_S256x256_S32768x256_1_0_0_1_n_n_wf : DotDims.WF S32768x256 S256x256 S32768x256 [1] [0] [0] [1] [] []
  dot_S16384x256_S256x256_S16384x256_1_0_0_1_n_n_wf : DotDims.WF S16384x256 S256x256 S16384x256 [1] [0] [0] [1] [] []
  dot_S8192x256_S256x256_S8192x256_1_0_0_1_n_n_wf : DotDims.WF S8192x256 S256x256 S8192x256 [1] [0] [0] [1] [] []
  dot_S4096x256_S256x256_S4096x256_1_0_0_1_n_n_wf : DotDims.WF S4096x256 S256x256 S4096x256 [1] [0] [0] [1] [] []
  dot_S2048x256_S256x256_S2048x256_1_0_0_1_n_n_wf : DotDims.WF S2048x256 S256x256 S2048x256 [1] [0] [0] [1] [] []
  dot_S1024x256_S256x256_S1024x256_1_0_0_1_n_n_wf : DotDims.WF S1024x256 S256x256 S1024x256 [1] [0] [0] [1] [] []

variable [Facts₀]

def gather_S16x256_S522240x1_S522240x256_1_0_n_n_0_1_1256 : GatherDims S16x256 S522240x1 S522240x256 where
  offsetDims := [1]
  collapsedSliceDims := [0]
  operandBatchingDims := []
  startIndicesBatchingDims := []
  startIndexMap := [0]
  indexVectorDim := 1
  sliceSizes := ![1, 256]
  wf := gather_S16x256_S522240x1_S522240x256_1_0_n_n_0_1_1256_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

class Facts : Prop extends Facts₀ where

variable [Facts]
-- ==== Proof.LibRegionSeg.lean ====
import Idealize.ShloMosaic.Lib.Pipeline.RegionsLoop
import Idealize.ShloMosaic.Lib.Pipeline.FrameSuffix
import Idealize.ShloMosaic.Lib.Pipeline.Kit

noncomputable section

namespace Cert.Lib

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U]
  {Λ₀ : Idealize.SL.Sem.Labels} {P : Type} [Fintype P]

local notation "𝕄" => MT nD τ sig Unit Val ℕ U ℕ

section
variable {cfg : Cfg sig Λ₀} {c : Dev nD} (dat : Dat τ Val Unit ℕ U ℕ cfg c) (V : Valuation τ sig Val)

structure PlainDat : Prop where
  A : ∀ w, dat.A w = V (arrRef cfg.spec w)
  q : ∀ w, dat.q w = fullShare
  owed : ∀ t, dat.owed t = 0
  recorded : dat.recorded 0 = Set.univ
  Φ : ∀ t, dat.Φ t = ΦA cfg.spec c

abbrev exitVal : Valuation τ sig Val := withArrays cfg.spec c V fun w => dat.arrAt w cfg.N

theorem exitVal_keep (hinj : Function.Injective (arrRef cfg.spec)) (hA : ∀ w, dat.A w = V (arrRef cfg.spec w))
    (b : Ref sig .tc) (hb : ∀ w, arrRef cfg.spec w = b → (cfg.win w).isOut = false) : exitVal dat V b = V b := by
  by_cases h : ∃ w, arrRef cfg.spec w = b
  · obtain ⟨w, rfl⟩ := h
    rw [exitVal, withArrays_arr _ hinj, dat.arrAt_in w (hb w rfl), hA]
  · exact withArrays_of_ne _ c V _ b fun w e => h ⟨w, e⟩
end

variable (cfgs : P → Cfg sig Λ₀)
  (pdats : (p : P) → (c : Dev nD) → Dat τ Val Unit ℕ U ℕ (pin (fun q => (cfgs q).toPCfg (Val := Val)) (fun q => (cfgs q).toPCfg_adm) p) c)
  (defs₀ : Defs nD τ sig Val Λ₀) (𝒱₀ : Variants) (L : GSem nD τ sig → Finset Unit) (lv : GSem nD τ sig → Unit → ℕ)

def regionOfUnscoped {p : P} (kit : LaunchFacts (nD := nD) (τ := τ) cfgs p) (V : Dev nD → Valuation τ sig Val)
    (hbody : ∀ c, BodyObligation (pdats p c) defs₀ 𝒱₀ () Set.univ) (hdat : ∀ c, PlainDat (pdats p c) (V c)) :
    RegionSeg (fun q => (cfgs q).toPCfg (Val := Val)) (fun q => (cfgs q).toPCfg_adm) pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero _ _ _ _ L lv p fun c => (hdat c).owed
  pre c := iprop(StableHlo.held (c : Thread nD τ) (ucRefs τ sig) (V c) ∗ (∃ r, prngReg c r) ∗ ∃ W, owes (c : Thread nD τ) (0 : CellTallies nD τ sig Unit) W)
  post c := iprop(StableHlo.held (c : Thread nD τ) (ucRefs τ sig) (exitVal (pdats p c) (V c)) ∗ (∃ r, prngReg c r) ∗ ∃ W, owes (c : Thread nD τ) (0 : CellTallies nD τ sig Unit) W)
  X c := iprop(∃ r, prngReg c r)
  Y c := iprop(∃ r, prngReg c r)
  Z c := unscopedRest (Ix := Unit) (Name := ℕ) (U := U) (Lvl := ℕ) (cfgs p).spec c fun b => V c b
  hentry c := by
    rw [ownSems0_none]
    have hsplit := arrays_of_unscopedBufs (p := p) _ _ pdats kit.win kit.arr_whole c
      ((pdats p c).share_full (hdat c).q) (fun b => V c b) (hdat c).A
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin Dat.bound
      rw [(hdat c).owed, (hdat c).recorded]
      icases HO with ⟨%W, HO⟩; iexists W; isplitr; · ipureintro; exact fun _ _ => Or.inl trivial
      iexact HO
    isplitl [Hp]; · iexact Hp
    iexact Hrest
  hin c := by
    rw [(hdat c).Φ]; unfold ΦA
    iintro ⟨Hp, -, Hr⟩
    isplitl [Hr]; · iexact Hr
    iexact Hp
  hout c := by
    rw [ownSems0_none, (hdat c).Φ]; unfold ΦA
    iintro ⟨Hr, Hp⟩
    isplitl [Hp]; · iexact Hp
    isplitr; · iempintro
    iexact Hr
  hexit c := by
    have hjoin := unscopedBufs_of_arrays (p := p) _ _ kit.win kit.arr_whole c pdats ((pdats p c).share_full (hdat c).q)
      (fun b => V c b) (fun b => exitVal (pdats p c) (V c) b) ((pdats p c).arrAt · (cfgs p).N)
      (fun w => (withArrays_arr (cfgs p).spec kit.win.arr_inj c (V c) ((pdats p c).arrAt · (cfgs p).N) w).symm)
      fun b hb => withArrays_of_ne (cfgs p).spec c (V c) _ b fun w e => hb (Finset.mem_image.mpr ⟨w, Finset.mem_univ _, e⟩)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [(hdat c).owed]
    icases HO with ⟨%W, -, HO⟩; iexists W; iexact HO

end Cert.Lib

end
-- ==== Proof.K.R0.lean ====
import proofs.«430205_j2405181685797_1_alg».proof.Proof.Gen.Kernel.Launch
import proofs.«430205_j2405181685797_1_alg».proof.Proof.Gen.Kernel.Skeleton
import Idealize.ShloMosaic.Lib.Pipeline.FrameBody

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def sblk0_0 (c : Dev nD) (t : Fin cfg0.N) : Vec F S8192x128 .f32 :=
  (cfg0.win 0).fill (cfg0.grid.coords t) (fun _ => Scalar.ofBits .f32 0#32) (iblk0 V c 0 t)

def sblk0_1 (c : Dev nD) (t : Fin cfg0.N) : Vec F S128x256 .f32 := iblk0 V c 1 t

def sblk0_2 (c : Dev nD) (t : Fin cfg0.N) : Vec F S1x256 .f32 := iblk0 V c 2 t

abbrev r0_0 : Rect S8192x128 := Rect.unit (s := S8192x128) ![0, 0] S8192x128.size inb_S8192x128_S8192x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S8192x256 := Rect.unit (s := S8192x256) ![0, 0] S8192x256.size inb_S8192x256_S8192x256_0_0

def out0_3 (x0 : Vec F S8192x128 .f32) (x1 : Vec F S128x256 .f32) (x2 : Vec F S1x256 .f32) : Vec F S8192x256 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => sblk0_0 V c t
    | ⟨1, _⟩ => sblk0_1 V c t
    | ⟨2, _⟩ => sblk0_2 V c t
    | ⟨3, _⟩ => out0_3 (sblk0_0 V c t) (sblk0_1 V c t) (sblk0_2 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (sblk0_0 V c t) (sblk0_1 V c t) (sblk0_2 V c t) := by dsimp only [dat0]

theorem noclip0_0 : ∀ t : Fin cfg0.N, ∀ a, (cfg0.win 0).clip (cfg0.grid.coords t) a = none :=
  (by decide +kernel : ∀ t : Fin grid0.N, ∀ a, win0_0.clip (grid0.coords t) a = none)

end Cert.Kernel.Hand

end
-- ==== Proof.K.R1.lean ====
import proofs.«430205_j2405181685797_1_alg».proof.Proof.Gen.Kernel.Launch
import proofs.«430205_j2405181685797_1_alg».proof.Proof.Gen.Kernel.Skeleton
import Idealize.ShloMosaic.Lib.Pipeline.FrameBody

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def sblk1_0 (c : Dev nD) (t : Fin cfg1.N) : Vec F S2048x128 .f32 :=
  (cfg1.win 0).fill (cfg1.grid.coords t) (fun _ => Scalar.ofBits .f32 0#32) (iblk1 V c 0 t)

def sblk1_1 (c : Dev nD) (t : Fin cfg1.N) : Vec F S4096x256 .f32 := iblk1 V c 1 t

def sblk1_2 (c : Dev nD) (t : Fin cfg1.N) : Vec F S4096x1 .i32 :=
  (cfg1.win 2).fill (cfg1.grid.coords t) (fun _ => (0#32 : BitVec 32)) (iblk1 V c 2 t)

def sblk1_3 (c : Dev nD) (t : Fin cfg1.N) : Vec F S16x256 .f32 := iblk1 V c 3 t

def sblk1_4 (c : Dev nD) (t : Fin cfg1.N) : Vec F S128x256 .f32 := iblk1 V c 4 t

def sblk1_5 (c : Dev nD) (t : Fin cfg1.N) : Vec F S1x256 .f32 := iblk1 V c 5 t

abbrev r1_0 : Rect S2048x128 := Rect.unit (s := S2048x128) ![0, 0] S2048x128.size inb_S2048x128_S2048x128_0_0
abbrev r1_1 : Rect S4096x256 := Rect.unit (s := S4096x256) ![0, 0] S4096x256.size inb_S4096x256_S4096x256_0_0
abbrev r1_2 : Rect S4096x1 := Rect.unit (s := S4096x1) ![0, 0] S4096x1.size inb_S4096x1_S4096x1_0_0
abbrev r1_3 : Rect S16x256 := Rect.unit (s := S16x256) ![0, 0] S16x256.size inb_S16x256_S16x256_0_0
abbrev r1_4 : Rect S128x256 := Rect.unit (s := S128x256) ![0, 0] S128x256.size inb_S128x256_S128x256_0_0
abbrev r1_5 : Rect S1x256 := Rect.unit (s := S1x256) ![0, 0] S1x256.size inb_S1x256_S1x256_0_0
abbrev r1_6 : Rect S2048x256 := Rect.unit (s := S2048x256) ![0, 0] S2048x256.size inb_S2048x256_S2048x256_0_0

def out1_6 (x0 : Vec F S2048x128 .f32) (x1 : Vec F S4096x256 .f32) (x2 : Vec F S4096x1 .i32) (x3 : Vec F S16x256 .f32) (x4 : Vec F S128x256 .f32) (x5 : Vec F S1x256 .f32) : Vec F S2048x256 .f32 :=
  View.canon [⟨r1_6, k1_pay1 (View.ld x2 r1_2) (View.ld x3 r1_3) (View.ld x1 r1_1) (View.ld x0 r1_0) (View.ld x4 r1_4) (View.ld x5 r1_5)⟩]

def dat1 (c : Dev nD) : Dat τ (Elt F) Unit ℕ (UR sig nD τ) ℕ cfg1 c where
  A w := V c (Pipeline.arrRef spec1 w)
  after w t := match w with
    | ⟨0, _⟩ => sblk1_0 V c t
    | ⟨1, _⟩ => sblk1_1 V c t
    | ⟨2, _⟩ => sblk1_2 V c t
    | ⟨3, _⟩ => sblk1_3 V c t
    | ⟨4, _⟩ => sblk1_4 V c t
    | ⟨5, _⟩ => sblk1_5 V c t
    | ⟨6, _⟩ => out1_6 (sblk1_0 V c t) (sblk1_1 V c t) (sblk1_2 V c t) (sblk1_3 V c t) (sblk1_4 V c t) (sblk1_5 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (sblk1_0 V c t) (sblk1_1 V c t) (sblk1_2 V c t) (sblk1_3 V c t) (sblk1_4 V c t) (sblk1_5 V c t) := by dsimp only [dat1]

theorem noclip1_0 : ∀ t : Fin cfg1.N, ∀ a, (cfg1.win 0).clip (cfg1.grid.coords t) a = none :=
  (by decide +kernel : ∀ t : Fin grid1.N, ∀ a, win1_0.clip (grid1.coords t) a = none)

theorem noclip1_2 : ∀ t : Fin cfg1.N, ∀ a, (cfg1.win 2).clip (cfg1.grid.coords t) a = none :=
  (by decide +kernel : ∀ t : Fin grid1.N, ∀ a, win1_2.clip (grid1.coords t) a = none)

end Cert.Kernel.Hand

end
-- ==== Proof.K.R2.lean ====
import proofs.«430205_j2405181685797_1_alg».proof.Proof.K.R1

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def sblk2_0 (c : Dev nD) (t : Fin cfg2.N) : Vec F S2048x128 .f32 :=
  (cfg2.win 0).fill (cfg2.grid.coords t) (fun _ => Scalar.ofBits .f32 0#32) (iblk2 V c 0 t)

def sblk2_1 (c : Dev nD) (t : Fin cfg2.N) : Vec F S4096x256 .f32 := iblk2 V c 1 t

def sblk2_2 (c : Dev nD) (t : Fin cfg2.N) : Vec F S4096x1 .i32 :=
  (cfg2.win 2).fill (cfg2.grid.coords t) (fun _ => (0#32 : BitVec 32)) (iblk2 V c 2 t)

def sblk2_3 (c : Dev nD) (t : Fin cfg2.N) : Vec F S16x256 .f32 := iblk2 V c 3 t

def sblk2_4 (c : Dev nD) (t : Fin cfg2.N) : Vec F S128x256 .f32 := iblk2 V c 4 t

def sblk2_5 (c : Dev nD) (t : Fin cfg2.N) : Vec F S1x256 .f32 := iblk2 V c 5 t

def dat2 (c : Dev nD) : Dat τ (Elt F) Unit ℕ (UR sig nD τ) ℕ cfg2 c where
  A w := V c (Pipeline.arrRef spec2 w)
  after w t := match w with
    | ⟨0, _⟩ => sblk2_0 V c t
    | ⟨1, _⟩ => sblk2_1 V c t
    | ⟨2, _⟩ => sblk2_2 V c t
    | ⟨3, _⟩ => sblk2_3 V c t
    | ⟨4, _⟩ => sblk2_4 V c t
    | ⟨5, _⟩ => sblk2_5 V c t
    | ⟨6, _⟩ => out1_6 (sblk2_0 V c t) (sblk2_1 V c t) (sblk2_2 V c t) (sblk2_3 V c t) (sblk2_4 V c t) (sblk2_5 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out1_6 (sblk2_0 V c t) (sblk2_1 V c t) (sblk2_2 V c t) (sblk2_3 V c t) (sblk2_4 V c t) (sblk2_5 V c t) := by dsimp only [dat2]

theorem noclip2_0 : ∀ t : Fin cfg2.N, ∀ a, (cfg2.win 0).clip (cfg2.grid.coords t) a = none :=
  (by decide +kernel : ∀ t : Fin grid2.N, ∀ a, win2_0.clip (grid2.coords t) a = none)

theorem noclip2_2 : ∀ t : Fin cfg2.N, ∀ a, (cfg2.win 2).clip (cfg2.grid.coords t) a = none :=
  (by decide +kernel : ∀ t : Fin grid2.N, ∀ a, win2_2.clip (grid2.coords t) a = none)

end Cert.Kernel.Hand

end
-- ==== Proof.K.R3.lean ====
import proofs.«430205_j2405181685797_1_alg».proof.Proof.K.R1

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sblk3_0 (c : Dev nD) (t : Fin cfg3.N) : Vec F S2048x128 .f32 :=
  (cfg3.win 0).fill (cfg3.grid.coords t) (fun _ => Scalar.ofBits .f32 0#32) (iblk3 V c 0 t)

def sblk3_1 (c : Dev nD) (t : Fin cfg3.N) : Vec F S4096x256 .f32 := iblk3 V c 1 t

def sblk3_2 (c : Dev nD) (t : Fin cfg3.N) : Vec F S4096x1 .i32 :=
  (cfg3.win 2).fill (cfg3.grid.coords t) (fun _ => (0#32 : BitVec 32)) (iblk3 V c 2 t)

def sblk3_3 (c : Dev nD) (t : Fin cfg3.N) : Vec F S16x256 .f32 := iblk3 V c 3 t

def sblk3_4 (c : Dev nD) (t : Fin cfg3.N) : Vec F S128x256 .f32 := iblk3 V c 4 t

def sblk3_5 (c : Dev nD) (t : Fin cfg3.N) : Vec F S1x256 .f32 := iblk3 V c 5 t

def dat3 (c : Dev nD) : Dat τ (Elt F) Unit ℕ (UR sig nD τ) ℕ cfg3 c where
  A w := V c (Pipeline.arrRef spec3 w)
  after w t := match w with
    | ⟨0, _⟩ => sblk3_0 V c t
    | ⟨1, _⟩ => sblk3_1 V c t
    | ⟨2, _⟩ => sblk3_2 V c t
    | ⟨3, _⟩ => sblk3_3 V c t
    | ⟨4, _⟩ => sblk3_4 V c t
    | ⟨5, _⟩ => sblk3_5 V c t
    | ⟨6, _⟩ => out1_6 (sblk3_0 V c t) (sblk3_1 V c t) (sblk3_2 V c t) (sblk3_3 V c t) (sblk3_4 V c t) (sblk3_5 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out1_6 (sblk3_0 V c t) (sblk3_1 V c t) (sblk3_2 V c t) (sblk3_3 V c t) (sblk3_4 V c t) (sblk3_5 V c t) := by dsimp only [dat3]

theorem noclip3_0 : ∀ t : Fin cfg3.N, ∀ a, (cfg3.win 0).clip (cfg3.grid.coords t) a = none :=
  (by decide +kernel : ∀ t : Fin grid3.N, ∀ a, win3_0.clip (grid3.coords t) a = none)

theorem noclip3_2 : ∀ t : Fin cfg3.N, ∀ a, (cfg3.win 2).clip (cfg3.grid.coords t) a = none :=
  (by decide +kernel : ∀ t : Fin grid3.N, ∀ a, win3_2.clip (grid3.coords t) a = none)

end Cert.Kernel.Hand

end
-- ==== Proof.K.R4.lean ====
import proofs.«430205_j2405181685797_1_alg».proof.Proof.K.R1

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def sblk4_0 (c : Dev nD) (t : Fin cfg4.N) : Vec F S2048x128 .f32 :=
  (cfg4.win 0).fill (cfg4.grid.coords t) (fun _ => Scalar.ofBits .f32 0#32) (iblk4 V c 0 t)

def sblk4_1 (c : Dev nD) (t : Fin cfg4.N) : Vec F S4096x256 .f32 := iblk4 V c 1 t

def sblk4_2 (c : Dev nD) (t : Fin cfg4.N) : Vec F S4096x1 .i32 :=
  (cfg4.win 2).fill (cfg4.grid.coords t) (fun _ => (0#32 : BitVec 32)) (iblk4 V c 2 t)

def sblk4_3 (c : Dev nD) (t : Fin cfg4.N) : Vec F S16x256 .f32 := iblk4 V c 3 t

def sblk4_4 (c : Dev nD) (t : Fin cfg4.N) : Vec F S128x256 .f32 := iblk4 V c 4 t

def sblk4_5 (c : Dev nD) (t : Fin cfg4.N) : Vec F S1x256 .f32 := iblk4 V c 5 t

def dat4 (c : Dev nD) : Dat τ (Elt F) Unit ℕ (UR sig nD τ) ℕ cfg4 c where
  A w := V c (Pipeline.arrRef spec4 w)
  after w t := match w with
    | ⟨0, _⟩ => sblk4_0 V c t
    | ⟨1, _⟩ => sblk4_1 V c t
    | ⟨2, _⟩ => sblk4_2 V c t
    | ⟨3, _⟩ => sblk4_3 V c t
    | ⟨4, _⟩ => sblk4_4 V c t
    | ⟨5, _⟩ => sblk4_5 V c t
    | ⟨6, _⟩ => out1_6 (sblk4_0 V c t) (sblk4_1 V c t) (sblk4_2 V c t) (sblk4_3 V c t) (sblk4_4 V c t) (sblk4_5 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t = out1_6 (sblk4_0 V c t) (sblk4_1 V c t) (sblk4_2 V c t) (sblk4_3 V c t) (sblk4_4 V c t) (sblk4_5 V c t) := by dsimp only [dat4]

theorem noclip4_0 : ∀ t : Fin cfg4.N, ∀ a, (cfg4.win 0).clip (cfg4.grid.coords t) a = none :=
  (by decide +kernel : ∀ t : Fin grid4.N, ∀ a, win4_0.clip (grid4.coords t) a = none)

theorem noclip4_2 : ∀ t : Fin cfg4.N, ∀ a, (cfg4.win 2).clip (cfg4.grid.coords t) a = none :=
  (by decide +kernel : ∀ t : Fin grid4.N, ∀ a, win4_2.clip (grid4.coords t) a = none)

end Cert.Kernel.Hand

end
-- ==== Proof.K.R5.lean ====
import proofs.«430205_j2405181685797_1_alg».proof.Proof.K.R1

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def sblk5_0 (c : Dev nD) (t : Fin cfg5.N) : Vec F S2048x128 .f32 :=
  (cfg5.win 0).fill (cfg5.grid.coords t) (fun _ => Scalar.ofBits .f32 0#32) (iblk5 V c 0 t)

def sblk5_1 (c : Dev nD) (t : Fin cfg5.N) : Vec F S4096x256 .f32 := iblk5 V c 1 t

def sblk5_2 (c : Dev nD) (t : Fin cfg5.N) : Vec F S4096x1 .i32 :=
  (cfg5.win 2).fill (cfg5.grid.coords t) (fun _ => (0#32 : BitVec 32)) (iblk5 V c 2 t)

def sblk5_3 (c : Dev nD) (t : Fin cfg5.N) : Vec F S16x256 .f32 := iblk5 V c 3 t

def sblk5_4 (c : Dev nD) (t : Fin cfg5.N) : Vec F S128x256 .f32 := iblk5 V c 4 t

def sblk5_5 (c : Dev nD) (t : Fin cfg5.N) : Vec F S1x256 .f32 := iblk5 V c 5 t

def dat5 (c : Dev nD) : Dat τ (Elt F) Unit ℕ (UR sig nD τ) ℕ cfg5 c where
  A w := V c (Pipeline.arrRef spec5 w)
  after w t := match w with
    | ⟨0, _⟩ => sblk5_0 V c t
    | ⟨1, _⟩ => sblk5_1 V c t
    | ⟨2, _⟩ => sblk5_2 V c t
    | ⟨3, _⟩ => sblk5_3 V c t
    | ⟨4, _⟩ => sblk5_4 V c t
    | ⟨5, _⟩ => sblk5_5 V c t
    | ⟨6, _⟩ => out1_6 (sblk5_0 V c t) (sblk5_1 V c t) (sblk5_2 V c t) (sblk5_3 V c t) (sblk5_4 V c t) (sblk5_5 V c t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t = out1_6 (sblk5_0 V c t) (sblk5_1 V c t) (sblk5_2 V c t) (sblk5_3 V c t) (sblk5_4 V c t) (sblk5_5 V c t) := by dsimp only [dat5]

theorem noclip5_0 : ∀ t : Fin cfg5.N, ∀ a, (cfg5.win 0).clip (cfg5.grid.coords t) a = none :=
  (by decide +kernel : ∀ t : Fin grid5.N, ∀ a, win5_0.clip (grid5.coords t) a = none)

theorem noclip5_2 : ∀ t : Fin cfg5.N, ∀ a, (cfg5.win 2).clip (cfg5.grid.coords t) a = none :=
  (by decide +kernel : ∀ t : Fin grid5.N, ∀ a, win5_2.clip (grid5.coords t) a = none)

end Cert.Kernel.Hand

end
-- ==== Proof.K.R6.lean ====
import proofs.«430205_j2405181685797_1_alg».proof.Proof.K.R1

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def sblk6_0 (c : Dev nD) (t : Fin cfg6.N) : Vec F S2048x128 .f32 :=
  (cfg6.win 0).fill (cfg6.grid.coords t) (fun _ => Scalar.ofBits .f32 0#32) (iblk6 V c 0 t)

def sblk6_1 (c : Dev nD) (t : Fin cfg6.N) : Vec F S4096x256 .f32 := iblk6 V c 1 t

def sblk6_2 (c : Dev nD) (t : Fin cfg6.N) : Vec F S4096x1 .i32 :=
  (cfg6.win 2).fill (cfg6.grid.coords t) (fun _ => (0#32 : BitVec 32)) (iblk6 V c 2 t)

def sblk6_3 (c : Dev nD) (t : Fin cfg6.N) : Vec F S16x256 .f32 := iblk6 V c 3 t

def sblk6_4 (c : Dev nD) (t : Fin cfg6.N) : Vec F S128x256 .f32 := iblk6 V c 4 t

def sblk6_5 (c : Dev nD) (t : Fin cfg6.N) : Vec F S1x256 .f32 := iblk6 V c 5 t

def dat6 (c : Dev nD) : Dat τ (Elt F) Unit ℕ (UR sig nD τ) ℕ cfg6 c where
  A w := V c (Pipeline.arrRef spec6 w)
  after w t := match w with
    | ⟨0, _⟩ => sblk6_0 V c t
    | ⟨1, _⟩ => sblk6_1 V c t
    | ⟨2, _⟩ => sblk6_2 V c t
    | ⟨3, _⟩ => sblk6_3 V c t
    | ⟨4, _⟩ => sblk6_4 V c t
    | ⟨5, _⟩ => sblk6_5 V c t
    | ⟨6, _⟩ => out1_6 (sblk6_0 V c t) (sblk6_1 V c t) (sblk6_2 V c t) (sblk6_3 V c t) (sblk6_4 V c t) (sblk6_5 V c t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_6 (c : Dev nD) (t : Fin cfg6.N) : (dat6 V c).after 6 t = out1_6 (sblk6_0 V c t) (sblk6_1 V c t) (sblk6_2 V c t) (sblk6_3 V c t) (sblk6_4 V c t) (sblk6_5 V c t) := by dsimp only [dat6]

theorem noclip6_0 : ∀ t : Fin cfg6.N, ∀ a, (cfg6.win 0).clip (cfg6.grid.coords t) a = none :=
  (by decide +kernel : ∀ t : Fin grid6.N, ∀ a, win6_0.clip (grid6.coords t) a = none)

theorem noclip6_2 : ∀ t : Fin cfg6.N, ∀ a, (cfg6.win 2).clip (cfg6.grid.coords t) a = none :=
  (by decide +kernel : ∀ t : Fin grid6.N, ∀ a, win6_2.clip (grid6.coords t) a = none)

end Cert.Kernel.Hand

end
-- ==== Proof.K.R7.lean ====
import proofs.«430205_j2405181685797_1_alg».proof.Proof.K.R1

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def sblk7_0 (c : Dev nD) (t : Fin cfg7.N) : Vec F S2048x128 .f32 :=
  (cfg7.win 0).fill (cfg7.grid.coords t) (fun _ => Scalar.ofBits .f32 0#32) (iblk7 V c 0 t)

def sblk7_1 (c : Dev nD) (t : Fin cfg7.N) : Vec F S4096x256 .f32 := iblk7 V c 1 t

def sblk7_2 (c : Dev nD) (t : Fin cfg7.N) : Vec F S4096x1 .i32 :=
  (cfg7.win 2).fill (cfg7.grid.coords t) (fun _ => (0#32 : BitVec 32)) (iblk7 V c 2 t)

def sblk7_3 (c : Dev nD) (t : Fin cfg7.N) : Vec F S16x256 .f32 := iblk7 V c 3 t

def sblk7_4 (c : Dev nD) (t : Fin cfg7.N) : Vec F S128x256 .f32 := iblk7 V c 4 t

def sblk7_5 (c : Dev nD) (t : Fin cfg7.N) : Vec F S1x256 .f32 := iblk7 V c 5 t

def dat7 (c : Dev nD) : Dat τ (Elt F) Unit ℕ (UR sig nD τ) ℕ cfg7 c where
  A w := V c (Pipeline.arrRef spec7 w)
  after w t := match w with
    | ⟨0, _⟩ => sblk7_0 V c t
    | ⟨1, _⟩ => sblk7_1 V c t
    | ⟨2, _⟩ => sblk7_2 V c t
    | ⟨3, _⟩ => sblk7_3 V c t
    | ⟨4, _⟩ => sblk7_4 V c t
    | ⟨5, _⟩ => sblk7_5 V c t
    | ⟨6, _⟩ => out1_6 (sblk7_0 V c t) (sblk7_1 V c t) (sblk7_2 V c t) (sblk7_3 V c t) (sblk7_4 V c t) (sblk7_5 V c t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_6 (c : Dev nD) (t : Fin cfg7.N) : (dat7 V c).after 6 t = out1_6 (sblk7_0 V c t) (sblk7_1 V c t) (sblk7_2 V c t) (sblk7_3 V c t) (sblk7_4 V c t) (sblk7_5 V c t) := by dsimp only [dat7]

theorem noclip7_0 : ∀ t : Fin cfg7.N, ∀ a, (cfg7.win 0).clip (cfg7.grid.coords t) a = none :=
  (by decide +kernel : ∀ t : Fin grid7.N, ∀ a, win7_0.clip (grid7.coords t) a = none)

theorem noclip7_2 : ∀ t : Fin cfg7.N, ∀ a, (cfg7.win 2).clip (cfg7.grid.coords t) a = none :=
  (by decide +kernel : ∀ t : Fin grid7.N, ∀ a, win7_2.clip (grid7.coords t) a = none)

end Cert.Kernel.Hand

end
-- ==== Proof.K.R8.lean ====
import proofs.«430205_j2405181685797_1_alg».proof.Proof.Gen.Kernel.Launch
import proofs.«430205_j2405181685797_1_alg».proof.Proof.Gen.Kernel.Skeleton
import Idealize.ShloMosaic.Lib.Pipeline.FrameBody

noncomputable section

namespace Cert.Kernel.Hand

open Cert.Kernel Cert.Kernel.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def sblk8_0 (c : Dev nD) (t : Fin cfg8.N) : Vec F S1024x128 .f32 := iblk8 V c 0 t

def sblk8_1 (c : Dev nD) (t : Fin cfg8.N) : Vec F S2048x256 .f32 := iblk8 V c 1 t

def sblk8_2 (c : Dev nD) (t : Fin cfg8.N) : Vec F S2048x1 .i32 := iblk8 V c 2 t

def sblk8_3 (c : Dev nD) (t : Fin cfg8.N) : Vec F S16x256 .f32 := iblk8 V c 3 t

def sblk8_4 (c : Dev nD) (t : Fin cfg8.N) : Vec F S128x256 .f32 := iblk8 V c 4 t

def sblk8_5 (c : Dev nD) (t : Fin cfg8.N) : Vec F S1x256 .f32 := iblk8 V c 5 t

abbrev r8_0 : Rect S1024x128 := Rect.unit (s := S1024x128) ![0, 0] S1024x128.size inb_S1024x128_S1024x128_0_0
abbrev r8_1 : Rect S2048x256 := Rect.unit (s := S2048x256) ![0, 0] S2048x256.size inb_S2048x256_S2048x256_0_0
abbrev r8_2 : Rect S2048x1 := Rect.unit (s := S2048x1) ![0, 0] S2048x1.size inb_S2048x1_S2048x1_0_0
abbrev r8_3 : Rect S16x256 := Rect.unit (s := S16x256) ![0, 0] S16x256.size inb_S16x256_S16x256_0_0
abbrev r8_4 : Rect S128x256 := Rect.unit (s := S128x256) ![0, 0] S128x256.size inb_S128x256_S128x256_0_0
abbrev r8_5 : Rect S1x256 := Rect.unit (s := S1x256) ![0, 0] S1x256.size inb_S1x256_S1x256_0_0
abbrev r8_6 : Rect S1024x256 := Rect.unit (s := S1024x256) ![0, 0] S1024x256.size inb_S1024x256_S1024x256_0_0

def out8_6 (x0 : Vec F S1024x128 .f32) (x1 : Vec F S2048x256 .f32) (x2 : Vec F S2048x1 .i32) (x3 : Vec F S16x256 .f32) (x4 : Vec F S128x256 .f32) (x5 : Vec F S1x256 .f32) : Vec F S1024x256 .f32 :=
  View.canon [⟨r8_6, k8_pay1 (View.ld x2 r8_2) (View.ld x3 r8_3) (View.ld x1 r8_1) (View.ld x0 r8_0) (View.ld x4 r8_4) (View.ld x5 r8_5)⟩]

def dat8 (c : Dev nD) : Dat τ (Elt F) Unit ℕ (UR sig nD τ) ℕ cfg8 c where
  A w := V c (Pipeline.arrRef spec8 w)
  after w t := match w with
    | ⟨0, _⟩ => sblk8_0 V c t
    | ⟨1, _⟩ => sblk8_1 V c t
    | ⟨2, _⟩ => sblk8_2 V c t
    | ⟨3, _⟩ => sblk8_3 V c t
    | ⟨4, _⟩ => sblk8_4 V c t
    | ⟨5, _⟩ => sblk8_5 V c t
    | ⟨6, _⟩ => out8_6 (sblk8_0 V c t) (sblk8_1 V c t) (sblk8_2 V c t) (sblk8_3 V c t) (sblk8_4 V c t) (sblk8_5 V c t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_6 (c : Dev nD) (t : Fin cfg8.N) : (dat8 V c).after 6 t = out8_6 (sblk8_0 V c t) (sblk8_1 V c t) (sblk8_2 V c t) (sblk8_3 V c t) (sblk8_4 V c t) (sblk8_5 V c t) := by dsimp only [dat8]

end Cert.Kernel.Hand

end
-- ==== Proof.K.Fold.lean ====
import proofs.«430205_j2405181685797_1_alg».proof.Proof.LibRegionSeg
import proofs.«430205_j2405181685797_1_alg».proof.Proof.K.R0
import proofs.«430205_j2405181685797_1_alg».proof.Proof.K.R1
import proofs.«430205_j2405181685797_1_alg».proof.Proof.K.R2
import proofs.«430205_j2405181685797_1_alg».proof.Proof.K.R3
import proofs.«430205_j2405181685797_1_alg».proof.Proof.K.R4
import proofs.«430205_j2405181685797_1_alg».proof.Proof.K.R5
import proofs.«430205_j2405181685797_1_alg».proof.Proof.K.R6
import proofs.«430205_j2405181685797_1_alg».proof.Proof.K.R7
import proofs.«430205_j2405181685797_1_alg».proof.Proof.K.R8

noncomputable section

namespace Cert.Kernel.Hand

open Cert.Kernel Cert.Kernel.Gen Cert.Lib
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) := exitVal (dat0 (V1 m ρ) c) (W1 m ρ c)
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) := exitVal (dat1 (V2 m ρ) c) (W2 m ρ c)
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b

def W4 (c : Dev nD) : Valuation τ sig (Elt F) := exitVal (dat2 (V3 m ρ) c) (W3 m ρ c)
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b

def W5 (c : Dev nD) : Valuation τ sig (Elt F) := exitVal (dat3 (V4 m ρ) c) (W4 m ρ c)
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b

def W6 (c : Dev nD) : Valuation τ sig (Elt F) := exitVal (dat4 (V5 m ρ) c) (W5 m ρ c)
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b

def W7 (c : Dev nD) : Valuation τ sig (Elt F) := exitVal (dat5 (V6 m ρ) c) (W6 m ρ c)
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
abbrev V7 : (c : Dev nD) → (b : Ref sig .tc) → Buf (Elt F) ((c : Thread nD τ).loc b) := fun c b => W7 m ρ c b

def W8 (c : Dev nD) : Valuation τ sig (Elt F) := exitVal (dat6 (V7 m ρ) c) (W7 m ρ c)
theorem W8_arr (c : Dev nD) (w : Fin cfg6.W) :
    W8 m ρ c (Proc.devRef .tc (Pipeline.arrRef spec6 w)) = (dat6 (V7 m ρ) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m ρ c (Proc.devRef .tc b) = W7 m ρ c (Proc.devRef .tc b) := by
  unfold W8; exact Pipeline.withArrays_of_ne spec6 c _ _ b hb
abbrev V8 : (c : Dev nD) → (b : Ref sig .tc) → Buf (Elt F) ((c : Thread nD τ).loc b) := fun c b => W8 m ρ c b

def W9 (c : Dev nD) : Valuation τ sig (Elt F) := exitVal (dat7 (V8 m ρ) c) (W8 m ρ c)
theorem W9_arr (c : Dev nD) (w : Fin cfg7.W) :
    W9 m ρ c (Proc.devRef .tc (Pipeline.arrRef spec7 w)) = (dat7 (V8 m ρ) c).arrAt w cfg7.N := by
  unfold W9; exact Pipeline.withArrays_arr spec7 launch7.win.arr_inj c _ _ w
theorem W9_of_ne (c : Dev nD) (b : Ref sig .tc) (hb : ∀ w, Pipeline.arrRef spec7 w ≠ b) :
    W9 m ρ c (Proc.devRef .tc b) = W8 m ρ c (Proc.devRef .tc b) := by
  unfold W9; exact Pipeline.withArrays_of_ne spec7 c _ _ b hb
abbrev V9 : (c : Dev nD) → (b : Ref sig .tc) → Buf (Elt F) ((c : Thread nD τ).loc b) := fun c b => W9 m ρ c b

def W10 (c : Dev nD) : Valuation τ sig (Elt F) := exitVal (dat8 (V9 m ρ) c) (W9 m ρ c)
theorem W10_arr (c : Dev nD) (w : Fin cfg8.W) :
    W10 m ρ c (Proc.devRef .tc (Pipeline.arrRef spec8 w)) = (dat8 (V9 m ρ) c).arrAt w cfg8.N := by
  unfold W10; exact Pipeline.withArrays_arr spec8 launch8.win.arr_inj c _ _ w
theorem W10_of_ne (c : Dev nD) (b : Ref sig .tc) (hb : ∀ w, Pipeline.arrRef spec8 w ≠ b) :
    W10 m ρ c (Proc.devRef .tc b) = W9 m ρ c (Proc.devRef .tc b) := by
  unfold W10; exact Pipeline.withArrays_of_ne spec8 c _ _ b hb
abbrev V10 : (c : Dev nD) → (b : Ref sig .tc) → Buf (Elt F) ((c : Thread nD τ).loc b) := fun c b => W10 m ρ c b

abbrev W11 : Dev nD → Valuation τ sig (Elt F) := fun c => StableHlo.after hostOps9 (W10 m ρ c)

theorem W1_of_ne (c : Dev nD) (b : Ref sig .tc) (h0 : b ≠ main_v0) (h1 : b ≠ main_v1) (h2 : b ≠ main_v2) (h3 : b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    exact ⟨StableHlo.devRef_ne_of_ne h0, StableHlo.devRef_ne_of_ne h1, StableHlo.devRef_ne_of_ne h2, StableHlo.devRef_ne_of_ne h3⟩))

theorem W11_of_ne (c : Dev nD) (b : Ref sig .tc) (h : b ≠ main_v13) :
    W11 m ρ c (Proc.devRef .tc b) = W10 m ρ c (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    exact StableHlo.devRef_ne_of_ne h))

theorem W11_keep (c : Dev nD) (b : Ref sig .tc) (h0 : b ≠ main_v0) (h1 : b ≠ main_v1) (h2 : b ≠ main_v2) (h3 : b ≠ main_v3) (h13 : b ≠ main_v13)
    (hb : ∀ (p : Fin 9) (w : Fin (cfgs p).W), Pipeline.arrRef (cfgs p).spec w = b → ((cfgs p).win w).isOut = false) :
    W11 m ρ c (Proc.devRef .tc b) = m ((c : Thread nD τ).loc b) :=
  (W11_of_ne m ρ c b h13).trans <|
  (exitVal_keep (dat8 (V9 m ρ) c) (W9 m ρ c) launch8.win.arr_inj (A_eq8 _ c) b (hb 8)).trans <|
  (exitVal_keep (dat7 (V8 m ρ) c) (W8 m ρ c) launch7.win.arr_inj (A_eq7 _ c) b (hb 7)).trans <|
  (exitVal_keep (dat6 (V7 m ρ) c) (W7 m ρ c) launch6.win.arr_inj (A_eq6 _ c) b (hb 6)).trans <|
  (exitVal_keep (dat5 (V6 m ρ) c) (W6 m ρ c) launch5.win.arr_inj (A_eq5 _ c) b (hb 5)).trans <|
  (exitVal_keep (dat4 (V5 m ρ) c) (W5 m ρ c) launch4.win.arr_inj (A_eq4 _ c) b (hb 4)).trans <|
  (exitVal_keep (dat3 (V4 m ρ) c) (W4 m ρ c) launch3.win.arr_inj (A_eq3 _ c) b (hb 3)).trans <|
  (exitVal_keep (dat2 (V3 m ρ) c) (W3 m ρ c) launch2.win.arr_inj (A_eq2 _ c) b (hb 2)).trans <|
  (exitVal_keep (dat1 (V2 m ρ) c) (W2 m ρ c) launch1.win.arr_inj (A_eq1 _ c) b (hb 1)).trans <|
  (exitVal_keep (dat0 (V1 m ρ) c) (W1 m ρ c) launch0.win.arr_inj (A_eq0 _ c) b (hb 0)).trans <|
  W1_of_ne m ρ c b h0 h1 h2 h3

theorem W11_main_arg0 (c : Dev nD) : W11 m ρ c (Proc.devRef .tc main_arg0) = m ((c : Thread nD τ).loc main_arg0) :=
  W11_keep m ρ c main_arg0 (by decide) (by decide) (by decide) (by decide) (by decide) (by decide)
theorem W11_main_arg1 (c : Dev nD) : W11 m ρ c (Proc.devRef .tc main_arg1) = m ((c : Thread nD τ).loc main_arg1) :=
  W11_keep m ρ c main_arg1 (by decide) (by decide) (by decide) (by decide) (by decide) (by decide)
theorem W11_main_arg2 (c : Dev nD) : W11 m ρ c (Proc.devRef .tc main_arg2) = m ((c : Thread nD τ).loc main_arg2) :=
  W11_keep m ρ c main_arg2 (by decide) (by decide) (by decide) (by decide) (by decide) (by decide)
theorem W11_main_arg3 (c : Dev nD) : W11 m ρ c (Proc.devRef .tc main_arg3) = m ((c : Thread nD τ).loc main_arg3) :=
  W11_keep m ρ c main_arg3 (by decide) (by decide) (by decide) (by decide) (by decide) (by decide)
theorem W11_main_arg4 (c : Dev nD) : W11 m ρ c (Proc.devRef .tc main_arg4) = m ((c : Thread nD τ).loc main_arg4) :=
  W11_keep m ρ c main_arg4 (by decide) (by decide) (by decide) (by decide) (by decide) (by decide)

abbrev adm : (p : Fin 9) → (pcfgs (F := F) p).Adm := fun p => (cfgs p).toPCfg_adm

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V7 m ρ) c
  | ⟨7, _⟩ => fun c => dat7 (V8 m ρ) c
  | ⟨8, _⟩ => fun c => dat8 (V9 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m ρ c) ∗ ∃ r, prngReg c r)

end Cert.Kernel.Hand

end
-- ==== Proof.LibWindow.lean ====
import Idealize.ShloMosaic.Lib.Pipeline.FrameBody

noncomputable section

namespace Cert.Lib

open Idealize.ShloMosaic Idealize.ShloMosaic.Pipeline

section
variable {sig : RefSig} {G : Grid} (w : Window sig G) {i : G.Coords}

theorem moved_of_uncut (h : ∀ a, w.clip i a = none) (j : w.block.Idx) : w.moved i j = true :=
  (w.moved_iff i j).mpr fun a => by
    show (j a).val < (w.clip i a).extent (w.size a)
    rw [h a]; exact (j a).isLt

theorem fill_of_uncut (h : ∀ a, w.clip i a = none) {α : Type} (d d' : w.block.Idx → α) (g : (w.xblock i).Idx → α) :
    w.fill i d g = w.fill i d' g := by
  funext j
  unfold Window.fill
  rw [dif_pos (moved_of_uncut w h j), dif_pos (moved_of_uncut w h j)]

theorem fill_apply_of_uncut (h : ∀ a, w.clip i a = none) {α : Type} (d : w.block.Idx → α) (g : (w.xblock i).Idx → α)
    (j : w.block.Idx) : w.fill i d g j = g fun a => ⟨(j a).val, (w.moved_iff i j).mp (moved_of_uncut w h j) a⟩ := by
  unfold Window.fill; rw [dif_pos (moved_of_uncut w h j)]

end

section
variable {nD : ℕ} {τ : Topo} {sig : RefSig} {Val : EltTy → Type} {Ix : Type} [DecidableEq Ix] {Name : Type} [DecidableEq Name]
  {U : Type} [Idealize.SL.RA.URA U] {Lvl : Type} {Λ₀ : Idealize.SL.Sem.Labels} {cfg : Cfg sig Λ₀} {c : Dev nD}
  (dat : Dat τ Val Ix Name U Lvl cfg c)

theorem before_of_fetch_uncut (w : Fin cfg.W) (t : Fin cfg.N) (hf : (cfg.win w).fetch t = true)
    (h : ∀ a, (cfg.win w).clip (cfg.grid.coords t) a = none) (d d' : (cfg.win w).block.Idx → Val (cfg.win w).elt) :
    dat.before w t d = (cfg.win w).fill (cfg.grid.coords t) d' (dat.blockOf w t) :=
  (dat.before_fetched w t hf d).trans (fill_of_uncut (cfg.win w) h d d' _)

end

end Cert.Lib

end
-- ==== Proof.LibBody.lean ====
import Idealize.ShloMosaic.Lib.Pipeline.FrameBody
import Idealize.ShloMosaic.Lib.Tactic

namespace Cert.Lib

open Idealize.SL Idealize.SL.RA Idealize.SL.BI
open scoped Idealize.SL.BI
open Idealize.SL.BI.BIBase Idealize.SL.BI.Laws Idealize.SL.ProofMode

theorem framed7 {M : Type} [URA M] (W : (PUnit → sProp M) → sProp M) (Φ O Φ' O' : sProp M)
    {β0 β1 β2 β3 β4 β5 β6 : Type} (P0 : β0 → sProp M) (P1 : β1 → sProp M) (P2 : β2 → sProp M) (P3 : β3 → sProp M)
    (P4 : β4 → sProp M) (P5 : β5 → sProp M) (P6 : β6 → sProp M) (Q0 Q1 Q2 Q3 Q4 Q5 Q6 R0 R1 R2 R3 R4 R5 R6 : sProp M)
    (hΦ : Φ' = Φ) (hO : O' = O)
    (hP0 : ∀ d, P0 d = Q0) (hP1 : ∀ d, P1 d = Q1) (hP2 : ∀ d, P2 d = Q2) (hP3 : ∀ d, P3 d = Q3) (hP4 : ∀ d, P4 d = Q4)
    (hP5 : ∀ d, P5 d = Q5)
    (hR0 : R0 = Q0) (hR1 : R1 = Q1) (hR2 : R2 = Q2) (hR3 : R3 = Q3) (hR4 : R4 = Q4) (hR5 : R5 = Q5) (hR6 : R6 = Q6)
    (htriple : ∀ K, iprop(Q0 ∗ Q1 ∗ Q2 ∗ Q3 ∗ Q4 ∗ Q5 ∗ (∃ d, P6 d) ∗ (iprop(Q0 ∗ Q1 ∗ Q2 ∗ Q3 ∗ Q4 ∗ Q5 ∗ Q6) -∗ K ⟨⟩)) ⊢ W K) :
    iprop(Φ ∗ O ∗ (∃ d, P0 d) ∗ (∃ d, P1 d) ∗ (∃ d, P2 d) ∗ (∃ d, P3 d) ∗ (∃ d, P4 d) ∗ (∃ d, P5 d) ∗ (∃ d, P6 d))
      ⊢ W (fun _ => iprop(Φ' ∗ O' ∗ R0 ∗ R1 ∗ R2 ∗ R3 ∗ R4 ∗ R5 ∗ R6)) := by
  subst hΦ hO hR0 hR1 hR2 hR3 hR4 hR5 hR6
  simp only [hP0, hP1, hP2, hP3, hP4, hP5]
  iintro ⟨HΦ, Ho, ⟨%d0, H0⟩, ⟨%d1, H1⟩, ⟨%d2, H2⟩, ⟨%d3, H3⟩, ⟨%d4, H4⟩, ⟨%d5, H5⟩, H6⟩
  iapply (htriple _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem framed4 {M : Type} [URA M] (W : (PUnit → sProp M) → sProp M) (Φ O Φ' O' : sProp M)
    {β0 β1 β2 β3 : Type} (P0 : β0 → sProp M) (P1 : β1 → sProp M) (P2 : β2 → sProp M) (P3 : β3 → sProp M)
    (Q0 Q1 Q2 Q3 R0 R1 R2 R3 : sProp M) (hΦ : Φ' = Φ) (hO : O' = O)
    (hP0 : ∀ d, P0 d = Q0) (hP1 : ∀ d, P1 d = Q1) (hP2 : ∀ d, P2 d = Q2)
    (hR0 : R0 = Q0) (hR1 : R1 = Q1) (hR2 : R2 = Q2) (hR3 : R3 = Q3)
    (htriple : ∀ K, iprop(Q0 ∗ Q1 ∗ Q2 ∗ (∃ d, P3 d) ∗ (iprop(Q0 ∗ Q1 ∗ Q2 ∗ Q3) -∗ K ⟨⟩)) ⊢ W K) :
    iprop(Φ ∗ O ∗ (∃ d, P0 d) ∗ (∃ d, P1 d) ∗ (∃ d, P2 d) ∗ (∃ d, P3 d))
      ⊢ W (fun _ => iprop(Φ' ∗ O' ∗ R0 ∗ R1 ∗ R2 ∗ R3)) := by
  subst hΦ hO hR0 hR1 hR2 hR3
  simp only [hP0, hP1, hP2]
  iintro ⟨HΦ, Ho, ⟨%d0, H0⟩, ⟨%d1, H1⟩, ⟨%d2, H2⟩, H3⟩
  iapply (htriple _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Lib
-- ==== Proof.K.B0.lean ====
import proofs.«430205_j2405181685797_1_alg».proof.Proof.Gen.Kernel.Launch
import proofs.«430205_j2405181685797_1_alg».proof.Proof.Gen.Kernel.Skeleton
import proofs.«430205_j2405181685797_1_alg».proof.Proof.Gen.Kernel.Points
import proofs.«430205_j2405181685797_1_alg».proof.Proof.K.R0
import proofs.«430205_j2405181685797_1_alg».proof.Proof.LibWindow
import proofs.«430205_j2405181685797_1_alg».proof.Proof.LibBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover_leaf (p0 : Vec F S8192x256 .f32) (y : S8192x256.Idx) :
    ∃ pc ∈ ([⟨r0_3, p0⟩] : List (View.Piece (Elt F) S8192x256 .f32)), y ∈ pc.1.set :=
  View.cover_of_tiled [⟨r0_3, p0⟩] S8192x256.size (by rfl) y

theorem sound_leaf (c : Dev nD) (E : Set ℕ) (i : grid0.Coords) (arg1 : Memref sig .tc .vmem S8192x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S8192x256 .f32) (harg4 : arg4.IsWhole)
    (x0 : Vec F S8192x128 .f32) (x1 : Vec F S128x256 .f32) (x2 : Vec F S1x256 .f32) {β : Type} (g : β → Vec F S8192x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare (g d))
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__leaf_kernel_skel i arg1 harg1 arg2 harg2 arg3 harg3 arg4 harg4) K := by
  unfold cc0__leaf_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_leaf _)

variable (V : (c : Dev nD) → (b : Ref sig .tc) → Buf (Elt F) ((c : Thread nD τ).loc b))

theorem before0_0 (c : Dev nD) (t : Fin cfg0.N) (d) : (dat0 V c).before 0 t d = sblk0_0 V c t :=
  Cert.Lib.before_of_fetch_uncut _ 0 t (fetch0_0 t) (noclip0_0 t) d _

theorem before0_1 (c : Dev nD) (t : Fin cfg0.N) (d) : (dat0 V c).before 1 t d = sblk0_1 V c t :=
  (dat0 V c).before_in_eq_fetched 1 rfl (fun _ => rfl) (fun _ _ _ => rfl) (fun _ => rfl) t d

theorem before0_2 (c : Dev nD) (t : Fin cfg0.N) (d) : (dat0 V c).before 2 t d = sblk0_2 V c t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  rw [cc0__leaf_kernel_eq_skeleton]
  refine Cert.Lib.framed4 _ _ _ _ _ _ _ _ _ _ _ _ _ _ _ _ _ rfl rfl
    (fun d => congrArg _ (before0_0 V c t d)) (fun d => congrArg _ (before0_1 V c t d)) (fun d => congrArg _ (before0_2 V c t d))
    (by dsimp only [dat0]) (by dsimp only [dat0]) (by dsimp only [dat0]) (by dsimp only [dat0])
    (sound_leaf c Set.univ _ _ _ _ _ _ _ _ _ _ _ _ _)

end Cert.Kernel.Hand

end
-- ==== Proof.K.Body.lean ====
import proofs.«430205_j2405181685797_1_alg».proof.Proof.Gen.Kernel.Launch
import proofs.«430205_j2405181685797_1_alg».proof.Proof.Gen.Kernel.Skeleton
import proofs.«430205_j2405181685797_1_alg».proof.Proof.Gen.Kernel.Points
import proofs.«430205_j2405181685797_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover_int (p0 : Vec F S2048x256 .f32) (y : S2048x256.Idx) :
    ∃ pc ∈ ([⟨r1_6, p0⟩] : List (View.Piece (Elt F) S2048x256 .f32)), y ∈ pc.1.set :=
  View.cover_of_tiled [⟨r1_6, p0⟩] S2048x256.size (by rfl) y

abbrev skelI := cc1__internal_kernel_skel (F := F) (grid1.coords ⟨0, by decide⟩)

abbrev outI := out1_6 (F := F)

theorem sound_int (c : Dev nD) (E : Set ℕ) (arg1 : Memref sig .tc .vmem S2048x128 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S16x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S2048x256 .f32) (harg7 : arg7.IsWhole)
    (x0 : Vec F S2048x128 .f32) (x1 : Vec F S4096x256 .f32) (x2 : Vec F S4096x1 .i32) (x3 : Vec F S16x256 .f32) (x4 : Vec F S128x256 .f32) (x5 : Vec F S1x256 .f32) {β : Type} (g : β → Vec F S2048x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare (g d))
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outI x0 x1 x2 x3 x4 x5)) -∗ K ⟨⟩))
      ⊢ wp frame (wpE (defs₀ (F := F)) Variants.none c none) E (skelI arg1 harg1 arg2 harg2 arg3 harg3 arg4 harg4 arg5 harg5 arg6 harg6 arg7 harg7) K := by
  unfold skelI cc1__internal_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_int _)

end Cert.Kernel.Hand

end
-- ==== Proof.K.B1.lean ====
import proofs.«430205_j2405181685797_1_alg».proof.Proof.K.Body
import proofs.«430205_j2405181685797_1_alg».proof.Proof.K.R1
import proofs.«430205_j2405181685797_1_alg».proof.Proof.LibWindow
import proofs.«430205_j2405181685797_1_alg».proof.Proof.LibBody

noncomputable section

namespace Cert.Kernel.Hand

open Cert.Kernel Cert.Kernel.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before1_0 (c : Dev nD) (t : Fin cfg1.N) (d) : (dat1 V c).before 0 t d = sblk1_0 V c t :=
  Cert.Lib.before_of_fetch_uncut _ 0 t (fetch1_0 t) (noclip1_0 t) d _

theorem before1_2 (c : Dev nD) (t : Fin cfg1.N) (d) : (dat1 V c).before 2 t d = sblk1_2 V c t :=
  Cert.Lib.before_of_fetch_uncut _ 2 t (fetch1_2 t) (noclip1_2 t) d _

theorem before1_1 (c : Dev nD) (t : Fin cfg1.N) (d) : (dat1 V c).before 1 t d = sblk1_1 V c t :=
  (dat1 V c).before_in_eq_fetched 1 rfl (fun _ => rfl) (fun _ _ _ => rfl) (fun _ => rfl) t d

theorem before1_3 (c : Dev nD) (t : Fin cfg1.N) (d) : (dat1 V c).before 3 t d = sblk1_3 V c t :=
  (dat1 V c).before_in_eq_fetched 3 rfl (fun _ => rfl) (fun _ _ _ => rfl) (fun _ => rfl) t d

theorem before1_4 (c : Dev nD) (t : Fin cfg1.N) (d) : (dat1 V c).before 4 t d = sblk1_4 V c t :=
  (dat1 V c).before_in_eq_fetched 4 rfl (fun _ => rfl) (fun _ _ _ => rfl) (fun _ => rfl) t d

theorem before1_5 (c : Dev nD) (t : Fin cfg1.N) (d) : (dat1 V c).before 5 t d = sblk1_5 V c t :=
  (dat1 V c).before_in_eq_fetched 5 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  rw [cc1__internal_kernel_eq_skeleton, show cc1__internal_kernel_skel (F := F) = fun _ => skelI from rfl]
  refine Cert.Lib.framed7 _ _ _ _ _ _ _ _ _ _ _ _ _ _ _ _ _ _ _ _ _ _ _ _ _ _ rfl rfl
    (fun d => congrArg _ (before1_0 V c t d)) (fun d => congrArg _ (before1_1 V c t d)) (fun d => congrArg _ (before1_2 V c t d))
    (fun d => congrArg _ (before1_3 V c t d)) (fun d => congrArg _ (before1_4 V c t d)) (fun d => congrArg _ (before1_5 V c t d))
    (by dsimp only [dat1]) (by dsimp only [dat1]) (by dsimp only [dat1]) (by dsimp only [dat1]) (by dsimp only [dat1]) (by dsimp only [dat1])
    (by dsimp only [dat1])
    (sound_int c Set.univ _ _ _ _ _ _ _ _ _ _ _ _ _ _ _ _ _ _ _ _ _)

end Cert.Kernel.Hand

end
-- ==== Proof.K.B2.lean ====
import proofs.«430205_j2405181685797_1_alg».proof.Proof.K.Body
import proofs.«430205_j2405181685797_1_alg».proof.Proof.K.R2
import proofs.«430205_j2405181685797_1_alg».proof.Proof.LibWindow
import proofs.«430205_j2405181685797_1_alg».proof.Proof.LibBody

noncomputable section

namespace Cert.Kernel.Hand

open Cert.Kernel Cert.Kernel.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before2_0 (c : Dev nD) (t : Fin cfg2.N) (d) : (dat2 V c).before 0 t d = sblk2_0 V c t :=
  Cert.Lib.before_of_fetch_uncut _ 0 t (fetch2_0 t) (noclip2_0 t) d _

theorem before2_2 (c : Dev nD) (t : Fin cfg2.N) (d) : (dat2 V c).before 2 t d = sblk2_2 V c t :=
  Cert.Lib.before_of_fetch_uncut _ 2 t (fetch2_2 t) (noclip2_2 t) d _

theorem before2_1 (c : Dev nD) (t : Fin cfg2.N) (d) : (dat2 V c).before 1 t d = sblk2_1 V c t :=
  (dat2 V c).before_in_eq_fetched 1 rfl (fun _ => rfl) (fun _ _ _ => rfl) (fun _ => rfl) t d

theorem before2_3 (c : Dev nD) (t : Fin cfg2.N) (d) : (dat2 V c).before 3 t d = sblk2_3 V c t :=
  (dat2 V c).before_in_eq_fetched 3 rfl (fun _ => rfl) (fun _ _ _ => rfl) (fun _ => rfl) t d

theorem before2_4 (c : Dev nD) (t : Fin cfg2.N) (d) : (dat2 V c).before 4 t d = sblk2_4 V c t :=
  (dat2 V c).before_in_eq_fetched 4 rfl (fun _ => rfl) (fun _ _ _ => rfl) (fun _ => rfl) t d

theorem before2_5 (c : Dev nD) (t : Fin cfg2.N) (d) : (dat2 V c).before 5 t d = sblk2_5 V c t :=
  (dat2 V c).before_in_eq_fetched 5 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  rw [cc2__internal_kernel_eq_skeleton, show cc2__internal_kernel_skel (F := F) = fun _ => skelI from rfl]
  refine Cert.Lib.framed7 _ _ _ _ _ _ _ _ _ _ _ _ _ _ _ _ _ _ _ _ _ _ _ _ _ _ rfl rfl
    (fun d => congrArg _ (before2_0 V c t d)) (fun d => congrArg _ (before2_1 V c t d)) (fun d => congrArg _ (before2_2 V c t d))
    (fun d => congrArg _ (before2_3 V c t d)) (fun d => congrArg _ (before2_4 V c t d)) (fun d => congrArg _ (before2_5 V c t d))
    (by dsimp only [dat2]) (by dsimp only [dat2]) (by dsimp only [dat2]) (by dsimp only [dat2]) (by dsimp only [dat2]) (by dsimp only [dat2])
    (by dsimp only [dat2])
    (sound_int c Set.univ _ _ _ _ _ _ _ _ _ _ _ _ _ _ _ _ _ _ _ _ _)

end Cert.Kernel.Hand

end
-- ==== Proof.K.B3.lean ====
import proofs.«430205_j2405181685797_1_alg».proof.Proof.K.Body
import proofs.«430205_j2405181685797_1_alg».proof.Proof.K.R3
import proofs.«430205_j2405181685797_1_alg».proof.Proof.LibWindow
import proofs.«430205_j2405181685797_1_alg».proof.Proof.LibBody

noncomputable section

namespace Cert.Kernel.Hand

open Cert.Kernel Cert.Kernel.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before3_0 (c : Dev nD) (t : Fin cfg3.N) (d) : (dat3 V c).before 0 t d = sblk3_0 V c t :=
  Cert.Lib.before_of_fetch_uncut _ 0 t (fetch3_0 t) (noclip3_0 t) d _

theorem before3_2 (c : Dev nD) (t : Fin cfg3.N) (d) : (dat3 V c).before 2 t d = sblk3_2 V c t :=
  Cert.Lib.before_of_fetch_uncut _ 2 t (fetch3_2 t) (noclip3_2 t) d _

theorem before3_1 (c : Dev nD) (t : Fin cfg3.N) (d) : (dat3 V c).before 1 t d = sblk3_1 V c t :=
  (dat3 V c).before_in_eq_fetched 1 rfl (fun _ => rfl) (fun _ _ _ => rfl) (fun _ => rfl) t d

theorem before3_3 (c : Dev nD) (t : Fin cfg3.N) (d) : (dat3 V c).before 3 t d = sblk3_3 V c t :=
  (dat3 V c).before_in_eq_fetched 3 rfl (fun _ => rfl) (fun _ _ _ => rfl) (fun _ => rfl) t d

theorem before3_4 (c : Dev nD) (t : Fin cfg3.N) (d) : (dat3 V c).before 4 t d = sblk3_4 V c t :=
  (dat3 V c).before_in_eq_fetched 4 rfl (fun _ => rfl) (fun _ _ _ => rfl) (fun _ => rfl) t d

theorem before3_5 (c : Dev nD) (t : Fin cfg3.N) (d) : (dat3 V c).before 5 t d = sblk3_5 V c t :=
  (dat3 V c).before_in_eq_fetched 5 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  rw [cc3__internal_kernel_eq_skeleton, show cc3__internal_kernel_skel (F := F) = fun _ => skelI from rfl]
  refine Cert.Lib.framed7 _ _ _ _ _ _ _ _ _ _ _ _ _ _ _ _ _ _ _ _ _ _ _ _ _ _ rfl rfl
    (fun d => congrArg _ (before3_0 V c t d)) (fun d => congrArg _ (before3_1 V c t d)) (fun d => congrArg _ (before3_2 V c t d))
    (fun d => congrArg _ (before3_3 V c t d)) (fun d => congrArg _ (before3_4 V c t d)) (fun d => congrArg _ (before3_5 V c t d))
    (by dsimp only [dat3]) (by dsimp only [dat3]) (by dsimp only [dat3]) (by dsimp only [dat3]) (by dsimp only [dat3]) (by dsimp only [dat3])
    (by dsimp only [dat3])
    (sound_int c Set.univ _ _ _ _ _ _ _ _ _ _ _ _ _ _ _ _ _ _ _ _ _)

end Cert.Kernel.Hand

end
-- ==== Proof.K.B4.lean ====
import proofs.«430205_j2405181685797_1_alg».proof.Proof.K.Body
import proofs.«430205_j2405181685797_1_alg».proof.Proof.K.R4
import proofs.«430205_j2405181685797_1_alg».proof.Proof.LibWindow
import proofs.«430205_j2405181685797_1_alg».proof.Proof.LibBody

noncomputable section

namespace Cert.Kernel.Hand

open Cert.Kernel Cert.Kernel.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before4_0 (c : Dev nD) (t : Fin cfg4.N) (d) : (dat4 V c).before 0 t d = sblk4_0 V c t :=
  Cert.Lib.before_of_fetch_uncut _ 0 t (fetch4_0 t) (noclip4_0 t) d _

theorem before4_2 (c : Dev nD) (t : Fin cfg4.N) (d) : (dat4 V c).before 2 t d = sblk4_2 V c t :=
  Cert.Lib.before_of_fetch_uncut _ 2 t (fetch4_2 t) (noclip4_2 t) d _

theorem before4_1 (c : Dev nD) (t : Fin cfg4.N) (d) : (dat4 V c).before 1 t d = sblk4_1 V c t :=
  (dat4 V c).before_in_eq_fetched 1 rfl (fun _ => rfl) (fun _ _ _ => rfl) (fun _ => rfl) t d

theorem before4_3 (c : Dev nD) (t : Fin cfg4.N) (d) : (dat4 V c).before 3 t d = sblk4_3 V c t :=
  (dat4 V c).before_in_eq_fetched 3 rfl (fun _ => rfl) (fun _ _ _ => rfl) (fun _ => rfl) t d

theorem before4_4 (c : Dev nD) (t : Fin cfg4.N) (d) : (dat4 V c).before 4 t d = sblk4_4 V c t :=
  (dat4 V c).before_in_eq_fetched 4 rfl (fun _ => rfl) (fun _ _ _ => rfl) (fun _ => rfl) t d

theorem before4_5 (c : Dev nD) (t : Fin cfg4.N) (d) : (dat4 V c).before 5 t d = sblk4_5 V c t :=
  (dat4 V c).before_in_eq_fetched 5 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  rw [cc4__internal_kernel_eq_skeleton, show cc4__internal_kernel_skel (F := F) = fun _ => skelI from rfl]
  refine Cert.Lib.framed7 _ _ _ _ _ _ _ _ _ _ _ _ _ _ _ _ _ _ _ _ _ _ _ _ _ _ rfl rfl
    (fun d => congrArg _ (before4_0 V c t d)) (fun d => congrArg _ (before4_1 V c t d)) (fun d => congrArg _ (before4_2 V c t d))
    (fun d => congrArg _ (before4_3 V c t d)) (fun d => congrArg _ (before4_4 V c t d)) (fun d => congrArg _ (before4_5 V c t d))
    (by dsimp only [dat4]) (by dsimp only [dat4]) (by dsimp only [dat4]) (by dsimp only [dat4]) (by dsimp only [dat4]) (by dsimp only [dat4])
    (by dsimp only [dat4])
    (sound_int c Set.univ _ _ _ _ _ _ _ _ _ _ _ _ _ _ _ _ _ _ _ _ _)

end Cert.Kernel.Hand

end
-- ==== Proof.K.B5.lean ====
import proofs.«430205_j2405181685797_1_alg».proof.Proof.K.Body
import proofs.«430205_j2405181685797_1_alg».proof.Proof.K.R5
import proofs.«430205_j2405181685797_1_alg».proof.Proof.LibWindow
import proofs.«430205_j2405181685797_1_alg».proof.Proof.LibBody

noncomputable section

namespace Cert.Kernel.Hand

open Cert.Kernel Cert.Kernel.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before5_0 (c : Dev nD) (t : Fin cfg5.N) (d) : (dat5 V c).before 0 t d = sblk5_0 V c t :=
  Cert.Lib.before_of_fetch_uncut _ 0 t (fetch5_0 t) (noclip5_0 t) d _

theorem before5_2 (c : Dev nD) (t : Fin cfg5.N) (d) : (dat5 V c).before 2 t d = sblk5_2 V c t :=
  Cert.Lib.before_of_fetch_uncut _ 2 t (fetch5_2 t) (noclip5_2 t) d _

theorem before5_1 (c : Dev nD) (t : Fin cfg5.N) (d) : (dat5 V c).before 1 t d = sblk5_1 V c t :=
  (dat5 V c).before_in_eq_fetched 1 rfl (fun _ => rfl) (fun _ _ _ => rfl) (fun _ => rfl) t d

theorem before5_3 (c : Dev nD) (t : Fin cfg5.N) (d) : (dat5 V c).before 3 t d = sblk5_3 V c t :=
  (dat5 V c).before_in_eq_fetched 3 rfl (fun _ => rfl) (fun _ _ _ => rfl) (fun _ => rfl) t d

theorem before5_4 (c : Dev nD) (t : Fin cfg5.N) (d) : (dat5 V c).before 4 t d = sblk5_4 V c t :=
  (dat5 V c).before_in_eq_fetched 4 rfl (fun _ => rfl) (fun _ _ _ => rfl) (fun _ => rfl) t d

theorem before5_5 (c : Dev nD) (t : Fin cfg5.N) (d) : (dat5 V c).before 5 t d = sblk5_5 V c t :=
  (dat5 V c).before_in_eq_fetched 5 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  show _ ⊢ wp _ _ _ (bodyAt5 t) _
  unfold bodyAt5
  rw [cc5__internal_kernel_eq_skeleton, show cc5__internal_kernel_skel (F := F) = fun _ => skelI from rfl]
  refine Cert.Lib.framed7 _ _ _ _ _ _ _ _ _ _ _ _ _ _ _ _ _ _ _ _ _ _ _ _ _ _ rfl rfl
    (fun d => congrArg _ (before5_0 V c t d)) (fun d => congrArg _ (before5_1 V c t d)) (fun d => congrArg _ (before5_2 V c t d))
    (fun d => congrArg _ (before5_3 V c t d)) (fun d => congrArg _ (before5_4 V c t d)) (fun d => congrArg _ (before5_5 V c t d))
    (by dsimp only [dat5]) (by dsimp only [dat5]) (by dsimp only [dat5]) (by dsimp only [dat5]) (by dsimp only [dat5]) (by dsimp only [dat5])
    (by dsimp only [dat5])
    (sound_int c Set.univ _ _ _ _ _ _ _ _ _ _ _ _ _ _ _ _ _ _ _ _ _)

end Cert.Kernel.Hand

end
-- ==== Proof.K.B6.lean ====
import proofs.«430205_j2405181685797_1_alg».proof.Proof.K.Body
import proofs.«430205_j2405181685797_1_alg».proof.Proof.K.R6
import proofs.«430205_j2405181685797_1_alg».proof.Proof.LibWindow
import proofs.«430205_j2405181685797_1_alg».proof.Proof.LibBody

noncomputable section

namespace Cert.Kernel.Hand

open Cert.Kernel Cert.Kernel.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before6_0 (c : Dev nD) (t : Fin cfg6.N) (d) : (dat6 V c).before 0 t d = sblk6_0 V c t :=
  Cert.Lib.before_of_fetch_uncut _ 0 t (fetch6_0 t) (noclip6_0 t) d _

theorem before6_2 (c : Dev nD) (t : Fin cfg6.N) (d) : (dat6 V c).before 2 t d = sblk6_2 V c t :=
  Cert.Lib.before_of_fetch_uncut _ 2 t (fetch6_2 t) (noclip6_2 t) d _

theorem before6_1 (c : Dev nD) (t : Fin cfg6.N) (d) : (dat6 V c).before 1 t d = sblk6_1 V c t :=
  (dat6 V c).before_in_eq_fetched 1 rfl (fun _ => rfl) (fun _ _ _ => rfl) (fun _ => rfl) t d

theorem before6_3 (c : Dev nD) (t : Fin cfg6.N) (d) : (dat6 V c).before 3 t d = sblk6_3 V c t :=
  (dat6 V c).before_in_eq_fetched 3 rfl (fun _ => rfl) (fun _ _ _ => rfl) (fun _ => rfl) t d

theorem before6_4 (c : Dev nD) (t : Fin cfg6.N) (d) : (dat6 V c).before 4 t d = sblk6_4 V c t :=
  (dat6 V c).before_in_eq_fetched 4 rfl (fun _ => rfl) (fun _ _ _ => rfl) (fun _ => rfl) t d

theorem before6_5 (c : Dev nD) (t : Fin cfg6.N) (d) : (dat6 V c).before 5 t d = sblk6_5 V c t :=
  (dat6 V c).before_in_eq_fetched 5 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  show _ ⊢ wp _ _ _ (bodyAt6 t) _
  unfold bodyAt6
  rw [cc6__internal_kernel_eq_skeleton, show cc6__internal_kernel_skel (F := F) = fun _ => skelI from rfl]
  refine Cert.Lib.framed7 _ _ _ _ _ _ _ _ _ _ _ _ _ _ _ _ _ _ _ _ _ _ _ _ _ _ rfl rfl
    (fun d => congrArg _ (before6_0 V c t d)) (fun d => congrArg _ (before6_1 V c t d)) (fun d => congrArg _ (before6_2 V c t d))
    (fun d => congrArg _ (before6_3 V c t d)) (fun d => congrArg _ (before6_4 V c t d)) (fun d => congrArg _ (before6_5 V c t d))
    (by dsimp only [dat6]) (by dsimp only [dat6]) (by dsimp only [dat6]) (by dsimp only [dat6]) (by dsimp only [dat6]) (by dsimp only [dat6])
    (by dsimp only [dat6])
    (sound_int c Set.univ _ _ _ _ _ _ _ _ _ _ _ _ _ _ _ _ _ _ _ _ _)

end Cert.Kernel.Hand

end
-- ==== Proof.K.B7.lean ====
import proofs.«430205_j2405181685797_1_alg».proof.Proof.K.Body
import proofs.«430205_j2405181685797_1_alg».proof.Proof.K.R7
import proofs.«430205_j2405181685797_1_alg».proof.Proof.LibWindow
import proofs.«430205_j2405181685797_1_alg».proof.Proof.LibBody

noncomputable section

namespace Cert.Kernel.Hand

open Cert.Kernel Cert.Kernel.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before7_0 (c : Dev nD) (t : Fin cfg7.N) (d) : (dat7 V c).before 0 t d = sblk7_0 V c t :=
  Cert.Lib.before_of_fetch_uncut _ 0 t (fetch7_0 t) (noclip7_0 t) d _

theorem before7_2 (c : Dev nD) (t : Fin cfg7.N) (d) : (dat7 V c).before 2 t d = sblk7_2 V c t :=
  Cert.Lib.before_of_fetch_uncut _ 2 t (fetch7_2 t) (noclip7_2 t) d _

theorem before7_1 (c : Dev nD) (t : Fin cfg7.N) (d) : (dat7 V c).before 1 t d = sblk7_1 V c t :=
  (dat7 V c).before_in_eq_fetched 1 rfl (fun _ => rfl) (fun _ _ _ => rfl) (fun _ => rfl) t d

theorem before7_3 (c : Dev nD) (t : Fin cfg7.N) (d) : (dat7 V c).before 3 t d = sblk7_3 V c t :=
  (dat7 V c).before_in_eq_fetched 3 rfl (fun _ => rfl) (fun _ _ _ => rfl) (fun _ => rfl) t d

theorem before7_4 (c : Dev nD) (t : Fin cfg7.N) (d) : (dat7 V c).before 4 t d = sblk7_4 V c t :=
  (dat7 V c).before_in_eq_fetched 4 rfl (fun _ => rfl) (fun _ _ _ => rfl) (fun _ => rfl) t d

theorem before7_5 (c : Dev nD) (t : Fin cfg7.N) (d) : (dat7 V c).before 5 t d = sblk7_5 V c t :=
  (dat7 V c).before_in_eq_fetched 5 rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  show _ ⊢ wp _ _ _ (bodyAt7 t) _
  unfold bodyAt7
  rw [cc7__internal_kernel_eq_skeleton, show cc7__internal_kernel_skel (F := F) = fun _ => skelI from rfl]
  refine Cert.Lib.framed7 _ _ _ _ _ _ _ _ _ _ _ _ _ _ _ _ _ _ _ _ _ _ _ _ _ _ rfl rfl
    (fun d => congrArg _ (before7_0 V c t d)) (fun d => congrArg _ (before7_1 V c t d)) (fun d => congrArg _ (before7_2 V c t d))
    (fun d => congrArg _ (before7_3 V c t d)) (fun d => congrArg _ (before7_4 V c t d)) (fun d => congrArg _ (before7_5 V c t d))
    (by dsimp only [dat7]) (by dsimp only [dat7]) (by dsimp only [dat7]) (by dsimp only [dat7]) (by dsimp only [dat7]) (by dsimp only [dat7])
    (by dsimp only [dat7])
    (sound_int c Set.univ _ _ _ _ _ _ _ _ _ _ _ _ _ _ _ _ _ _ _ _ _)

end Cert.Kernel.Hand

end
-- ==== Proof.K.B8.lean ====
import proofs.«430205_j2405181685797_1_alg».proof.Proof.Gen.Kernel.Launch
import proofs.«430205_j2405181685797_1_alg».proof.Proof.Gen.Kernel.Skeleton
import proofs.«430205_j2405181685797_1_alg».proof.Proof.Gen.Kernel.Points
import proofs.«430205_j2405181685797_1_alg».proof.Proof.K.R8
import proofs.«430205_j2405181685797_1_alg».proof.Proof.LibBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover_int8 (p0 : Vec F S1024x256 .f32) (y : S1024x256.Idx) :
    ∃ pc ∈ ([⟨r8_6, p0⟩] : List (View.Piece (Elt F) S1024x256 .f32)), y ∈ pc.1.set :=
  View.cover_of_tiled [⟨r8_6, p0⟩] S1024x256.size (by rfl) y

theorem sound_int8 (c : Dev nD) (E : Set ℕ) (i : grid8.Coords) (arg1 : Memref sig .tc .vmem S1024x128 .f32) (harg1 : arg1.IsWhole) (arg2 : Memref sig .tc .vmem S2048x256 .f32) (harg2 : arg2.IsWhole) (arg3 : Memref sig .tc .vmem S2048x1 .i32) (harg3 : arg3.IsWhole) (arg4 : Memref sig .tc .vmem S16x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S1024x256 .f32) (harg7 : arg7.IsWhole)
    (x0 : Vec F S1024x128 .f32) (x1 : Vec F S2048x256 .f32) (x2 : Vec F S2048x1 .i32) (x3 : Vec F S16x256 .f32) (x4 : Vec F S128x256 .f32) (x5 : Vec F S1x256 .f32) {β : Type} (g : β → Vec F S1024x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare (g d))
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__internal_kernel_skel i arg1 harg1 arg2 harg2 arg3 harg3 arg4 harg4 arg5 harg5 arg6 harg6 arg7 harg7) K := by
  unfold cc8__internal_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_int8 _)

variable (V : (c : Dev nD) → (b : Ref sig .tc) → Buf (Elt F) ((c : Thread nD τ).loc b))

theorem before8_0 (c : Dev nD) (t : Fin cfg8.N) (d) : (dat8 V c).before 0 t d = sblk8_0 V c t :=
  (dat8 V c).before_fetched 0 t (fetch8_0 t) d

theorem before8_1 (c : Dev nD) (t : Fin cfg8.N) (d) : (dat8 V c).before 1 t d = sblk8_1 V c t :=
  (dat8 V c).before_fetched 1 t (fetch8_1 t) d

theorem before8_2 (c : Dev nD) (t : Fin cfg8.N) (d) : (dat8 V c).before 2 t d = sblk8_2 V c t :=
  (dat8 V c).before_fetched 2 t (fetch8_2 t) d

theorem before8_3 (c : Dev nD) (t : Fin cfg8.N) (d) : (dat8 V c).before 3 t d = sblk8_3 V c t :=
  (dat8 V c).before_fetched 3 t (fetch8_3 t) d

theorem before8_4 (c : Dev nD) (t : Fin cfg8.N) (d) : (dat8 V c).before 4 t d = sblk8_4 V c t :=
  (dat8 V c).before_fetched 4 t (fetch8_4 t) d

theorem before8_5 (c : Dev nD) (t : Fin cfg8.N) (d) : (dat8 V c).before 5 t d = sblk8_5 V c t :=
  (dat8 V c).before_fetched 5 t (fetch8_5 t) d

theorem body_obligation8 (c : Dev nD) : BodyObligation (dat8 (F := F) V c) (defs₀ (F := F)) Variants.none () Set.univ := fun t => by
  rw [bigSep_W8, bigSep_W8]
  show _ ⊢ wp _ _ _ (bodyAt8 t) _
  unfold bodyAt8
  rw [cc8__internal_kernel_eq_skeleton]
  refine Cert.Lib.framed7 _ _ _ _ _ _ _ _ _ _ _ _ _ _ _ _ _ _ _ _ _ _ _ _ _ _ rfl rfl
    (fun d => congrArg _ (before8_0 V c t d)) (fun d => congrArg _ (before8_1 V c t d)) (fun d => congrArg _ (before8_2 V c t d))
    (fun d => congrArg _ (before8_3 V c t d)) (fun d => congrArg _ (before8_4 V c t d)) (fun d => congrArg _ (before8_5 V c t d))
    (by dsimp only [dat8]) (by dsimp only [dat8]) (by dsimp only [dat8]) (by dsimp only [dat8]) (by dsimp only [dat8]) (by dsimp only [dat8])
    (by dsimp only [dat8])
    (sound_int8 c Set.univ _ _ _ _ _ _ _ _ _ _ _ _ _ _ _ _ _ _ _ _ _ _)

end Cert.Kernel.Hand

end
-- ==== Proof.K.Launch.lean ====
import proofs.«430205_j2405181685797_1_alg».proof.Proof.K.Fold
import proofs.«430205_j2405181685797_1_alg».proof.Proof.K.B0
import proofs.«430205_j2405181685797_1_alg».proof.Proof.K.B1
import proofs.«430205_j2405181685797_1_alg».proof.Proof.K.B2
import proofs.«430205_j2405181685797_1_alg».proof.Proof.K.B3
import proofs.«430205_j2405181685797_1_alg».proof.Proof.K.B4
import proofs.«430205_j2405181685797_1_alg».proof.Proof.K.B5
import proofs.«430205_j2405181685797_1_alg».proof.Proof.K.B6
import proofs.«430205_j2405181685797_1_alg».proof.Proof.K.B7
import proofs.«430205_j2405181685797_1_alg».proof.Proof.K.B8

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

def Wen : Fin 9 → Dev nD → Valuation τ sig (Elt F)
  | ⟨0, _⟩ => W1 m ρ
  | ⟨1, _⟩ => W2 m ρ
  | ⟨2, _⟩ => W3 m ρ
  | ⟨3, _⟩ => W4 m ρ
  | ⟨4, _⟩ => W5 m ρ
  | ⟨5, _⟩ => W6 m ρ
  | ⟨6, _⟩ => W7 m ρ
  | ⟨7, _⟩ => W8 m ρ
  | ⟨8, _⟩ => W9 m ρ

theorem plain : ∀ (p : Fin 9) (c : Dev nD), PlainDat (pdats m ρ p c) (Wen m ρ p c)
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ =>
    ⟨fun _ => rfl, fun _ => rfl, fun _ => rfl, rfl, fun _ => rfl⟩

def reg : (p : Fin 9) → Pipeline.RegionSeg (pcfgs (F := F)) adm (pdats m ρ) () defs₀ 𝒱₀ L lv p
  | ⟨0, _⟩ => regionOfUnscoped cfgs _ _ _ L lv launch0 _ (body_obligation0 _) (plain m ρ 0)
  | ⟨1, _⟩ => regionOfUnscoped cfgs _ _ _ L lv launch1 _ (body_obligation1 _) (plain m ρ 1)
  | ⟨2, _⟩ => regionOfUnscoped cfgs _ _ _ L lv launch2 _ (body_obligation2 _) (plain m ρ 2)
  | ⟨3, _⟩ => regionOfUnscoped cfgs _ _ _ L lv launch3 _ (body_obligation3 _) (plain m ρ 3)
  | ⟨4, _⟩ => regionOfUnscoped cfgs _ _ _ L lv launch4 _ (body_obligation4 _) (plain m ρ 4)
  | ⟨5, _⟩ => regionOfUnscoped cfgs _ _ _ L lv launch5 _ (body_obligation5 _) (plain m ρ 5)
  | ⟨6, _⟩ => regionOfUnscoped cfgs _ _ _ L lv launch6 _ (body_obligation6 _) (plain m ρ 6)
  | ⟨7, _⟩ => regionOfUnscoped cfgs _ _ _ L lv launch7 _ (body_obligation7 _) (plain m ρ 7)
  | ⟨8, _⟩ => regionOfUnscoped cfgs _ _ _ L lv launch8 _ (body_obligation8 _) (plain m ρ 8)

abbrev segs : List (Pipeline.Seg (pcfgs (F := F)) adm (pdats m ρ) () defs₀ 𝒱₀ L lv) :=
  [ .host (hseg hostOps0 hostOps0_sub hostOps0_fresh (W0 m ρ)),
    .region (reg m ρ 0), .region (reg m ρ 1), .region (reg m ρ 2), .region (reg m ρ 3), .region (reg m ρ 4),
    .region (reg m ρ 5), .region (reg m ρ 6), .region (reg m ρ 7), .region (reg m ρ 8),
    .host (hseg hostOps9 hostOps9_sub hostOps9_fresh (W10 m ρ)) ]

theorem main_run (c : Dev nD) : main (F := F) c = Pipeline.Seg.run (segs m ρ) := (main_chain c).trans (by chain_rfl)

theorem last_post (c : Dev nD) :
    iprop(StableHlo.held (c : Thread nD τ) (Pipeline.ucRefs τ sig) (W11 m ρ c) ∗ R c)
      ⊢ (iprop(Tₙ m ρ c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, last_post m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

theorem run_out : θ_run defs (onTc (τ := τ) (main (F := F))) ⟨m, fun _ => 0, ρ⟩ (fun r => ∀ c : Dev nD,
      r.2.mem ((c.tc : Thread nD τ).loc main_v13) = W11 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v13 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_out m ρ)

end Cert.Kernel.Hand

end
-- ==== Proof.KI.R0.lean ====
import proofs.«430205_j2405181685797_1_alg».proof.Proof.Gen.KernelIdeal.Launch
import proofs.«430205_j2405181685797_1_alg».proof.Proof.Gen.KernelIdeal.Skeleton
import Idealize.ShloMosaic.Lib.Pipeline.FrameBody

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def sblk0_0 (c : Dev nD) (t : Fin cfg0.N) : Vec F S8192x128 .f32 :=
  (cfg0.win 0).fill (cfg0.grid.coords t) (fun _ => Scalar.ofBits .f32 0#32) (iblk0 V c 0 t)

def sblk0_1 (c : Dev nD) (t : Fin cfg0.N) : Vec F S128x256 .f32 := iblk0 V c 1 t

def sblk0_2 (c : Dev nD) (t : Fin cfg0.N) : Vec F S1x256 .f32 := iblk0 V c 2 t

abbrev r0_0 : Rect S8192x128 := Rect.unit (s := S8192x128) ![0, 0] S8192x128.size inb_S8192x128_S8192x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S8192x256 := Rect.unit (s := S8192x256) ![0, 0] S8192x256.size inb_S8192x256_S8192x256_0_0

def out0_3 (x0 : Vec F S8192x128 .f32) (x1 : Vec F S128x256 .f32) (x2 : Vec F S1x256 .f32) : Vec F S8192x256 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => sblk0_0 V c t
    | ⟨1, _⟩ => sblk0_1 V c t
    | ⟨2, _⟩ => sblk0_2 V c t
    | ⟨3, _⟩ => out0_3 (sblk0_0 V c t) (sblk0_1 V c t) (sblk0_2 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (sblk0_0 V c t) (sblk0_1 V c t) (sblk0_2 V c t) := by dsimp only [dat0]

theorem noclip0_0 : ∀ t : Fin cfg0.N, ∀ a, (cfg0.win 0).clip (cfg0.grid.coords t) a = none :=
  (by decide +kernel : ∀ t : Fin grid0.N, ∀ a, win0_0.clip (grid0.coords t) a = none)

end Cert.KernelIdeal.Hand

end
-- ==== Proof.KI.R1.lean ====
import proofs.«430205_j2405181685797_1_alg».proof.Proof.Gen.KernelIdeal.Launch
import proofs.«430205_j2405181685797_1_alg».proof.Proof.Gen.KernelIdeal.Skeleton
import Idealize.ShloMosaic.Lib.Pipeline.FrameBody

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def sblk1_0 (c : Dev nD) (t : Fin cfg1.N) : Vec F S2048x128 .f32 :=
  (cfg1.win 0).fill (cfg1.grid.coords t) (fun _ => Scalar.ofBits .f32 0#32) (iblk1 V c 0 t)

def sblk1_1 (c : Dev nD) (t : Fin cfg1.N) : Vec F S4096x256 .f32 := iblk1 V c 1 t

def sblk1_2 (c : Dev nD) (t : Fin cfg1.N) : Vec F S4096x1 .i32 :=
  (cfg1.win 2).fill (cfg1.grid.coords t) (fun _ => (0#32 : BitVec 32)) (iblk1 V c 2 t)

def sblk1_3 (c : Dev nD) (t : Fin cfg1.N) : Vec F S16x256 .f32 := iblk1 V c 3 t

def sblk1_4 (c : Dev nD) (t : Fin cfg1.N) : Vec F S128x256 .f32 := iblk1 V c 4 t

def sblk1_5 (c : Dev nD) (t : Fin cfg1.N) : Vec F S1x256 .f32 := iblk1 V c 5 t

abbrev r1_0 : Rect S2048x128 := Rect.unit (s := S2048x128) ![0, 0] S2048x128.size inb_S2048x128_S2048x128_0_0
abbrev r1_1 : Rect S4096x256 := Rect.unit (s := S4096x256) ![0, 0] S4096x256.size inb_S4096x256_S4096x256_0_0
abbrev r1_2 : Rect S4096x1 := Rect.unit (s := S4096x1) ![0, 0] S4096x1.size inb_S4096x1_S4096x1_0_0
abbrev r1_3 : Rect S16x256 := Rect.unit (s := S16x256) ![0, 0] S16x256.size inb_S16x256_S16x256_0_0
abbrev r1_4 : Rect S128x256 := Rect.unit (s := S128x256) ![0, 0] S128x256.size inb_S128x256_S128x256_0_0
abbrev r1_5 : Rect S1x256 := Rect.unit (s := S1x256) ![0, 0] S1x256.size inb_S1x256_S1x256_0_0
abbrev r1_6 : Rect S2048x256 := Rect.unit (s := S2048x256) ![0, 0] S2048x256.size inb_S2048x256_S2048x256_0_0

def out1_6 (x0 : Vec F S2048x128 .f32) (x1 : Vec F S4096x256 .f32) (x2 : Vec F S4096x1 .i32) (x3 : Vec F S16x256 .f32) (x4 : Vec F S128x256 .f32) (x5 : Vec F S1x256 .f32) : Vec F S2048x256 .f32 :=
  View.canon [⟨r1_6, k1_pay1 (View.ld x2 r1_2) (View.ld x3 r1_3) (View.ld x1 r1_1) (View.ld x0 r1_0) (View.ld x4 r1_4) (View.ld x5 r1_5)⟩]

def dat1 (c : Dev nD) : Dat τ (Elt F) Unit ℕ (UR sig nD τ) ℕ cfg1 c where
  A w := V c (Pipeline.arrRef spec1 w)
  after w t := match w with
    | ⟨0, _⟩ => sblk1_0 V c t
    | ⟨1, _⟩ => sblk1_1 V c t
    | ⟨2, _⟩ => sblk1_2 V c t
    | ⟨3, _⟩ => sblk1_3 V c t
    | ⟨4, _⟩ => sblk1_4 V c t
    | ⟨5, _⟩ => sblk1_5 V c t
    | ⟨6, _⟩ => out1_6 (sblk1_0 V c t) (sblk1_1 V c t) (sblk1_2 V c t) (sblk1_3 V c t) (sblk1_4 V c t) (sblk1_5 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (sblk1_0 V c t) (sblk1_1 V c t) (sblk1_2 V c t) (sblk1_3 V c t) (sblk1_4 V c t) (sblk1_5 V c t) := by dsimp only [dat1]

theorem noclip1_0 : ∀ t : Fin cfg1.N, ∀ a, (cfg1.win 0).clip (cfg1.grid.coords t) a = none :=
  (by decide +kernel : ∀ t : Fin grid1.N, ∀ a, win1_0.clip (grid1.coords t) a = none)

theorem noclip1_2 : ∀ t : Fin cfg1.N, ∀ a, (cfg1.win 2).clip (cfg1.grid.coords t) a = none :=
  (by decide +kernel : ∀ t : Fin grid1.N, ∀ a, win1_2.clip (grid1.coords t) a = none)

end Cert.KernelIdeal.Hand

end
-- ==== Proof.KI.R2.lean ====
import proofs.«430205_j2405181685797_1_alg».proof.Proof.KI.R1

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def sblk2_0 (c : Dev nD) (t : Fin cfg2.N) : Vec F S2048x128 .f32 :=
  (cfg2.win 0).fill (cfg2.grid.coords t) (fun _ => Scalar.ofBits .f32 0#32) (iblk2 V c 0 t)

def sblk2_1 (c : Dev nD) (t : Fin cfg2.N) : Vec F S4096x256 .f32 := iblk2 V c 1 t

def sblk2_2 (c : Dev nD) (t : Fin cfg2.N) : Vec F S4096x1 .i32 :=
  (cfg2.win 2).fill (cfg2.grid.coords t) (fun _ => (0#32 : BitVec 32)) (iblk2 V c 2 t)

def sblk2_3 (c : Dev nD) (t : Fin cfg2.N) : Vec F S16x256 .f32 := iblk2 V c 3 t

def sblk2_4 (c : Dev nD) (t : Fin cfg2.N) : Vec F S128x256 .f32 := iblk2 V c 4 t

def sblk2_5 (c : Dev nD) (t : Fin cfg2.N) : Vec F S1x256 .f32 := iblk2 V c 5 t

def dat2 (c : Dev nD) : Dat τ (Elt F) Unit ℕ (UR sig nD τ) ℕ cfg2 c where
  A w := V c (Pipeline.arrRef spec2 w)
  after w t := match w with
    | ⟨0, _⟩ => sblk2_0 V c t
    | ⟨1, _⟩ => sblk2_1 V c t
    | ⟨2, _⟩ => sblk2_2 V c t
    | ⟨3, _⟩ => sblk2_3 V c t
    | ⟨4, _⟩ => sblk2_4 V c t
    | ⟨5, _⟩ => sblk2_5 V c t
    | ⟨6, _⟩ => out1_6 (sblk2_0 V c t) (sblk2_1 V c t) (sblk2_2 V c t) (sblk2_3 V c t) (sblk2_4 V c t) (sblk2_5 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out1_6 (sblk2_0 V c t) (sblk2_1 V c t) (sblk2_2 V c t) (sblk2_3 V c t) (sblk2_4 V c t) (sblk2_5 V c t) := by dsimp only [dat2]

theorem noclip2_0 : ∀ t : Fin cfg2.N, ∀ a, (cfg2.win 0).clip (cfg2.grid.coords t) a = none :=
  (by decide +kernel : ∀ t : Fin grid2.N, ∀ a, win2_0.clip (grid2.coords t) a = none)

theorem noclip2_2 : ∀ t : Fin cfg2.N, ∀ a, (cfg2.win 2).clip (cfg2.grid.coords t) a = none :=
  (by decide +kernel : ∀ t : Fin grid2.N, ∀ a, win2_2.clip (grid2.coords t) a = none)

end Cert.KernelIdeal.Hand

end
-- ==== Proof.KI.R3.lean ====
import proofs.«430205_j2405181685797_1_alg».proof.Proof.KI.R1

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sblk3_0 (c : Dev nD) (t : Fin cfg3.N) : Vec F S2048x128 .f32 :=
  (cfg3.win 0).fill (cfg3.grid.coords t) (fun _ => Scalar.ofBits .f32 0#32) (iblk3 V c 0 t)

def sblk3_1 (c : Dev nD) (t : Fin cfg3.N) : Vec F S4096x256 .f32 := iblk3 V c 1 t

def sblk3_2 (c : Dev nD) (t : Fin cfg3.N) : Vec F S4096x1 .i32 :=
  (cfg3.win 2).fill (cfg3.grid.coords t) (fun _ => (0#32 : BitVec 32)) (iblk3 V c 2 t)

def sblk3_3 (c : Dev nD) (t : Fin cfg3.N) : Vec F S16x256 .f32 := iblk3 V c 3 t

def sblk3_4 (c : Dev nD) (t : Fin cfg3.N) : Vec F S128x256 .f32 := iblk3 V c 4 t

def sblk3_5 (c : Dev nD) (t : Fin cfg3.N) : Vec F S1x256 .f32 := iblk3 V c 5 t

def dat3 (c : Dev nD) : Dat τ (Elt F) Unit ℕ (UR sig nD τ) ℕ cfg3 c where
  A w := V c (Pipeline.arrRef spec3 w)
  after w t := match w with
    | ⟨0, _⟩ => sblk3_0 V c t
    | ⟨1, _⟩ => sblk3_1 V c t
    | ⟨2, _⟩ => sblk3_2 V c t
    | ⟨3, _⟩ => sblk3_3 V c t
    | ⟨4, _⟩ => sblk3_4 V c t
    | ⟨5, _⟩ => sblk3_5 V c t
    | ⟨6, _⟩ => out1_6 (sblk3_0 V c t) (sblk3_1 V c t) (sblk3_2 V c t) (sblk3_3 V c t) (sblk3_4 V c t) (sblk3_5 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out1_6 (sblk3_0 V c t) (sblk3_1 V c t) (sblk3_2 V c t) (sblk3_3 V c t) (sblk3_4 V c t) (sblk3_5 V c t) := by dsimp only [dat3]

theorem noclip3_0 : ∀ t : Fin cfg3.N, ∀ a, (cfg3.win 0).clip (cfg3.grid.coords t) a = none :=
  (by decide +kernel : ∀ t : Fin grid3.N, ∀ a, win3_0.clip (grid3.coords t) a = none)

theorem noclip3_2 : ∀ t : Fin cfg3.N, ∀ a, (cfg3.win 2).clip (cfg3.grid.coords t) a = none :=
  (by decide +kernel : ∀ t : Fin grid3.N, ∀ a, win3_2.clip (grid3.coords t) a = none)

end Cert.KernelIdeal.Hand

end
-- ==== Proof.KI.R4.lean ====
import proofs.«430205_j2405181685797_1_alg».proof.Proof.KI.R1

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def sblk4_0 (c : Dev nD) (t : Fin cfg4.N) : Vec F S2048x128 .f32 :=
  (cfg4.win 0).fill (cfg4.grid.coords t) (fun _ => Scalar.ofBits .f32 0#32) (iblk4 V c 0 t)

def sblk4_1 (c : Dev nD) (t : Fin cfg4.N) : Vec F S4096x256 .f32 := iblk4 V c 1 t

def sblk4_2 (c : Dev nD) (t : Fin cfg4.N) : Vec F S4096x1 .i32 :=
  (cfg4.win 2).fill (cfg4.grid.coords t) (fun _ => (0#32 : BitVec 32)) (iblk4 V c 2 t)

def sblk4_3 (c : Dev nD) (t : Fin cfg4.N) : Vec F S16x256 .f32 := iblk4 V c 3 t

def sblk4_4 (c : Dev nD) (t : Fin cfg4.N) : Vec F S128x256 .f32 := iblk4 V c 4 t

def sblk4_5 (c : Dev nD) (t : Fin cfg4.N) : Vec F S1x256 .f32 := iblk4 V c 5 t

def dat4 (c : Dev nD) : Dat τ (Elt F) Unit ℕ (UR sig nD τ) ℕ cfg4 c where
  A w := V c (Pipeline.arrRef spec4 w)
  after w t := match w with
    | ⟨0, _⟩ => sblk4_0 V c t
    | ⟨1, _⟩ => sblk4_1 V c t
    | ⟨2, _⟩ => sblk4_2 V c t
    | ⟨3, _⟩ => sblk4_3 V c t
    | ⟨4, _⟩ => sblk4_4 V c t
    | ⟨5, _⟩ => sblk4_5 V c t
    | ⟨6, _⟩ => out1_6 (sblk4_0 V c t) (sblk4_1 V c t) (sblk4_2 V c t) (sblk4_3 V c t) (sblk4_4 V c t) (sblk4_5 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t = out1_6 (sblk4_0 V c t) (sblk4_1 V c t) (sblk4_2 V c t) (sblk4_3 V c t) (sblk4_4 V c t) (sblk4_5 V c t) := by dsimp only [dat4]

theorem noclip4_0 : ∀ t : Fin cfg4.N, ∀ a, (cfg4.win 0).clip (cfg4.grid.coords t) a = none :=
  (by decide +kernel : ∀ t : Fin grid4.N, ∀ a, win4_0.clip (grid4.coords t) a = none)

theorem noclip4_2 : ∀ t : Fin cfg4.N, ∀ a, (cfg4.win 2).clip (cfg4.grid.coords t) a = none :=
  (by decide +kernel : ∀ t : Fin grid4.N, ∀ a, win4_2.clip (grid4.coords t) a = none)

end Cert.KernelIdeal.Hand

end
-- ==== Proof.KI.R5.lean ====
import proofs.«430205_j2405181685797_1_alg».proof.Proof.KI.R1

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def sblk5_0 (c : Dev nD) (t : Fin cfg5.N) : Vec F S2048x128 .f32 :=
  (cfg5.win 0).fill (cfg5.grid.coords t) (fun _ => Scalar.ofBits .f32 0#32) (iblk5 V c 0 t)

def sblk5_1 (c : Dev nD) (t : Fin cfg5.N) : Vec F S4096x256 .f32 := iblk5 V c 1 t

def sblk5_2 (c : Dev nD) (t : Fin cfg5.N) : Vec F S4096x1 .i32 :=
  (cfg5.win 2).fill (cfg5.grid.coords t) (fun _ => (0#32 : BitVec 32)) (iblk5 V c 2 t)

def sblk5_3 (c : Dev nD) (t : Fin cfg5.N) : Vec F S16x256 .f32 := iblk5 V c 3 t

def sblk5_4 (c : Dev nD) (t : Fin cfg5.N) : Vec F S128x256 .f32 := iblk5 V c 4 t

def sblk5_5 (c : Dev nD) (t : Fin cfg5.N) : Vec F S1x256 .f32 := iblk5 V c 5 t

def dat5 (c : Dev nD) : Dat τ (Elt F) Unit ℕ (UR sig nD τ) ℕ cfg5 c where
  A w := V c (Pipeline.arrRef spec5 w)
  after w t := match w with
    | ⟨0, _⟩ => sblk5_0 V c t
    | ⟨1, _⟩ => sblk5_1 V c t
    | ⟨2, _⟩ => sblk5_2 V c t
    | ⟨3, _⟩ => sblk5_3 V c t
    | ⟨4, _⟩ => sblk5_4 V c t
    | ⟨5, _⟩ => sblk5_5 V c t
    | ⟨6, _⟩ => out1_6 (sblk5_0 V c t) (sblk5_1 V c t) (sblk5_2 V c t) (sblk5_3 V c t) (sblk5_4 V c t) (sblk5_5 V c t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t = out1_6 (sblk5_0 V c t) (sblk5_1 V c t) (sblk5_2 V c t) (sblk5_3 V c t) (sblk5_4 V c t) (sblk5_5 V c t) := by dsimp only [dat5]

theorem noclip5_0 : ∀ t : Fin cfg5.N, ∀ a, (cfg5.win 0).clip (cfg5.grid.coords t) a = none :=
  (by decide +kernel : ∀ t : Fin grid5.N, ∀ a, win5_0.clip (grid5.coords t) a = none)

theorem noclip5_2 : ∀ t : Fin cfg5.N, ∀ a, (cfg5.win 2).clip (cfg5.grid.coords t) a = none :=
  (by decide +kernel : ∀ t : Fin grid5.N, ∀ a, win5_2.clip (grid5.coords t) a = none)

end Cert.KernelIdeal.Hand

end
-- ==== Proof.KI.R6.lean ====
import proofs.«430205_j2405181685797_1_alg».proof.Proof.KI.R1

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def sblk6_0 (c : Dev nD) (t : Fin cfg6.N) : Vec F S2048x128 .f32 :=
  (cfg6.win 0).fill (cfg6.grid.coords t) (fun _ => Scalar.ofBits .f32 0#32) (iblk6 V c 0 t)

def sblk6_1 (c : Dev nD) (t : Fin cfg6.N) : Vec F S4096x256 .f32 := iblk6 V c 1 t

def sblk6_2 (c : Dev nD) (t : Fin cfg6.N) : Vec F S4096x1 .i32 :=
  (cfg6.win 2).fill (cfg6.grid.coords t) (fun _ => (0#32 : BitVec 32)) (iblk6 V c 2 t)

def sblk6_3 (c : Dev nD) (t : Fin cfg6.N) : Vec F S16x256 .f32 := iblk6 V c 3 t

def sblk6_4 (c : Dev nD) (t : Fin cfg6.N) : Vec F S128x256 .f32 := iblk6 V c 4 t

def sblk6_5 (c : Dev nD) (t : Fin cfg6.N) : Vec F S1x256 .f32 := iblk6 V c 5 t

def dat6 (c : Dev nD) : Dat τ (Elt F) Unit ℕ (UR sig nD τ) ℕ cfg6 c where
  A w := V c (Pipeline.arrRef spec6 w)
  after w t := match w with
    | ⟨0, _⟩ => sblk6_0 V c t
    | ⟨1, _⟩ => sblk6_1 V c t
    | ⟨2, _⟩ => sblk6_2 V c t
    | ⟨3, _⟩ => sblk6_3 V c t
    | ⟨4, _⟩ => sblk6_4 V c t
    | ⟨5, _⟩ => sblk6_5 V c t
    | ⟨6, _⟩ => out1_6 (sblk6_0 V c t) (sblk6_1 V c t) (sblk6_2 V c t) (sblk6_3 V c t) (sblk6_4 V c t) (sblk6_5 V c t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_6 (c : Dev nD) (t : Fin cfg6.N) : (dat6 V c).after 6 t = out1_6 (sblk6_0 V c t) (sblk6_1 V c t) (sblk6_2 V c t) (sblk6_3 V c t) (sblk6_4 V c t) (sblk6_5 V c t) := by dsimp only [dat6]

theorem noclip6_0 : ∀ t : Fin cfg6.N, ∀ a, (cfg6.win 0).clip (cfg6.grid.coords t) a = none :=
  (by decide +kernel : ∀ t : Fin grid6.N, ∀ a, win6_0.clip (grid6.coords t) a = none)

theorem noclip6_2 : ∀ t : Fin cfg6.N, ∀ a, (cfg6.win 2).clip (cfg6.grid.coords t) a = none :=
  (by decide +kernel : ∀ t : Fin grid6.N, ∀ a, win6_2.clip (grid6.coords t) a = none)

end Cert.KernelIdeal.Hand

end
-- ==== Proof.KI.R7.lean ====
import proofs.«430205_j2405181685797_1_alg».proof.Proof.KI.R1

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def sblk7_0 (c : Dev nD) (t : Fin cfg7.N) : Vec F S2048x128 .f32 :=
  (cfg7.win 0).fill (cfg7.grid.coords t) (fun _ => Scalar.ofBits .f32 0#32) (iblk7 V c 0 t)

def sblk7_1 (c : Dev nD) (t : Fin cfg7.N) : Vec F S4096x256 .f32 := iblk7 V c 1 t

def sblk7_2 (c : Dev nD) (t : Fin cfg7.N) : Vec F S4096x1 .i32 :=
  (cfg7.win 2).fill (cfg7.grid.coords t) (fun _ => (0#32 : BitVec 32)) (iblk7 V c 2 t)

def sblk7_3 (c : Dev nD) (t : Fin cfg7.N) : Vec F S16x256 .f32 := iblk7 V c 3 t

def sblk7_4 (c : Dev nD) (t : Fin cfg7.N) : Vec F S128x256 .f32 := iblk7 V c 4 t

def sblk7_5 (c : Dev nD) (t : Fin cfg7.N) : Vec F S1x256 .f32 := iblk7 V c 5 t

def dat7 (c : Dev nD) : Dat τ (Elt F) Unit ℕ (UR sig nD τ) ℕ cfg7 c where
  A w := V c (Pipeline.arrRef spec7 w)
  after w t := match w with
    | ⟨0, _⟩ => sblk7_0 V c t
    | ⟨1, _⟩ => sblk7_1 V c t
    | ⟨2, _⟩ => sblk7_2 V c t
    | ⟨3, _⟩ => sblk7_3 V c t
    | ⟨4, _⟩ => sblk7_4 V c t
    | ⟨5, _⟩ => sblk7_5 V c t
    | ⟨6, _⟩ => out1_6 (sblk7_0 V c t) (sblk7_1 V c t) (sblk7_2 V c t) (sblk7_3 V c t) (sblk7_4 V c t) (sblk7_5 V c t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_6 (c : Dev nD) (t : Fin cfg7.N) : (dat7 V c).after 6 t = out1_6 (sblk7_0 V c t) (sblk7_1 V c t) (sblk7_2 V c t) (sblk7_3 V c t) (sblk7_4 V c t) (sblk7_5 V c t) := by dsimp only [dat7]

theorem noclip7_0 : ∀ t : Fin cfg7.N, ∀ a, (cfg7.win 0).clip (cfg7.grid.coords t) a = none :=
  (by decide +kernel : ∀ t : Fin grid7.N, ∀ a, win7_0.clip (grid7.coords t) a = none)

theorem noclip7_2 : ∀ t : Fin cfg7.N, ∀ a, (cfg7.win 2).clip (cfg7.grid.coords t) a = none :=
  (by decide +kernel : ∀ t : Fin grid7.N, ∀ a, win7_2.clip (grid7.coords t) a = none)

end Cert.KernelIdeal.Hand

end
-- ==== Proof.KI.R8.lean ====
import proofs.«430205_j2405181685797_1_alg».proof.Proof.Gen.KernelIdeal.Launch
import proofs.«430205_j2405181685797_1_alg».proof.Proof.Gen.KernelIdeal.Skeleton
import Idealize.ShloMosaic.Lib.Pipeline.FrameBody

noncomputable section

namespace Cert.KernelIdeal.Hand

open Cert.KernelIdeal Cert.KernelIdeal.Gen Idealize.ShloMosaic Idealize.ShloMosaic.TcCoe Idealize.SL.RA
open Idealize.ShloMosaic.Pipeline (Dat)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def sblk8_0 (c : Dev nD) (t : Fin cfg8.N) : Vec F S1024x128 .f32 := iblk8 V c 0 t

def sblk8_1 (c : Dev nD) (t : Fin cfg8.N) : Vec F S2048x256 .f32 := iblk8 V c 1 t

def sblk8_2 (c : Dev nD) (t : Fin cfg8.N) : Vec F S2048x1 .i32 := iblk8 V c 2 t

def sblk8_3 (c : Dev nD) (t : Fin cfg8.N) : Vec F S16x256 .f32 := iblk8 V c 3 t

def sblk8_4 (c : Dev nD) (t : Fin cfg8.N) : Vec F S128x256 .f32 := iblk8 V c 4 t

def sblk8_5 (c : Dev nD) (t : Fin cfg8.N) : Vec F S1x256 .f32 := iblk8 V c 5 t

abbrev r8_0 : Rect S1024x128 := Rect.unit (s := S1024x128) ![0, 0] S1024x128.size inb_S1024x128_S1024x128_0_0
abbrev r8_1 : Rect S2048x256 := Rect.unit (s := S2048x256) ![0, 0] S2048x256.size inb_S2048x256_S2048x256_0_0
abbrev r8_2 : Rect S2048x1 := Rect.unit (s := S2048x1) ![0, 0] S2048x1.size inb_S2048x1_S2048x1_0_0
abbrev r8_3 : Rect S16x256 := Rect.unit (s := S16x256) ![0, 0] S16x256.size inb_S16x256_S16x256_0_0
abbrev r8_4 : Rect S128x256 := Rect.unit (s := S128x256) ![0, 0] S128x256.size inb_S128x256_S128x256_0_0
abbrev r8_5 : Rect S1x256 := Rect.unit (s := S1x256) ![0, 0] S1x256.size inb_S1x256_S1x256_0_0
abbrev r8_6 : Rect S1024x256 := Rect.unit (s := S1024x256) ![0, 0] S1024x256.size inb_S1024x256_S1024x256_0_0

def out8_6 (x0 : Vec F S1024x128 .f32) (x1 : Vec F S2048x256 .f32) (x2 : Vec F S2048x1 .i32) (x3 : Vec F S16x256 .f32) (x4 : Vec F S128x256 .f32) (x5 : Vec F S1x256 .f32) : Vec F S1024x256 .f32 :=
  View.canon [⟨r8_6, k8_pay1 (View.ld x2 r8_2) (View.ld x3 r8_3) (View.ld x1 r8_1) (View.ld x0 r8_0) (View.ld x4 r8_4) (View.ld x5 r8_5)⟩]

def dat8 (c : Dev nD) : Dat τ (Elt F) Unit ℕ (UR sig nD τ) ℕ cfg8 c where
  A w := V c (Pipeline.arrRef spec8 w)
  after w t := match w with
    | ⟨0, _⟩ => sblk8_0 V c t
    | ⟨1, _⟩ => sblk8_1 V c t
    | ⟨2, _⟩ => sblk8_2 V c t
    | ⟨3, _⟩ => sblk8_3 V c t
    | ⟨4, _⟩ => sblk8_4 V c t
    | ⟨5, _⟩ => sblk8_5 V c t
    | ⟨6, _⟩ => out8_6 (sblk8_0 V c t) (sblk8_1 V c t) (sblk8_2 V c t) (sblk8_3 V c t) (sblk8_4 V c t) (sblk8_5 V c t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_6 (c : Dev nD) (t : Fin cfg8.N) : (dat8 V c).after 6 t = out8_6 (sblk8_0 V c t) (sblk8_1 V c t) (sblk8_2 V c t) (sblk8_3 V c t) (sblk8_4 V c t) (sblk8_5 V c t) := by dsimp only [dat8]

end Cert.KernelIdeal.Hand

end
-- ==== Proof.KI.Fold.lean ====
import proofs.«430205_j2405181685797_1_alg».proof.Proof.LibRegionSeg
import proofs.«430205_j2405181685797_1_alg».proof.Proof.KI.R0
import proofs.«430205_j2405181685797_1_alg».proof.Proof.KI.R1
import proofs.«430205_j2405181685797_1_alg».proof.Proof.KI.R2
import proofs.«430205_j2405181685797_1_alg».proof.Proof.KI.R3
import proofs.«430205_j2405181685797_1_alg».proof.Proof.KI.R4
import proofs.«430205_j2405181685797_1_alg».proof.Proof.KI.R5
import proofs.«430205_j2405181685797_1_alg».proof.Proof.KI.R6
import proofs.«430205_j2405181685797_1_alg».proof.Proof.KI.R7
import proofs.«430205_j2405181685797_1_alg».proof.Proof.KI.R8

noncomputable section

namespace Cert.KernelIdeal.Hand

open Cert.KernelIdeal Cert.KernelIdeal.Gen Cert.Lib
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) := exitVal (dat0 (V1 m ρ) c) (W1 m ρ c)
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) := exitVal (dat1 (V2 m ρ) c) (W2 m ρ c)
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b

def W4 (c : Dev nD) : Valuation τ sig (Elt F) := exitVal (dat2 (V3 m ρ) c) (W3 m ρ c)
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b

def W5 (c : Dev nD) : Valuation τ sig (Elt F) := exitVal (dat3 (V4 m ρ) c) (W4 m ρ c)
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b

def W6 (c : Dev nD) : Valuation τ sig (Elt F) := exitVal (dat4 (V5 m ρ) c) (W5 m ρ c)
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b

def W7 (c : Dev nD) : Valuation τ sig (Elt F) := exitVal (dat5 (V6 m ρ) c) (W6 m ρ c)
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
abbrev V7 : (c : Dev nD) → (b : Ref sig .tc) → Buf (Elt F) ((c : Thread nD τ).loc b) := fun c b => W7 m ρ c b

def W8 (c : Dev nD) : Valuation τ sig (Elt F) := exitVal (dat6 (V7 m ρ) c) (W7 m ρ c)
theorem W8_arr (c : Dev nD) (w : Fin cfg6.W) :
    W8 m ρ c (Proc.devRef .tc (Pipeline.arrRef spec6 w)) = (dat6 (V7 m ρ) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m ρ c (Proc.devRef .tc b) = W7 m ρ c (Proc.devRef .tc b) := by
  unfold W8; exact Pipeline.withArrays_of_ne spec6 c _ _ b hb
abbrev V8 : (c : Dev nD) → (b : Ref sig .tc) → Buf (Elt F) ((c : Thread nD τ).loc b) := fun c b => W8 m ρ c b

def W9 (c : Dev nD) : Valuation τ sig (Elt F) := exitVal (dat7 (V8 m ρ) c) (W8 m ρ c)
theorem W9_arr (c : Dev nD) (w : Fin cfg7.W) :
    W9 m ρ c (Proc.devRef .tc (Pipeline.arrRef spec7 w)) = (dat7 (V8 m ρ) c).arrAt w cfg7.N := by
  unfold W9; exact Pipeline.withArrays_arr spec7 launch7.win.arr_inj c _ _ w
theorem W9_of_ne (c : Dev nD) (b : Ref sig .tc) (hb : ∀ w, Pipeline.arrRef spec7 w ≠ b) :
    W9 m ρ c (Proc.devRef .tc b) = W8 m ρ c (Proc.devRef .tc b) := by
  unfold W9; exact Pipeline.withArrays_of_ne spec7 c _ _ b hb
abbrev V9 : (c : Dev nD) → (b : Ref sig .tc) → Buf (Elt F) ((c : Thread nD τ).loc b) := fun c b => W9 m ρ c b

def W10 (c : Dev nD) : Valuation τ sig (Elt F) := exitVal (dat8 (V9 m ρ) c) (W9 m ρ c)
theorem W10_arr (c : Dev nD) (w : Fin cfg8.W) :
    W10 m ρ c (Proc.devRef .tc (Pipeline.arrRef spec8 w)) = (dat8 (V9 m ρ) c).arrAt w cfg8.N := by
  unfold W10; exact Pipeline.withArrays_arr spec8 launch8.win.arr_inj c _ _ w
theorem W10_of_ne (c : Dev nD) (b : Ref sig .tc) (hb : ∀ w, Pipeline.arrRef spec8 w ≠ b) :
    W10 m ρ c (Proc.devRef .tc b) = W9 m ρ c (Proc.devRef .tc b) := by
  unfold W10; exact Pipeline.withArrays_of_ne spec8 c _ _ b hb
abbrev V10 : (c : Dev nD) → (b : Ref sig .tc) → Buf (Elt F) ((c : Thread nD τ).loc b) := fun c b => W10 m ρ c b

abbrev W11 : Dev nD → Valuation τ sig (Elt F) := fun c => StableHlo.after hostOps9 (W10 m ρ c)

theorem W1_of_ne (c : Dev nD) (b : Ref sig .tc) (h0 : b ≠ main_v0) (h1 : b ≠ main_v1) (h2 : b ≠ main_v2) (h3 : b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    exact ⟨StableHlo.devRef_ne_of_ne h0, StableHlo.devRef_ne_of_ne h1, StableHlo.devRef_ne_of_ne h2, StableHlo.devRef_ne_of_ne h3⟩))

theorem W11_of_ne (c : Dev nD) (b : Ref sig .tc) (h : b ≠ main_v13) :
    W11 m ρ c (Proc.devRef .tc b) = W10 m ρ c (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    exact StableHlo.devRef_ne_of_ne h))

theorem W11_keep (c : Dev nD) (b : Ref sig .tc) (h0 : b ≠ main_v0) (h1 : b ≠ main_v1) (h2 : b ≠ main_v2) (h3 : b ≠ main_v3) (h13 : b ≠ main_v13)
    (hb : ∀ (p : Fin 9) (w : Fin (cfgs p).W), Pipeline.arrRef (cfgs p).spec w = b → ((cfgs p).win w).isOut = false) :
    W11 m ρ c (Proc.devRef .tc b) = m ((c : Thread nD τ).loc b) :=
  (W11_of_ne m ρ c b h13).trans <|
  (exitVal_keep (dat8 (V9 m ρ) c) (W9 m ρ c) launch8.win.arr_inj (A_eq8 _ c) b (hb 8)).trans <|
  (exitVal_keep (dat7 (V8 m ρ) c) (W8 m ρ c) launch7.win.arr_inj (A_eq7 _ c) b (hb 7)).trans <|
  (exitVal_keep (dat6 (V7 m ρ) c) (W7 m ρ c) launch6.win.arr_inj (A_eq6 _ c) b (hb 6)).trans <|
  (exitVal_keep (dat5 (V6 m ρ) c) (W6 m ρ c) launch5.win.arr_inj (A_eq5 _ c) b (hb 5)).trans <|
  (exitVal_keep (dat4 (V5 m ρ) c) (W5 m ρ c) launch4.win.arr_inj (A_eq4 _ c) b (hb 4)).trans <|
  (exitVal_keep (dat3 (V4 m ρ) c) (W4 m ρ c) launch3.win.arr_inj (A_eq3 _ c) b (hb 3)).trans <|
  (exitVal_keep (dat2 (V3 m ρ) c) (W3 m ρ c) launch2.win.arr_inj (A_eq2 _ c) b (hb 2)).trans <|
  (exitVal_keep (dat1 (V2 m ρ) c) (W2 m ρ c) launch1.win.arr_inj (A_eq1 _ c) b (hb 1)).trans <|
  (exitVal_keep (dat0 (V1 m ρ) c) (W1 m ρ c) launch0.win.arr_inj (A_eq0 _ c) b (hb 0)).trans <|
  W1_of_ne m ρ c b h0 h1 h2 h3

theorem W11_main_arg0 (c : Dev nD) : W11 m ρ c (Proc.devRef .tc main_arg0) = m ((c : Thread nD τ).loc main_arg0) :=
  W11_keep m ρ c main_arg0 (by decide) (by decide) (by decide) (by decide) (by decide) (by decide)
theorem W11_main_arg1 (c : Dev nD) : W11 m ρ c (Proc.devRef .tc main_arg1) = m ((c : Thread nD τ).loc main_arg1) :=
  W11_keep m ρ c main_arg1 (by decide) (by decide) (by decide) (by decide) (by decide) (by decide)
theorem W11_main_arg2 (c : Dev nD) : W11 m ρ c (Proc.devRef .tc main_arg2) = m ((c : Thread nD τ).loc main_arg2) :=
  W11_keep m ρ c main_arg2 (by decide) (by decide) (by decide) (by decide) (by decide) (by decide)
theorem W11_main_arg3 (c : Dev nD) : W11 m ρ c (Proc.devRef .tc main_arg3) = m ((c : Thread nD τ).loc main_arg3) :=
  W11_keep m ρ c main_arg3 (by decide) (by decide) (by decide) (by decide) (by decide) (by decide)
theorem W11_main_arg4 (c : Dev nD) : W11 m ρ c (Proc.devRef .tc main_arg4) = m ((c : Thread nD τ).loc main_arg4) :=
  W11_keep m ρ c main_arg4 (by decide) (by decide) (by decide) (by decide) (by decide) (by decide)

abbrev adm : (p : Fin 9) → (pcfgs (F := F) p).Adm := fun p => (cfgs p).toPCfg_adm

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V7 m ρ) c
  | ⟨7, _⟩ => fun c => dat7 (V8 m ρ) c
  | ⟨8, _⟩ => fun c => dat8 (V9 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m ρ c) ∗ ∃ r, prngReg c r)

end Cert.KernelIdeal.Hand

end
-- ==== Proof.KI.B0.lean ====
import proofs.«430205_j2405181685797_1_alg».proof.Proof.Gen.KernelIdeal.Launch
import proofs.«430205_j2405181685797_1_alg».proof.Proof.Gen.KernelIdeal.Skeleton
import proofs.«430205_j2405181685797_1_alg».proof.Proof.Gen.KernelIdeal.Points
import proofs.«430205_j2405181685797_1_alg».proof.Proof.KI.R0
import proofs.«430205_j2405181685797_1_alg».proof.Proof.LibWindow
import proofs.«430205_j2405181685797_1_alg».proof.Proof.LibBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover_leaf (p0 : Vec F S8192x256 .f32) (y : S8192x256.Idx) :
    ∃ pc ∈ ([⟨r0_3, p0⟩] : List (View.Piece (Elt F) S8192x256 .f32)), y ∈ pc.1.set :=
  View.cover_of_tiled [⟨r0_3, p0⟩] S8192x256.size (by rfl) y

theorem sound_leaf (c : Dev nD) (E : Set ℕ) (i : grid0.Coords) (arg1 : Memref sig .tc .vmem S8192x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S8192x256 .f32) (harg4 : arg4.IsWhole)
    (x0 : Vec F S8192x128 .f32) (x1 : Vec F S128x256 .f32) (x2 : Vec F S1x256 .f32) {β : Type} (g : β → Vec F S8192x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare (g d))
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__leaf_kernel_skel i arg1 harg1 arg2 harg2 arg3 harg3 arg4 harg4) K := by
  unfold cc0__leaf_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_leaf _)

variable (V : (c : Dev nD) → (b : Ref sig .tc) → Buf (Elt F) ((c : Thread nD τ).loc b))

theorem before0_0 (c : Dev nD) (t : Fin cfg0.N) (d) : (dat0 V c).before 0 t d = sblk0_0 V c t :=
  Cert.Lib.before_of_fetch_uncut _ 0 t (fetch0_0 t) (noclip0_0 t) d _

theorem before0_1 (c : Dev nD) (t : Fin cfg0.N) (d) : (dat0 V c).before 1 t d = sblk0_1 V c t :=
  (dat0 V c).before_in_eq_fetched 1 rfl (fun _ => rfl) (fun _ _ _ => rfl) (fun _ => rfl) t d

theorem before0_2 (c : Dev nD) (t : Fin cfg0.N) (d) : (dat0 V c).before 2 t d = sblk0_2 V c t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  rw [cc0__leaf_kernel_eq_skeleton]
  refine Cert.Lib.framed4 _ _ _ _ _ _ _ _ _ _ _ _ _ _ _ _ _ rfl rfl
    (fun d => congrArg _ (before0_0 V c t d)) (fun d => congrArg _ (before0_1 V c t d)) (fun d => congrArg _ (before0_2 V c t d))
    (by dsimp only [dat0]) (by dsimp only [dat0]) (by dsimp only [dat0]) (by dsimp only [dat0])
    (sound_leaf c Set.univ _ _ _ _ _ _ _ _ _ _ _ _ _)

end Cert.KernelIdeal.Hand

end
-- ==== Proof.KI.Body.lean ====
import proofs.«430205_j2405181685797_1_alg».proof.Proof.Gen.KernelIdeal.Launch
import proofs.«430205_j2405181685797_1_alg».proof.Proof.Gen.KernelIdeal.Skeleton
import proofs.«430205_j2405181685797_1_alg».proof.Proof.Gen.KernelIdeal.Points
import proofs.«430205_j2405181685797_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover_int (p0 : Vec F S2048x256 .f32) (y : S2048x256.Idx) :
    ∃ pc ∈ ([⟨r1_6, p0⟩] : List (View.Piece (Elt F) S2048x256 .f32)), y ∈ pc.1.set :=
  View.cover_of_tiled [⟨r1_6, p0⟩] S2048x256.size (by rfl) y

abbrev skelI := cc1__internal_kernel_skel (F := F) (grid1.coords ⟨0, by decide⟩)

abbrev outI := out1_6 (F := F)

theorem sound_int (c : Dev nD) (E : Set ℕ) (arg1 : Memref sig .tc .vmem S2048x128 .f32) (harg1 : arg1.IsWhole) (arg2 : Memref sig .tc .vmem S4096x256 .f32) (harg2 : arg2.IsWhole) (arg3 : Memref sig .tc .vmem S4096x1 .i32) (harg3 : arg3.IsWhole) (arg4 : Memref sig .tc .vmem S16x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S2048x256 .f32) (harg7 : arg7.IsWhole)
    (x0 : Vec F S2048x128 .f32) (x1 : Vec F S4096x256 .f32) (x2 : Vec F S4096x1 .i32) (x3 : Vec F S16x256 .f32) (x4 : Vec F S128x256 .f32) (x5 : Vec F S1x256 .f32) {β : Type} (g : β → Vec F S2048x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare (g d))
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outI x0 x1 x2 x3 x4 x5)) -∗ K ⟨⟩))
      ⊢ wp frame (wpE (defs₀ (F := F)) Variants.none c none) E (skelI arg1 harg1 arg2 harg2 arg3 harg3 arg4 harg4 arg5 harg5 arg6 harg6 arg7 harg7) K := by
  unfold skelI cc1__internal_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_int _)

end Cert.KernelIdeal.Hand

end
-- ==== Proof.KI.B1.lean ====
import proofs.«430205_j2405181685797_1_alg».proof.Proof.KI.Body
import proofs.«430205_j2405181685797_1_alg».proof.Proof.KI.R1
import proofs.«430205_j2405181685797_1_alg».proof.Proof.LibWindow
import proofs.«430205_j2405181685797_1_alg».proof.Proof.LibBody

noncomputable section

namespace Cert.KernelIdeal.Hand

open Cert.KernelIdeal Cert.KernelIdeal.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before1_0 (c : Dev nD) (t : Fin cfg1.N) (d) : (dat1 V c).before 0 t d = sblk1_0 V c t :=
  Cert.Lib.before_of_fetch_uncut _ 0 t (fetch1_0 t) (noclip1_0 t) d _

theorem before1_2 (c : Dev nD) (t : Fin cfg1.N) (d) : (dat1 V c).before 2 t d = sblk1_2 V c t :=
  Cert.Lib.before_of_fetch_uncut _ 2 t (fetch1_2 t) (noclip1_2 t) d _

theorem before1_1 (c : Dev nD) (t : Fin cfg1.N) (d) : (dat1 V c).before 1 t d = sblk1_1 V c t :=
  (dat1 V c).before_in_eq_fetched 1 rfl (fun _ => rfl) (fun _ _ _ => rfl) (fun _ => rfl) t d

theorem before1_3 (c : Dev nD) (t : Fin cfg1.N) (d) : (dat1 V c).before 3 t d = sblk1_3 V c t :=
  (dat1 V c).before_in_eq_fetched 3 rfl (fun _ => rfl) (fun _ _ _ => rfl) (fun _ => rfl) t d

theorem before1_4 (c : Dev nD) (t : Fin cfg1.N) (d) : (dat1 V c).before 4 t d = sblk1_4 V c t :=
  (dat1 V c).before_in_eq_fetched 4 rfl (fun _ => rfl) (fun _ _ _ => rfl) (fun _ => rfl) t d

theorem before1_5 (c : Dev nD) (t : Fin cfg1.N) (d) : (dat1 V c).before 5 t d = sblk1_5 V c t :=
  (dat1 V c).before_in_eq_fetched 5 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  rw [cc1__internal_kernel_eq_skeleton, show cc1__internal_kernel_skel (F := F) = fun _ => skelI from rfl]
  refine Cert.Lib.framed7 _ _ _ _ _ _ _ _ _ _ _ _ _ _ _ _ _ _ _ _ _ _ _ _ _ _ rfl rfl
    (fun d => congrArg _ (before1_0 V c t d)) (fun d => congrArg _ (before1_1 V c t d)) (fun d => congrArg _ (before1_2 V c t d))
    (fun d => congrArg _ (before1_3 V c t d)) (fun d => congrArg _ (before1_4 V c t d)) (fun d => congrArg _ (before1_5 V c t d))
    (by dsimp only [dat1]) (by dsimp only [dat1]) (by dsimp only [dat1]) (by dsimp only [dat1]) (by dsimp only [dat1]) (by dsimp only [dat1])
    (by dsimp only [dat1])
    (sound_int c Set.univ _ _ _ _ _ _ _ _ _ _ _ _ _ _ _ _ _ _ _ _ _)

end Cert.KernelIdeal.Hand

end
-- ==== Proof.KI.B2.lean ====
import proofs.«430205_j2405181685797_1_alg».proof.Proof.KI.Body
import proofs.«430205_j2405181685797_1_alg».proof.Proof.KI.R2
import proofs.«430205_j2405181685797_1_alg».proof.Proof.LibWindow
import proofs.«430205_j2405181685797_1_alg».proof.Proof.LibBody

noncomputable section

namespace Cert.KernelIdeal.Hand

open Cert.KernelIdeal Cert.KernelIdeal.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before2_0 (c : Dev nD) (t : Fin cfg2.N) (d) : (dat2 V c).before 0 t d = sblk2_0 V c t :=
  Cert.Lib.before_of_fetch_uncut _ 0 t (fetch2_0 t) (noclip2_0 t) d _

theorem before2_2 (c : Dev nD) (t : Fin cfg2.N) (d) : (dat2 V c).before 2 t d = sblk2_2 V c t :=
  Cert.Lib.before_of_fetch_uncut _ 2 t (fetch2_2 t) (noclip2_2 t) d _

theorem before2_1 (c : Dev nD) (t : Fin cfg2.N) (d) : (dat2 V c).before 1 t d = sblk2_1 V c t :=
  (dat2 V c).before_in_eq_fetched 1 rfl (fun _ => rfl) (fun _ _ _ => rfl) (fun _ => rfl) t d

theorem before2_3 (c : Dev nD) (t : Fin cfg2.N) (d) : (dat2 V c).before 3 t d = sblk2_3 V c t :=
  (dat2 V c).before_in_eq_fetched 3 rfl (fun _ => rfl) (fun _ _ _ => rfl) (fun _ => rfl) t d

theorem before2_4 (c : Dev nD) (t : Fin cfg2.N) (d) : (dat2 V c).before 4 t d = sblk2_4 V c t :=
  (dat2 V c).before_in_eq_fetched 4 rfl (fun _ => rfl) (fun _ _ _ => rfl) (fun _ => rfl) t d

theorem before2_5 (c : Dev nD) (t : Fin cfg2.N) (d) : (dat2 V c).before 5 t d = sblk2_5 V c t :=
  (dat2 V c).before_in_eq_fetched 5 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  rw [cc2__internal_kernel_eq_skeleton, show cc2__internal_kernel_skel (F := F) = fun _ => skelI from rfl]
  refine Cert.Lib.framed7 _ _ _ _ _ _ _ _ _ _ _ _ _ _ _ _ _ _ _ _ _ _ _ _ _ _ rfl rfl
    (fun d => congrArg _ (before2_0 V c t d)) (fun d => congrArg _ (before2_1 V c t d)) (fun d => congrArg _ (before2_2 V c t d))
    (fun d => congrArg _ (before2_3 V c t d)) (fun d => congrArg _ (before2_4 V c t d)) (fun d => congrArg _ (before2_5 V c t d))
    (by dsimp only [dat2]) (by dsimp only [dat2]) (by dsimp only [dat2]) (by dsimp only [dat2]) (by dsimp only [dat2]) (by dsimp only [dat2])
    (by dsimp only [dat2])
    (sound_int c Set.univ _ _ _ _ _ _ _ _ _ _ _ _ _ _ _ _ _ _ _ _ _)

end Cert.KernelIdeal.Hand

end
-- ==== Proof.KI.B3.lean ====
import proofs.«430205_j2405181685797_1_alg».proof.Proof.KI.Body
import proofs.«430205_j2405181685797_1_alg».proof.Proof.KI.R3
import proofs.«430205_j2405181685797_1_alg».proof.Proof.LibWindow
import proofs.«430205_j2405181685797_1_alg».proof.Proof.LibBody

noncomputable section

namespace Cert.KernelIdeal.Hand

open Cert.KernelIdeal Cert.KernelIdeal.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before3_0 (c : Dev nD) (t : Fin cfg3.N) (d) : (dat3 V c).before 0 t d = sblk3_0 V c t :=
  Cert.Lib.before_of_fetch_uncut _ 0 t (fetch3_0 t) (noclip3_0 t) d _

theorem before3_2 (c : Dev nD) (t : Fin cfg3.N) (d) : (dat3 V c).before 2 t d = sblk3_2 V c t :=
  Cert.Lib.before_of_fetch_uncut _ 2 t (fetch3_2 t) (noclip3_2 t) d _

theorem before3_1 (c : Dev nD) (t : Fin cfg3.N) (d) : (dat3 V c).before 1 t d = sblk3_1 V c t :=
  (dat3 V c).before_in_eq_fetched 1 rfl (fun _ => rfl) (fun _ _ _ => rfl) (fun _ => rfl) t d

theorem before3_3 (c : Dev nD) (t : Fin cfg3.N) (d) : (dat3 V c).before 3 t d = sblk3_3 V c t :=
  (dat3 V c).before_in_eq_fetched 3 rfl (fun _ => rfl) (fun _ _ _ => rfl) (fun _ => rfl) t d

theorem before3_4 (c : Dev nD) (t : Fin cfg3.N) (d) : (dat3 V c).before 4 t d = sblk3_4 V c t :=
  (dat3 V c).before_in_eq_fetched 4 rfl (fun _ => rfl) (fun _ _ _ => rfl) (fun _ => rfl) t d

theorem before3_5 (c : Dev nD) (t : Fin cfg3.N) (d) : (dat3 V c).before 5 t d = sblk3_5 V c t :=
  (dat3 V c).before_in_eq_fetched 5 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  rw [cc3__internal_kernel_eq_skeleton, show cc3__internal_kernel_skel (F := F) = fun _ => skelI from rfl]
  refine Cert.Lib.framed7 _ _ _ _ _ _ _ _ _ _ _ _ _ _ _ _ _ _ _ _ _ _ _ _ _ _ rfl rfl
    (fun d => congrArg _ (before3_0 V c t d)) (fun d => congrArg _ (before3_1 V c t d)) (fun d => congrArg _ (before3_2 V c t d))
    (fun d => congrArg _ (before3_3 V c t d)) (fun d => congrArg _ (before3_4 V c t d)) (fun d => congrArg _ (before3_5 V c t d))
    (by dsimp only [dat3]) (by dsimp only [dat3]) (by dsimp only [dat3]) (by dsimp only [dat3]) (by dsimp only [dat3]) (by dsimp only [dat3])
    (by dsimp only [dat3])
    (sound_int c Set.univ _ _ _ _ _ _ _ _ _ _ _ _ _ _ _ _ _ _ _ _ _)

end Cert.KernelIdeal.Hand

end
-- ==== Proof.KI.B4.lean ====
import proofs.«430205_j2405181685797_1_alg».proof.Proof.KI.Body
import proofs.«430205_j2405181685797_1_alg».proof.Proof.KI.R4
import proofs.«430205_j2405181685797_1_alg».proof.Proof.LibWindow
import proofs.«430205_j2405181685797_1_alg».proof.Proof.LibBody

noncomputable section

namespace Cert.KernelIdeal.Hand

open Cert.KernelIdeal Cert.KernelIdeal.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before4_0 (c : Dev nD) (t : Fin cfg4.N) (d) : (dat4 V c).before 0 t d = sblk4_0 V c t :=
  Cert.Lib.before_of_fetch_uncut _ 0 t (fetch4_0 t) (noclip4_0 t) d _

theorem before4_2 (c : Dev nD) (t : Fin cfg4.N) (d) : (dat4 V c).before 2 t d = sblk4_2 V c t :=
  Cert.Lib.before_of_fetch_uncut _ 2 t (fetch4_2 t) (noclip4_2 t) d _

theorem before4_1 (c : Dev nD) (t : Fin cfg4.N) (d) : (dat4 V c).before 1 t d = sblk4_1 V c t :=
  (dat4 V c).before_in_eq_fetched 1 rfl (fun _ => rfl) (fun _ _ _ => rfl) (fun _ => rfl) t d

theorem before4_3 (c : Dev nD) (t : Fin cfg4.N) (d) : (dat4 V c).before 3 t d = sblk4_3 V c t :=
  (dat4 V c).before_in_eq_fetched 3 rfl (fun _ => rfl) (fun _ _ _ => rfl) (fun _ => rfl) t d

theorem before4_4 (c : Dev nD) (t : Fin cfg4.N) (d) : (dat4 V c).before 4 t d = sblk4_4 V c t :=
  (dat4 V c).before_in_eq_fetched 4 rfl (fun _ => rfl) (fun _ _ _ => rfl) (fun _ => rfl) t d

theorem before4_5 (c : Dev nD) (t : Fin cfg4.N) (d) : (dat4 V c).before 5 t d = sblk4_5 V c t :=
  (dat4 V c).before_in_eq_fetched 5 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  rw [cc4__internal_kernel_eq_skeleton, show cc4__internal_kernel_skel (F := F) = fun _ => skelI from rfl]
  refine Cert.Lib.framed7 _ _ _ _ _ _ _ _ _ _ _ _ _ _ _ _ _ _ _ _ _ _ _ _ _ _ rfl rfl
    (fun d => congrArg _ (before4_0 V c t d)) (fun d => congrArg _ (before4_1 V c t d)) (fun d => congrArg _ (before4_2 V c t d))
    (fun d => congrArg _ (before4_3 V c t d)) (fun d => congrArg _ (before4_4 V c t d)) (fun d => congrArg _ (before4_5 V c t d))
    (by dsimp only [dat4]) (by dsimp only [dat4]) (by dsimp only [dat4]) (by dsimp only [dat4]) (by dsimp only [dat4]) (by dsimp only [dat4])
    (by dsimp only [dat4])
    (sound_int c Set.univ _ _ _ _ _ _ _ _ _ _ _ _ _ _ _ _ _ _ _ _ _)

end Cert.KernelIdeal.Hand

end
-- ==== Proof.KI.B5.lean ====
import proofs.«430205_j2405181685797_1_alg».proof.Proof.KI.Body
import proofs.«430205_j2405181685797_1_alg».proof.Proof.KI.R5
import proofs.«430205_j2405181685797_1_alg».proof.Proof.LibWindow
import proofs.«430205_j2405181685797_1_alg».proof.Proof.LibBody

noncomputable section

namespace Cert.KernelIdeal.Hand

open Cert.KernelIdeal Cert.KernelIdeal.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before5_0 (c : Dev nD) (t : Fin cfg5.N) (d) : (dat5 V c).before 0 t d = sblk5_0 V c t :=
  Cert.Lib.before_of_fetch_uncut _ 0 t (fetch5_0 t) (noclip5_0 t) d _

theorem before5_2 (c : Dev nD) (t : Fin cfg5.N) (d) : (dat5 V c).before 2 t d = sblk5_2 V c t :=
  Cert.Lib.before_of_fetch_uncut _ 2 t (fetch5_2 t) (noclip5_2 t) d _

theorem before5_1 (c : Dev nD) (t : Fin cfg5.N) (d) : (dat5 V c).before 1 t d = sblk5_1 V c t :=
  (dat5 V c).before_in_eq_fetched 1 rfl (fun _ => rfl) (fun _ _ _ => rfl) (fun _ => rfl) t d

theorem before5_3 (c : Dev nD) (t : Fin cfg5.N) (d) : (dat5 V c).before 3 t d = sblk5_3 V c t :=
  (dat5 V c).before_in_eq_fetched 3 rfl (fun _ => rfl) (fun _ _ _ => rfl) (fun _ => rfl) t d

theorem before5_4 (c : Dev nD) (t : Fin cfg5.N) (d) : (dat5 V c).before 4 t d = sblk5_4 V c t :=
  (dat5 V c).before_in_eq_fetched 4 rfl (fun _ => rfl) (fun _ _ _ => rfl) (fun _ => rfl) t d

theorem before5_5 (c : Dev nD) (t : Fin cfg5.N) (d) : (dat5 V c).before 5 t d = sblk5_5 V c t :=
  (dat5 V c).before_in_eq_fetched 5 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  show _ ⊢ wp _ _ _ (bodyAt5 t) _
  unfold bodyAt5
  rw [cc5__internal_kernel_eq_skeleton, show cc5__internal_kernel_skel (F := F) = fun _ => skelI from rfl]
  refine Cert.Lib.framed7 _ _ _ _ _ _ _ _ _ _ _ _ _ _ _ _ _ _ _ _ _ _ _ _ _ _ rfl rfl
    (fun d => congrArg _ (before5_0 V c t d)) (fun d => congrArg _ (before5_1 V c t d)) (fun d => congrArg _ (before5_2 V c t d))
    (fun d => congrArg _ (before5_3 V c t d)) (fun d => congrArg _ (before5_4 V c t d)) (fun d => congrArg _ (before5_5 V c t d))
    (by dsimp only [dat5]) (by dsimp only [dat5]) (by dsimp only [dat5]) (by dsimp only [dat5]) (by dsimp only [dat5]) (by dsimp only [dat5])
    (by dsimp only [dat5])
    (sound_int c Set.univ _ _ _ _ _ _ _ _ _ _ _ _ _ _ _ _ _ _ _ _ _)

end Cert.KernelIdeal.Hand

end
-- ==== Proof.KI.B6.lean ====
import proofs.«430205_j2405181685797_1_alg».proof.Proof.KI.Body
import proofs.«430205_j2405181685797_1_alg».proof.Proof.KI.R6
import proofs.«430205_j2405181685797_1_alg».proof.Proof.LibWindow
import proofs.«430205_j2405181685797_1_alg».proof.Proof.LibBody

noncomputable section

namespace Cert.KernelIdeal.Hand

open Cert.KernelIdeal Cert.KernelIdeal.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before6_0 (c : Dev nD) (t : Fin cfg6.N) (d) : (dat6 V c).before 0 t d = sblk6_0 V c t :=
  Cert.Lib.before_of_fetch_uncut _ 0 t (fetch6_0 t) (noclip6_0 t) d _

theorem before6_2 (c : Dev nD) (t : Fin cfg6.N) (d) : (dat6 V c).before 2 t d = sblk6_2 V c t :=
  Cert.Lib.before_of_fetch_uncut _ 2 t (fetch6_2 t) (noclip6_2 t) d _

theorem before6_1 (c : Dev nD) (t : Fin cfg6.N) (d) : (dat6 V c).before 1 t d = sblk6_1 V c t :=
  (dat6 V c).before_in_eq_fetched 1 rfl (fun _ => rfl) (fun _ _ _ => rfl) (fun _ => rfl) t d

theorem before6_3 (c : Dev nD) (t : Fin cfg6.N) (d) : (dat6 V c).before 3 t d = sblk6_3 V c t :=
  (dat6 V c).before_in_eq_fetched 3 rfl (fun _ => rfl) (fun _ _ _ => rfl) (fun _ => rfl) t d

theorem before6_4 (c : Dev nD) (t : Fin cfg6.N) (d) : (dat6 V c).before 4 t d = sblk6_4 V c t :=
  (dat6 V c).before_in_eq_fetched 4 rfl (fun _ => rfl) (fun _ _ _ => rfl) (fun _ => rfl) t d

theorem before6_5 (c : Dev nD) (t : Fin cfg6.N) (d) : (dat6 V c).before 5 t d = sblk6_5 V c t :=
  (dat6 V c).before_in_eq_fetched 5 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  show _ ⊢ wp _ _ _ (bodyAt6 t) _
  unfold bodyAt6
  rw [cc6__internal_kernel_eq_skeleton, show cc6__internal_kernel_skel (F := F) = fun _ => skelI from rfl]
  refine Cert.Lib.framed7 _ _ _ _ _ _ _ _ _ _ _ _ _ _ _ _ _ _ _ _ _ _ _ _ _ _ rfl rfl
    (fun d => congrArg _ (before6_0 V c t d)) (fun d => congrArg _ (before6_1 V c t d)) (fun d => congrArg _ (before6_2 V c t d))
    (fun d => congrArg _ (before6_3 V c t d)) (fun d => congrArg _ (before6_4 V c t d)) (fun d => congrArg _ (before6_5 V c t d))
    (by dsimp only [dat6]) (by dsimp only [dat6]) (by dsimp only [dat6]) (by dsimp only [dat6]) (by dsimp only [dat6]) (by dsimp only [dat6])
    (by dsimp only [dat6])
    (sound_int c Set.univ _ _ _ _ _ _ _ _ _ _ _ _ _ _ _ _ _ _ _ _ _)

end Cert.KernelIdeal.Hand

end
-- ==== Proof.KI.B7.lean ====
import proofs.«430205_j2405181685797_1_alg».proof.Proof.KI.Body
import proofs.«430205_j2405181685797_1_alg».proof.Proof.KI.R7
import proofs.«430205_j2405181685797_1_alg».proof.Proof.LibWindow
import proofs.«430205_j2405181685797_1_alg».proof.Proof.LibBody

noncomputable section

namespace Cert.KernelIdeal.Hand

open Cert.KernelIdeal Cert.KernelIdeal.Gen Idealize.ShloMosaic Idealize.ShloMosaic.TcCoe
open Idealize.SL Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before7_0 (c : Dev nD) (t : Fin cfg7.N) (d) : (dat7 V c).before 0 t d = sblk7_0 V c t :=
  Cert.Lib.before_of_fetch_uncut _ 0 t (fetch7_0 t) (noclip7_0 t) d _

theorem before7_2 (c : Dev nD) (t : Fin cfg7.N) (d) : (dat7 V c).before 2 t d = sblk7_2 V c t :=
  Cert.Lib.before_of_fetch_uncut _ 2 t (fetch7_2 t) (noclip7_2 t) d _

theorem before7_1 (c : Dev nD) (t : Fin cfg7.N) (d) : (dat7 V c).before 1 t d = sblk7_1 V c t :=
  (dat7 V c).before_in_eq_fetched 1 rfl (fun _ => rfl) (fun _ _ _ => rfl) (fun _ => rfl) t d

theorem before7_3 (c : Dev nD) (t : Fin cfg7.N) (d) : (dat7 V c).before 3 t d = sblk7_3 V c t :=
  (dat7 V c).before_in_eq_fetched 3 rfl (fun _ => rfl) (fun _ _ _ => rfl) (fun _ => rfl) t d

theorem before7_4 (c : Dev nD) (t : Fin cfg7.N) (d) : (dat7 V c).before 4 t d = sblk7_4 V c t :=
  (dat7 V c).before_in_eq_fetched 4 rfl (fun _ => rfl) (fun _ _ _ => rfl) (fun _ => rfl) t d

theorem before7_5 (c : Dev nD) (t : Fin cfg7.N) (d) : (dat7 V c).before 5 t d = sblk7_5 V c t :=
  (dat7 V c).before_in_eq_fetched 5 rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  show _ ⊢ wp _ _ _ (bodyAt7 t) _
  unfold bodyAt7
  rw [cc7__internal_kernel_eq_skeleton, show cc7__internal_kernel_skel (F := F) = fun _ => skelI from rfl]
  refine Cert.Lib.framed7 _ _ _ _ _ _ _ _ _ _ _ _ _ _ _ _ _ _ _ _ _ _ _ _ _ _ rfl rfl
    (fun d => congrArg _ (before7_0 V c t d)) (fun d => congrArg _ (before7_1 V c t d)) (fun d => congrArg _ (before7_2 V c t d))
    (fun d => congrArg _ (before7_3 V c t d)) (fun d => congrArg _ (before7_4 V c t d)) (fun d => congrArg _ (before7_5 V c t d))
    (by dsimp only [dat7]) (by dsimp only [dat7]) (by dsimp only [dat7]) (by dsimp only [dat7]) (by dsimp only [dat7]) (by dsimp only [dat7])
    (by dsimp only [dat7])
    (sound_int c Set.univ _ _ _ _ _ _ _ _ _ _ _ _ _ _ _ _ _ _ _ _ _)

end Cert.KernelIdeal.Hand

end
-- ==== Proof.KI.B8.lean ====
import proofs.«430205_j2405181685797_1_alg».proof.Proof.Gen.KernelIdeal.Launch
import proofs.«430205_j2405181685797_1_alg».proof.Proof.Gen.KernelIdeal.Skeleton
import proofs.«430205_j2405181685797_1_alg».proof.Proof.Gen.KernelIdeal.Points
import proofs.«430205_j2405181685797_1_alg».proof.Proof.KI.R8
import proofs.«430205_j2405181685797_1_alg».proof.Proof.LibBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover_int8 (p0 : Vec F S1024x256 .f32) (y : S1024x256.Idx) :
    ∃ pc ∈ ([⟨r8_6, p0⟩] : List (View.Piece (Elt F) S1024x256 .f32)), y ∈ pc.1.set :=
  View.cover_of_tiled [⟨r8_6, p0⟩] S1024x256.size (by rfl) y

theorem sound_int8 (c : Dev nD) (E : Set ℕ) (i : grid8.Coords) (arg1 : Memref sig .tc .vmem S1024x128 .f32) (harg1 : arg1.IsWhole) (arg2 : Memref sig .tc .vmem S2048x256 .f32) (harg2 : arg2.IsWhole) (arg3 : Memref sig .tc .vmem S2048x1 .i32) (harg3 : arg3.IsWhole) (arg4 : Memref sig .tc .vmem S16x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S1024x256 .f32) (harg7 : arg7.IsWhole)
    (x0 : Vec F S1024x128 .f32) (x1 : Vec F S2048x256 .f32) (x2 : Vec F S2048x1 .i32) (x3 : Vec F S16x256 .f32) (x4 : Vec F S128x256 .f32) (x5 : Vec F S1x256 .f32) {β : Type} (g : β → Vec F S1024x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare (g d))
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__internal_kernel_skel i arg1 harg1 arg2 harg2 arg3 harg3 arg4 harg4 arg5 harg5 arg6 harg6 arg7 harg7) K := by
  unfold cc8__internal_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_int8 _)

variable (V : (c : Dev nD) → (b : Ref sig .tc) → Buf (Elt F) ((c : Thread nD τ).loc b))

theorem before8_0 (c : Dev nD) (t : Fin cfg8.N) (d) : (dat8 V c).before 0 t d = sblk8_0 V c t :=
  (dat8 V c).before_fetched 0 t (fetch8_0 t) d

theorem before8_1 (c : Dev nD) (t : Fin cfg8.N) (d) : (dat8 V c).before 1 t d = sblk8_1 V c t :=
  (dat8 V c).before_fetched 1 t (fetch8_1 t) d

theorem before8_2 (c : Dev nD) (t : Fin cfg8.N) (d) : (dat8 V c).before 2 t d = sblk8_2 V c t :=
  (dat8 V c).before_fetched 2 t (fetch8_2 t) d

theorem before8_3 (c : Dev nD) (t : Fin cfg8.N) (d) : (dat8 V c).before 3 t d = sblk8_3 V c t :=
  (dat8 V c).before_fetched 3 t (fetch8_3 t) d

theorem before8_4 (c : Dev nD) (t : Fin cfg8.N) (d) : (dat8 V c).before 4 t d = sblk8_4 V c t :=
  (dat8 V c).before_fetched 4 t (fetch8_4 t) d

theorem before8_5 (c : Dev nD) (t : Fin cfg8.N) (d) : (dat8 V c).before 5 t d = sblk8_5 V c t :=
  (dat8 V c).before_fetched 5 t (fetch8_5 t) d

theorem body_obligation8 (c : Dev nD) : BodyObligation (dat8 (F := F) V c) (defs₀ (F := F)) Variants.none () Set.univ := fun t => by
  rw [bigSep_W8, bigSep_W8]
  show _ ⊢ wp _ _ _ (bodyAt8 t) _
  unfold bodyAt8
  rw [cc8__internal_kernel_eq_skeleton]
  refine Cert.Lib.framed7 _ _ _ _ _ _ _ _ _ _ _ _ _ _ _ _ _ _ _ _ _ _ _ _ _ _ rfl rfl
    (fun d => congrArg _ (before8_0 V c t d)) (fun d => congrArg _ (before8_1 V c t d)) (fun d => congrArg _ (before8_2 V c t d))
    (fun d => congrArg _ (before8_3 V c t d)) (fun d => congrArg _ (before8_4 V c t d)) (fun d => congrArg _ (before8_5 V c t d))
    (by dsimp only [dat8]) (by dsimp only [dat8]) (by dsimp only [dat8]) (by dsimp only [dat8]) (by dsimp only [dat8]) (by dsimp only [dat8])
    (by dsimp only [dat8])
    (sound_int8 c Set.univ _ _ _ _ _ _ _ _ _ _ _ _ _ _ _ _ _ _ _ _ _ _)

end Cert.KernelIdeal.Hand

end
-- ==== Proof.KI.Launch.lean ====
import proofs.«430205_j2405181685797_1_alg».proof.Proof.KI.Fold
import proofs.«430205_j2405181685797_1_alg».proof.Proof.KI.B0
import proofs.«430205_j2405181685797_1_alg».proof.Proof.KI.B1
import proofs.«430205_j2405181685797_1_alg».proof.Proof.KI.B2
import proofs.«430205_j2405181685797_1_alg».proof.Proof.KI.B3
import proofs.«430205_j2405181685797_1_alg».proof.Proof.KI.B4
import proofs.«430205_j2405181685797_1_alg».proof.Proof.KI.B5
import proofs.«430205_j2405181685797_1_alg».proof.Proof.KI.B6
import proofs.«430205_j2405181685797_1_alg».proof.Proof.KI.B7
import proofs.«430205_j2405181685797_1_alg».proof.Proof.KI.B8

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

def Wen : Fin 9 → Dev nD → Valuation τ sig (Elt F)
  | ⟨0, _⟩ => W1 m ρ
  | ⟨1, _⟩ => W2 m ρ
  | ⟨2, _⟩ => W3 m ρ
  | ⟨3, _⟩ => W4 m ρ
  | ⟨4, _⟩ => W5 m ρ
  | ⟨5, _⟩ => W6 m ρ
  | ⟨6, _⟩ => W7 m ρ
  | ⟨7, _⟩ => W8 m ρ
  | ⟨8, _⟩ => W9 m ρ

theorem plain : ∀ (p : Fin 9) (c : Dev nD), PlainDat (pdats m ρ p c) (Wen m ρ p c)
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ =>
    ⟨fun _ => rfl, fun _ => rfl, fun _ => rfl, rfl, fun _ => rfl⟩

def reg : (p : Fin 9) → Pipeline.RegionSeg (pcfgs (F := F)) adm (pdats m ρ) () defs₀ 𝒱₀ L lv p
  | ⟨0, _⟩ => regionOfUnscoped cfgs _ _ _ L lv launch0 _ (body_obligation0 _) (plain m ρ 0)
  | ⟨1, _⟩ => regionOfUnscoped cfgs _ _ _ L lv launch1 _ (body_obligation1 _) (plain m ρ 1)
  | ⟨2, _⟩ => regionOfUnscoped cfgs _ _ _ L lv launch2 _ (body_obligation2 _) (plain m ρ 2)
  | ⟨3, _⟩ => regionOfUnscoped cfgs _ _ _ L lv launch3 _ (body_obligation3 _) (plain m ρ 3)
  | ⟨4, _⟩ => regionOfUnscoped cfgs _ _ _ L lv launch4 _ (body_obligation4 _) (plain m ρ 4)
  | ⟨5, _⟩ => regionOfUnscoped cfgs _ _ _ L lv launch5 _ (body_obligation5 _) (plain m ρ 5)
  | ⟨6, _⟩ => regionOfUnscoped cfgs _ _ _ L lv launch6 _ (body_obligation6 _) (plain m ρ 6)
  | ⟨7, _⟩ => regionOfUnscoped cfgs _ _ _ L lv launch7 _ (body_obligation7 _) (plain m ρ 7)
  | ⟨8, _⟩ => regionOfUnscoped cfgs _ _ _ L lv launch8 _ (body_obligation8 _) (plain m ρ 8)

abbrev segs : List (Pipeline.Seg (pcfgs (F := F)) adm (pdats m ρ) () defs₀ 𝒱₀ L lv) :=
  [ .host (hseg hostOps0 hostOps0_sub hostOps0_fresh (W0 m ρ)),
    .region (reg m ρ 0), .region (reg m ρ 1), .region (reg m ρ 2), .region (reg m ρ 3), .region (reg m ρ 4),
    .region (reg m ρ 5), .region (reg m ρ 6), .region (reg m ρ 7), .region (reg m ρ 8),
    .host (hseg hostOps9 hostOps9_sub hostOps9_fresh (W10 m ρ)) ]

theorem main_run (c : Dev nD) : main (F := F) c = Pipeline.Seg.run (segs m ρ) := (main_chain c).trans (by chain_rfl)

theorem last_post (c : Dev nD) :
    iprop(StableHlo.held (c : Thread nD τ) (Pipeline.ucRefs τ sig) (W11 m ρ c) ∗ R c)
      ⊢ (iprop(Tₙ m ρ c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, last_post m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

theorem run_out : θ_run defs (onTc (τ := τ) (main (F := F))) ⟨m, fun _ => 0, ρ⟩ (fun r => ∀ c : Dev nD,
      r.2.mem ((c.tc : Thread nD τ).loc main_v13) = W11 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v13 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_out m ρ)

end Cert.KernelIdeal.Hand

end
-- ==== Proof.Val.Spec.lean ====
import Idealize.ShloMosaic.PureOps.Ideal
import Idealize.ShloMosaic.Lib.ValueIdx

noncomputable section

namespace Cert.Spec

open Idealize.ShloMosaic Idealize.ShloMosaic.ValueIdx
open scoped BigOperators

def oh (x : BitVec 32) (t : Fin 16) : EReal := if x = BitVec.ofNat 32 t.val then 1 else 0

def lin (f w : Fin 128 → EReal) (b : EReal) : EReal := (∑ k : Fin 128, f k * w k) + b

def emb (x : BitVec 32) (E : Fin 16 → EReal) : EReal := ∑ t : Fin 16, oh x t * E t

def leaf (f w : Fin 128 → EReal) (b : EReal) : EReal := Ideal.tanh (lin f w b)

def node (f w : Fin 128 → EReal) (b c0 e0 c1 e1 : EReal) : EReal := Ideal.tanh (lin f w b + (c0 * e0 + c1 * e1))

theorem emb_eq (x : BitVec 32) (E : Fin 16 → EReal) (t : Fin 16) (h : x = BitVec.ofNat 32 t.val) : emb x E = E t := by
  unfold emb oh
  rw [Finset.sum_eq_single t]
  · rw [if_pos h, one_mul]
  · intro u _ hu
    rw [if_neg, zero_mul]
    intro hx
    apply hu
    have := h.symm.trans hx
    apply Fin.ext
    have h1 := congrArg BitVec.toNat this
    simp only [BitVec.toNat_ofNat] at h1
    have := t.isLt; have := u.isLt
    omega
  · intro ht; exact absurd (Finset.mem_univ t) ht

def leafLevel (n : Nat) (hn : n ≤ 523264)
    (feat : (⟨2, ![523264, 128]⟩ : Shape).Idx → EReal) (wt : (⟨2, ![128, 256]⟩ : Shape).Idx → EReal)
    (b2 : (⟨2, ![1, 256]⟩ : Shape).Idx → EReal) : (⟨2, ![n, 256]⟩ : Shape).Idx → EReal :=
  fun i => leaf (fun k => feat (ix2 ⟨(i 0).val, by have := idx2_lt0 i; omega⟩ k)) (fun k => wt (ix2 k (i 1))) (b2 (ix2 0 (i 1)))

def nodeLevel (n n2 off eoff : Nat) (hn2 : 2 * n = n2) (hoff : off + n ≤ 523264) (heoff : eoff + n2 ≤ 522240)
    (feat : (⟨2, ![523264, 128]⟩ : Shape).Idx → EReal) (prev : (⟨2, ![n2, 256]⟩ : Shape).Idx → EReal)
    (et : (⟨2, ![522240, 1]⟩ : Shape).Idx → BitVec 32) (E : (⟨2, ![16, 256]⟩ : Shape).Idx → EReal)
    (wt : (⟨2, ![128, 256]⟩ : Shape).Idx → EReal) (b2 : (⟨2, ![1, 256]⟩ : Shape).Idx → EReal) :
    (⟨2, ![n, 256]⟩ : Shape).Idx → EReal :=
  fun i =>
    have hi : (i 0).val < n := idx2_lt0 i
    node (fun k => feat (ix2 ⟨off + (i 0).val, by omega⟩ k)) (fun k => wt (ix2 k (i 1))) (b2 (ix2 0 (i 1)))
      (prev (ix2 ⟨2 * (i 0).val, by omega⟩ (i 1)))
      (emb (et (ix2 ⟨eoff + 2 * (i 0).val, by omega⟩ 0)) (fun t => E (ix2 t (i 1))))
      (prev (ix2 ⟨2 * (i 0).val + 1, by omega⟩ (i 1)))
      (emb (et (ix2 ⟨eoff + 2 * (i 0).val + 1, by omega⟩ 0)) (fun t => E (ix2 t (i 1))))

def wtOf (W : (⟨2, ![256, 256]⟩ : Shape).Idx → EReal) : (⟨2, ![128, 256]⟩ : Shape).Idx → EReal :=
  fun i => W (ix2 (i 1) ⟨(i 0).val, by have := idx2_lt0 i; omega⟩)

def b2Of (b : (⟨1, ![256]⟩ : Shape).Idx → EReal) : (⟨2, ![1, 256]⟩ : Shape).Idx → EReal :=
  fun i => b (ix1 (i 1))

def et2Of (et : (⟨1, ![522240]⟩ : Shape).Idx → BitVec 32) : (⟨2, ![522240, 1]⟩ : Shape).Idx → BitVec 32 :=
  fun i => et (ix1 (i 0))

def InRange (et : (⟨1, ![522240]⟩ : Shape).Idx → BitVec 32) : Prop :=
  ∀ i : Fin 522240, ∃ t : Fin 16, et (ix1 i) = BitVec.ofNat 32 t.val

end Cert.Spec
end
-- ==== Proof.LibOneAxisContraction.lean ====
import Idealize.ShloMosaic.Lib.ValueIdx
import Idealize.ShloMosaic.PureOps.Ideal.Laws

noncomputable section

namespace Cert.Dots

open Idealize.ShloMosaic Idealize.ShloMosaic.ValueIdx
open scoped BigOperators

theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.Val.PayLib.lean ====
import proofs.«430205_j2405181685797_1_alg».proof.Proof.Gen.KernelIdeal.Skeleton
import proofs.«430205_j2405181685797_1_alg».proof.Proof.Val.Spec
import proofs.«430205_j2405181685797_1_alg».proof.Proof.LibOneAxisContraction
import Idealize.ShloMosaic.Lib.ValueIdx
import Idealize.ShloMosaic.Lib.Pipeline.Value
import Idealize.ShloMosaic.Lib.ValueLayout
import Idealize.ShloMosaic.PureOps.Ideal.Laws

noncomputable section

namespace Cert.Val

open Cert.KernelIdeal Cert.KernelIdeal.Gen Idealize.ShloMosaic Idealize.ShloMosaic.ValueIdx
open scoped BigOperators

namespace Rows

theorem sitofp_eq_word (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · rw [if_pos h]
    have hb : IntOp.cmpi .eq x y = 1#1 := by
      unfold IntOp.cmpi
      simp [h]
    rw [hb]
    have : ((1#1 : BitVec 1).setWidth 32).toInt = 1 := by decide
    rw [this]
    simp
  · rw [if_neg h]
    have hb : IntOp.cmpi .eq x y = 0#1 := by
      unfold IntOp.cmpi
      have hf : (x == y) = false := beq_eq_false_iff_ne.mpr h
      rw [hf]
      rfl
    rw [hb]
    have : ((0#1 : BitVec 1).setWidth 32).toInt = 0 := by decide
    rw [this]
    simp

/-- The entry is 1 when row `r`'s word names table row `t`, and 0 when not. -/
theorem onehot_apply {R : Nat} (et : IVec ⟨2, ![R, 1]⟩ 32) (h1 : (⟨2, ![R, 1]⟩ : Shape).ShapeCasts ⟨2, ![R, 1]⟩)
    (h2 : (⟨2, ![R, 1]⟩ : Shape).Broadcasts ⟨2, ![R, 16]⟩) (h3 : (⟨2, ![R, 16]⟩ : Shape).Iotas .tc 32 [1]) (r : Fin R) (t : Fin 16) :
    (sitofp .f32 (extui 32 (cmpi .eq (broadcastTo ⟨2, ![R, 16]⟩ (shapeCast ⟨2, ![R, 1]⟩ et h1) h2)
        (iota .tc ⟨2, ![R, 16]⟩ 32 [1] h3)) natLt_1_32) : FVec Ideal ⟨2, ![R, 16]⟩ .f32) (ix2 r t)
      = Cert.Spec.oh (et (ix2 r 0)) t := by
  rw [sitofp_apply, extui_apply]
  show FloatOps.sitofp (F := Ideal) .f32 ((IntOp.cmpi .eq
      (broadcastTo ⟨2, ![R, 16]⟩ (shapeCast ⟨2, ![R, 1]⟩ et h1) h2 (ix2 r t))
      (iota .tc ⟨2, ![R, 16]⟩ 32 [1] h3 (ix2 r t))).setWidth 32) = _
  rw [shapeCast_self, iota_single_apply,
    broadcastTo_apply et h2 (ix2 r t) (ix2 r (0 : Fin 1)) (fun a => by
      match a with
      | ⟨0, _⟩ => show r.val = if R = 1 then 0 else r.val; have := r.isLt; split <;> omega
      | ⟨1, _⟩ => rfl),
    sitofp_eq_word]
  rfl

/-- Into zeros, an entry of a product is the sum over the middle index. -/
theorem mm_apply (M K N : Nat) {φ₁ φ₂ : FTy} (a : FVec Ideal ⟨2, ![M, K]⟩ φ₁) (b : FVec Ideal ⟨2, ![K, N]⟩ φ₂) (r : Fin M) (q : Fin N) :
    matmul (DotDims.plain M K N) none a b (constant (F := Ideal) ⟨2, ![M, N]⟩ .f32 0x00000000#32) (ix2 r q)
      = ∑ t : Fin K, a (ix2 r t) * b (ix2 t q) := by
  refine Cert.Dots.matmul_zero_apply_of (DotDims.plain M K N) K rfl rfl none a b (ix2 r q)
    (fun t => ix2 r t) (fun t => ix2 t q) (fun t => ?_) (fun t => ?_)
  · exact Shape.idx_ext₂ rfl (contrEquiv1_symm_val (DotDims.plain M K N) K rfl rfl t)
  · exact Shape.idx_ext₂ (contrEquiv1_symm_val (DotDims.plain M K N) K rfl rfl t) rfl

/-- Entry `(p, s)` of the `[P, 2, 256]` view is row `2 p + s`. -/
theorem pairs_apply {α : Type} {P R : Nat} (hR : 2 * P = R) (x : (⟨2, ![R, 256]⟩ : Shape).Idx → α)
    (h : (⟨2, ![R, 256]⟩ : Shape).ShapeCasts ⟨3, ![P, 2, 256]⟩) (p : Fin P) (s : Fin 2) (q : Fin 256) :
    shapeCast ⟨3, ![P, 2, 256]⟩ x h (ix3 p s q)
      = x (ix2 ⟨2 * p.val + s.val, by have := p.isLt; have := s.isLt; omega⟩ q) := by
  refine shapeCast_apply x h (ix3 p s q) _ ?_
  rw [Shape.rowMajor_val_two, Shape.rowMajor_val_three]
  show (2 * p.val + s.val) * 256 + q.val = (p.val * 2 + s.val) * 256 + q.val
  omega

/-- A sum from zero over an axis of length two is the sum of the two entries. -/
theorem sumPair_apply {P : Nat} (src : FVec Ideal ⟨3, ![P, 2, 256]⟩ .f32) (h : (⟨3, ![P, 2, 256]⟩ : Shape).Reduces [1] ⟨2, ![P, 256]⟩)
    (hφ : FKind.Formats .f32) (hacc : (0x00000000#32 : BitVec 32) = 0x00000000#32) (p : Fin P) (q : Fin 256) :
    multiReduction (F := Ideal) .add [1] ⟨2, ![P, 256]⟩ src 0x00000000#32 h hφ hacc (ix2 p q)
      = src (ix3 p 0 q) + src (ix3 p 1 q) := by
  refine (Ideal.multiReduction_add_single src 0x00000000#32 h hφ hacc (ix2 p q)).trans ?_
  show ∑ k : Fin 2, src (h.lift (ix2 p q) k) = _
  rw [Fin.sum_univ_two]
  exact congrArg₂ (· + ·)
    (congrArg src (funext fun a => Fin.ext (by match a with | ⟨0, _⟩ => rfl | ⟨1, _⟩ => rfl | ⟨2, _⟩ => rfl)))
    (congrArg src (funext fun a => Fin.ext (by match a with | ⟨0, _⟩ => rfl | ⟨1, _⟩ => rfl | ⟨2, _⟩ => rfl)))

/-- Summing the one-hot row against a column of the table is `Cert.Spec.emb`. -/
theorem emb_apply {R : Nat} (et : IVec ⟨2, ![R, 1]⟩ 32) (E : FVec Ideal ⟨2, ![16, 256]⟩ .f32) (h1 : (⟨2, ![R, 1]⟩ : Shape).ShapeCasts ⟨2, ![R, 1]⟩)
    (h2 : (⟨2, ![R, 1]⟩ : Shape).Broadcasts ⟨2, ![R, 16]⟩) (h3 : (⟨2, ![R, 16]⟩ : Shape).Iotas .tc 32 [1]) (r : Fin R) (q : Fin 256) :
    matmul (DotDims.plain R 16 256) none
        (sitofp .f32 (extui 32 (cmpi .eq (broadcastTo ⟨2, ![R, 16]⟩ (shapeCast ⟨2, ![R, 1]⟩ et h1) h2)
          (iota .tc ⟨2, ![R, 16]⟩ 32 [1] h3)) natLt_1_32) : FVec Ideal ⟨2, ![R, 16]⟩ .f32)
        E (constant (F := Ideal) ⟨2, ![R, 256]⟩ .f32 0x00000000#32) (ix2 r q)
      = Cert.Spec.emb (et (ix2 r 0)) (fun t => E (ix2 t q)) := by
  refine (mm_apply R 16 256 _ E r q).trans ?_
  unfold Cert.Spec.emb
  exact Finset.sum_congr rfl fun t _ => congrArg (· * E (ix2 t q)) (onehot_apply et h1 h2 h3 r t)

/-- A row of features against a column of weights, plus the bias, is `Cert.Spec.lin`. -/
theorem lin_apply {P : Nat} (f : FVec Ideal ⟨2, ![P, 128]⟩ .f32) (w : FVec Ideal ⟨2, ![128, 256]⟩ .f32) (b : FVec Ideal ⟨2, ![1, 256]⟩ .f32)
    (h1 : (⟨2, ![128, 256]⟩ : Shape).ShapeCasts ⟨2, ![128, 256]⟩) (h2 : (⟨2, ![1, 256]⟩ : Shape).ShapeCasts ⟨2, ![1, 256]⟩)
    (h3 : (⟨2, ![1, 256]⟩ : Shape).Broadcasts ⟨2, ![P, 256]⟩) (p : Fin P) (q : Fin 256) :
    addf (matmul (DotDims.plain P 128 256) none (truncf .bf16 f bitsLt_bf16_f32)
          (truncf .bf16 (shapeCast ⟨2, ![128, 256]⟩ w h1) bitsLt_bf16_f32) (constant (F := Ideal) ⟨2, ![P, 256]⟩ .f32 0x00000000#32))
        (broadcastTo ⟨2, ![P, 256]⟩ (shapeCast ⟨2, ![1, 256]⟩ b h2) h3) (ix2 p q)
      = Cert.Spec.lin (fun k => f (ix2 p k)) (fun k => w (ix2 k q)) (b (ix2 0 q)) := by
  rw [addf_apply, mm_apply, broadcastTo_1b_ab_apply, shapeCast_self, shapeCast_self]
  rfl

/-- Over the pair of children: each child's value times its edge's term. -/
theorem kids_apply {P R : Nat} (hR : 2 * P = R) (c e : FVec Ideal ⟨2, ![R, 256]⟩ .f32)
    (h1 : (⟨2, ![R, 256]⟩ : Shape).ShapeCasts ⟨2, ![R, 256]⟩) (h2 : (⟨2, ![R, 256]⟩ : Shape).ShapeCasts ⟨3, ![P, 2, 256]⟩)
    (h : (⟨3, ![P, 2, 256]⟩ : Shape).Reduces [1] ⟨2, ![P, 256]⟩)
    (hφ : FKind.Formats .f32) (hacc : (0x00000000#32 : BitVec 32) = 0x00000000#32) (p : Fin P) (q : Fin 256) :
    multiReduction (F := Ideal) .add [1] ⟨2, ![P, 256]⟩
        (mulf (shapeCast ⟨3, ![P, 2, 256]⟩ (shapeCast ⟨2, ![R, 256]⟩ c h1) h2) (shapeCast ⟨3, ![P, 2, 256]⟩ e h2)) 0x00000000#32 h hφ hacc (ix2 p q)
      = c (ix2 ⟨2 * p.val, by have := p.isLt; omega⟩ q) * e (ix2 ⟨2 * p.val, by have := p.isLt; omega⟩ q)
        + c (ix2 ⟨2 * p.val + 1, by have := p.isLt; omega⟩ q) * e (ix2 ⟨2 * p.val + 1, by have := p.isLt; omega⟩ q) := by
  rw [sumPair_apply, mulf_apply, mulf_apply, pairs_apply hR, pairs_apply hR, pairs_apply hR, pairs_apply hR, shapeCast_self]
  rfl

end Rows

/-- The stored entry is `Cert.Spec.node` of the blocks' entries. -/
theorem pay1_apply (v0 : Vec Ideal S4096x1 .i32) (v7 : Vec Ideal S16x256 .f32) (v9 : Vec Ideal S4096x256 .f32) (v15 : Vec Ideal S2048x128 .f32) (v17 : Vec Ideal S128x256 .f32) (v21 : Vec Ideal S1x256 .f32) (p : Fin 2048) (q : Fin 256) :
    k1_pay1 (F := Ideal) v0 v7 v9 v15 v17 v21 (ix2 p q)
      = Cert.Spec.node (fun k => v15 (ix2 p k)) (fun k => v17 (ix2 k q)) (v21 (ix2 0 q))
          (v9 (ix2 ⟨2 * p.val, by have := p.isLt; omega⟩ q)) (Cert.Spec.emb (v0 (ix2 ⟨2 * p.val, by have := p.isLt; omega⟩ 0)) (fun t => v7 (ix2 t q)))
          (v9 (ix2 ⟨2 * p.val + 1, by have := p.isLt; omega⟩ q)) (Cert.Spec.emb (v0 (ix2 ⟨2 * p.val + 1, by have := p.isLt; omega⟩ 0)) (fun t => v7 (ix2 t q))) := by
  unfold k1_pay1 Cert.Spec.node
  refine congrArg Ideal.tanh ?_
  refine (addf_apply _ _ _).trans ?_
  refine congrArg₂ (· + ·) (Rows.lin_apply v15 v17 v21 _ _ _ p q) ((Rows.kids_apply rfl v9 _ _ _ _ _ _ p q).trans ?_)
  exact congrArg₂ (· + ·) (congrArg (_ * ·) (Rows.emb_apply v0 v7 _ _ _ _ q)) (congrArg (_ * ·) (Rows.emb_apply v0 v7 _ _ _ _ q))

/-- The stored entry is `Cert.Spec.node` of the blocks' entries. -/
theorem pay8_apply (v0 : Vec Ideal S2048x1 .i32) (v7 : Vec Ideal S16x256 .f32) (v9 : Vec Ideal S2048x256 .f32) (v15 : Vec Ideal S1024x128 .f32) (v17 : Vec Ideal S128x256 .f32) (v21 : Vec Ideal S1x256 .f32) (p : Fin 1024) (q : Fin 256) :
    k8_pay1 (F := Ideal) v0 v7 v9 v15 v17 v21 (ix2 p q)
      = Cert.Spec.node (fun k => v15 (ix2 p k)) (fun k => v17 (ix2 k q)) (v21 (ix2 0 q))
          (v9 (ix2 ⟨2 * p.val, by have := p.isLt; omega⟩ q)) (Cert.Spec.emb (v0 (ix2 ⟨2 * p.val, by have := p.isLt; omega⟩ 0)) (fun t => v7 (ix2 t q)))
          (v9 (ix2 ⟨2 * p.val + 1, by have := p.isLt; omega⟩ q)) (Cert.Spec.emb (v0 (ix2 ⟨2 * p.val + 1, by have := p.isLt; omega⟩ 0)) (fun t => v7 (ix2 t q))) := by
  unfold k8_pay1 Cert.Spec.node
  refine congrArg Ideal.tanh ?_
  refine (addf_apply _ _ _).trans ?_
  refine congrArg₂ (· + ·) (Rows.lin_apply v15 v17 v21 _ _ _ p q) ((Rows.kids_apply rfl v9 _ _ _ _ _ _ p q).trans ?_)
  exact congrArg₂ (· + ·) (congrArg (_ * ·) (Rows.emb_apply v0 v7 _ _ _ _ q)) (congrArg (_ * ·) (Rows.emb_apply v0 v7 _ _ _ _ q))

/-- The stored entry is `Cert.Spec.leaf` of the blocks' entries. -/
theorem pay0_apply (x0 : Vec Ideal S8192x128 .f32) (x1 : Vec Ideal S128x256 .f32) (x2 : Vec Ideal S1x256 .f32) (p : Fin 8192) (q : Fin 256) :
    k0_pay1 (F := Ideal) x0 x1 x2 (ix2 p q) = Cert.Spec.leaf (fun k => x0 (ix2 p k)) (fun k => x1 (ix2 k q)) (x2 (ix2 0 q)) := by
  unfold k0_pay1 Cert.Spec.leaf
  exact congrArg Ideal.tanh (Rows.lin_apply x0 x1 x2 _ _ _ p q)

end Cert.Val

end
-- ==== Proof.Val.ArrLib.lean ====
import proofs.«430205_j2405181685797_1_alg».proof.Proof.Gen.KernelIdeal.Points
import proofs.«430205_j2405181685797_1_alg».proof.Proof.KI.R1
import proofs.«430205_j2405181685797_1_alg».proof.Proof.Val.PayLib
import proofs.«430205_j2405181685797_1_alg».proof.Proof.Val.Spec
import proofs.«430205_j2405181685797_1_alg».proof.Proof.LibWindow
import Idealize.ShloMosaic.Lib.Pipeline.Value
import Idealize.ShloMosaic.Lib.ValueIdx

noncomputable section

namespace Cert.Val

open Cert.KernelIdeal Cert.KernelIdeal.Gen Cert.KernelIdeal.Hand
open Idealize.ShloMosaic Idealize.ShloMosaic.ValueIdx
open Idealize.ShloMosaic.Pipeline (Window Grid)

theorem hz : (![0, 0] : Fin 2 → Nat) = fun _ => 0 := funext fun a => by fin_cases a <;> rfl

/-- An index of a block as an index of the same block uncut. -/
def ucast {sig : RefSig} {G : Grid} (w : Window sig G) {i : G.Coords} (h : ∀ a, w.clip i a = none) (j : w.block.Idx) :
    (w.xblock i).Idx :=
  fun a => ⟨(j a).val, (w.moved_iff i j).mp (Cert.Lib.moved_of_uncut w h j) a⟩

/-- An entry of an uncut block sits at block index × block size + its coordinate. -/
theorem emb_ucast_val {sig : RefSig} {G : Grid} (w : Window sig G) (t : Fin G.N) (h : ∀ a, w.clip (G.coords t) a = none)
    (j : w.block.Idx) (a : Fin w.shape.rank) : ((w.rect t).emb (ucast w h j) a : Nat) = w.index t a * w.size a + (j a).val :=
  w.rect_emb_val t _ a

/-- An index at block `(c, 0)` of blocks of `b0` rows, at `(x, y)` in the block, is `(c · b0 + x, y)`. -/
theorem placed {n0 n1 b0 b1 I0 I1 c x y : Nat} {j : (⟨2, ![n0, n1]⟩ : Shape).Idx}
    (h0 : (j 0).val = I0 * b0 + x) (h1 : (j 1).val = I1 * b1 + y) (e0 : I0 = c) (e1 : I1 = 0)
    (i0 : Fin n0) (i1 : Fin n1) (g0 : i0.val = c * b0 + x) (g1 : i1.val = y) : j = ix2 i0 i1 :=
  Shape.idx_ext₂ (by subst e0; show (j 0).val = i0.val; omega) (by subst e1; show (j 1).val = i1.val; omega)

/-- Row `r` lies in the block of `B` rows numbered `r / B`, and every column in the one column block. -/
theorem mem_rows {n m B : Nat} (i : (⟨2, ![n, m]⟩ : Shape).Idx) {off size : Fin 2 → Nat} {I0 I1 : Nat}
    (e0 : I0 = (i 0).val / B) (e1 : I1 = 0) (hB : 0 < B)
    (ho0 : off 0 = I0 * B) (ho1 : off 1 = I1 * m) (hs0 : size 0 = B) (hs1 : size 1 = m) :
    ∀ a, off a ≤ (i a).val ∧ (i a).val < off a + size a :=
  Fin.forall_fin_two.mpr ⟨by rw [ho0, hs0, e0]; exact ⟨Nat.div_mul_le_self _ _, Nat.lt_div_mul_add hB⟩,
    by rw [ho1, hs1, e1]; have := idx2_lt1 i; omega⟩

theorem node_congr {f f' w w' : Fin 128 → EReal} {b b' c0 c0' e0 e0' c1 c1' e1 e1' : EReal}
    (hf : f = f') (hw : w = w') (hb : b = b') (hc0 : c0 = c0') (he0 : e0 = e0') (hc1 : c1 = c1') (he1 : e1 = e1') :
    Cert.Spec.node f w b c0 e0 c1 e1 = Cert.Spec.node f' w' b' c0' e0' c1' e1' := by
  subst hf hw hb hc0 he0 hc1 he1; rfl

/-- If each input block is its array read at block index × block size + coordinate, the node formula of the blocks at row `p` is the level's at node `T · B + p`. -/
theorem node_blocks {n n2 off eoff B B2 T cf ce : Nat} (hn2 : 2 * n = n2) (hoff : off + n ≤ 523264) (heoff : eoff + n2 ≤ 522240)
    (hB : 2 * B = B2)
    (feat : (⟨2, ![523264, 128]⟩ : Shape).Idx → EReal) (prev : (⟨2, ![n2, 256]⟩ : Shape).Idx → EReal)
    (et : (⟨2, ![522240, 1]⟩ : Shape).Idx → BitVec 32) (E : (⟨2, ![16, 256]⟩ : Shape).Idx → EReal)
    (wt : (⟨2, ![128, 256]⟩ : Shape).Idx → EReal) (b2 : (⟨2, ![1, 256]⟩ : Shape).Idx → EReal)
    {x0 : (⟨2, ![B, 128]⟩ : Shape).Idx → EReal} {x1 : (⟨2, ![B2, 256]⟩ : Shape).Idx → EReal}
    {x2 : (⟨2, ![B2, 1]⟩ : Shape).Idx → BitVec 32} {x3 : (⟨2, ![16, 256]⟩ : Shape).Idx → EReal}
    {x4 : (⟨2, ![128, 256]⟩ : Shape).Idx → EReal} {x5 : (⟨2, ![1, 256]⟩ : Shape).Idx → EReal}
    {I6 I0 I1 I2 I3 I4 I5 : Fin 2 → Nat}
    (hI : I6 0 = T ∧ I6 1 = 0 ∧ I0 0 = cf + T ∧ I0 1 = 0 ∧ I1 0 = T ∧ I1 1 = 0 ∧ I2 0 = ce + T ∧ I2 1 = 0
      ∧ I3 0 = 0 ∧ I3 1 = 0 ∧ I4 0 = 0 ∧ I4 1 = 0 ∧ I5 0 = 0 ∧ I5 1 = 0)
    (hcf : cf * B = off) (hce : ce * B2 = eoff)
    {f0 : (⟨2, ![B, 128]⟩ : Shape).Idx → (⟨2, ![523264, 128]⟩ : Shape).Idx}
    {f1 : (⟨2, ![B2, 256]⟩ : Shape).Idx → (⟨2, ![n2, 256]⟩ : Shape).Idx}
    {f2 : (⟨2, ![B2, 1]⟩ : Shape).Idx → (⟨2, ![522240, 1]⟩ : Shape).Idx}
    {f3 : (⟨2, ![16, 256]⟩ : Shape).Idx → (⟨2, ![16, 256]⟩ : Shape).Idx}
    {f4 : (⟨2, ![128, 256]⟩ : Shape).Idx → (⟨2, ![128, 256]⟩ : Shape).Idx}
    {f5 : (⟨2, ![1, 256]⟩ : Shape).Idx → (⟨2, ![1, 256]⟩ : Shape).Idx}
    {f6 : (⟨2, ![B, 256]⟩ : Shape).Idx → (⟨2, ![n, 256]⟩ : Shape).Idx}
    (hf6 : ∀ j a, (f6 j a).val = I6 a * ![B, 256] a + (j a).val)
    (hf0 : ∀ j a, (f0 j a).val = I0 a * ![B, 128] a + (j a).val)
    (hf1 : ∀ j a, (f1 j a).val = I1 a * ![B2, 256] a + (j a).val)
    (hf2 : ∀ j a, (f2 j a).val = I2 a * ![B2, 1] a + (j a).val)
    (hf3 : ∀ j a, (f3 j a).val = I3 a * ![16, 256] a + (j a).val)
    (hf4 : ∀ j a, (f4 j a).val = I4 a * ![128, 256] a + (j a).val)
    (hf5 : ∀ j a, (f5 j a).val = I5 a * ![1, 256] a + (j a).val)
    (hx0 : ∀ j, x0 j = feat (f0 j)) (hx1 : ∀ j, x1 j = prev (f1 j)) (hx2 : ∀ j, x2 j = et (f2 j))
    (hx3 : ∀ j, x3 j = E (f3 j)) (hx4 : ∀ j, x4 j = wt (f4 j)) (hx5 : ∀ j, x5 j = b2 (f5 j))
    (p : Fin B) (q : Fin 256) :
    Cert.Spec.node (fun k => x0 (ix2 p k)) (fun k => x4 (ix2 k q)) (x5 (ix2 0 q))
        (x1 (ix2 ⟨2 * p.val, by have := p.isLt; omega⟩ q))
        (Cert.Spec.emb (x2 (ix2 ⟨2 * p.val, by have := p.isLt; omega⟩ 0)) (fun t => x3 (ix2 t q)))
        (x1 (ix2 ⟨2 * p.val + 1, by have := p.isLt; omega⟩ q))
        (Cert.Spec.emb (x2 (ix2 ⟨2 * p.val + 1, by have := p.isLt; omega⟩ 0)) (fun t => x3 (ix2 t q)))
      = Cert.Spec.nodeLevel n n2 off eoff hn2 hoff heoff feat prev et E wt b2 (f6 (ix2 p q)) := by
  obtain ⟨h60, h61, h00, h01, h10, h11, h20, h21, h30, h31, h40, h41, h50, h51⟩ := hI
  subst hcf hce hB
  have r0 : (f6 (ix2 p q) 0).val = T * B + p.val := by rw [← h60]; exact hf6 (ix2 p q) 0
  have q1 : f6 (ix2 p q) 1 = q := Fin.ext (by rw [hf6 (ix2 p q) 1, h61]; show 0 * 256 + q.val = q.val; omega)
  unfold Cert.Spec.nodeLevel
  refine node_congr ?_ ?_ ?_ ?_ ?_ ?_ ?_
  · funext k; rw [hx0]
    exact congrArg feat (placed (b0 := B) (x := p.val) (y := k.val) (hf0 (ix2 p k) 0) (hf0 (ix2 p k) 1) h00 h01 _ _
      (by show _ + (f6 (ix2 p q) 0).val = _; rw [r0, Nat.add_mul]; omega) rfl)
  · funext k; rw [hx4, q1]
    exact congrArg wt (placed (b0 := 128) (x := k.val) (y := q.val) (hf4 (ix2 k q) 0) (hf4 (ix2 k q) 1) h40 h41 _ _ (by show k.val = _; omega) rfl)
  · rw [hx5, q1]
    exact congrArg b2 (placed (b0 := 1) (x := 0) (y := q.val) (hf5 (ix2 0 q) 0) (hf5 (ix2 0 q) 1) h50 h51 _ _ (by show 0 = _; omega) rfl)
  · rw [hx1, q1]
    exact congrArg prev (placed (b0 := 2 * B) (x := 2 * p.val) (y := q.val) (hf1 (ix2 _ q) 0) (hf1 (ix2 _ q) 1) h10 h11 _ _
      (by show 2 * (f6 (ix2 p q) 0).val = _; rw [r0, Nat.mul_left_comm T]; omega) rfl)
  · refine congr (congrArg Cert.Spec.emb ?_) (funext fun u => ?_)
    · rw [hx2]
      exact congrArg et (placed (b0 := 2 * B) (x := 2 * p.val) (y := 0) (hf2 (ix2 _ 0) 0) (hf2 (ix2 _ 0) 1) h20 h21 _ _
        (by show _ + 2 * (f6 (ix2 p q) 0).val = _; rw [r0, Nat.add_mul, Nat.mul_left_comm T]; omega) rfl)
    · rw [hx3, q1]
      exact congrArg E (placed (b0 := 16) (x := u.val) (y := q.val) (hf3 (ix2 u q) 0) (hf3 (ix2 u q) 1) h30 h31 _ _ (by show u.val = _; omega) rfl)
  · rw [hx1, q1]
    exact congrArg prev (placed (b0 := 2 * B) (x := 2 * p.val + 1) (y := q.val) (hf1 (ix2 _ q) 0) (hf1 (ix2 _ q) 1) h10 h11 _ _
      (by show 2 * (f6 (ix2 p q) 0).val + 1 = _; rw [r0, Nat.mul_left_comm T]; omega) rfl)
  · refine congr (congrArg Cert.Spec.emb ?_) (funext fun u => ?_)
    · rw [hx2]
      exact congrArg et (placed (b0 := 2 * B) (x := 2 * p.val + 1) (y := 0) (hf2 (ix2 _ 0) 0) (hf2 (ix2 _ 0) 1) h20 h21 _ _
        (by show _ + 2 * (f6 (ix2 p q) 0).val + 1 = _; rw [r0, Nat.add_mul, Nat.mul_left_comm T]; omega) rfl)
    · rw [hx3, q1]
      exact congrArg E (placed (b0 := 16) (x := u.val) (y := q.val) (hf3 (ix2 u q) 0) (hf3 (ix2 u q) 1) h30 h31 _ _ (by show u.val = _; omega) rfl)

/-- The leaf level's form of `node_blocks`: no children, every block at `T` or whole. -/
theorem leaf_blocks {n B T : Nat} (hn : n ≤ 523264)
    (feat : (⟨2, ![523264, 128]⟩ : Shape).Idx → EReal) (wt : (⟨2, ![128, 256]⟩ : Shape).Idx → EReal)
    (b2 : (⟨2, ![1, 256]⟩ : Shape).Idx → EReal)
    {x0 : (⟨2, ![B, 128]⟩ : Shape).Idx → EReal} {x1 : (⟨2, ![128, 256]⟩ : Shape).Idx → EReal}
    {x2 : (⟨2, ![1, 256]⟩ : Shape).Idx → EReal} {I3 I0 I1 I2 : Fin 2 → Nat}
    (hI : I3 0 = T ∧ I3 1 = 0 ∧ I0 0 = T ∧ I0 1 = 0 ∧ I1 0 = 0 ∧ I1 1 = 0 ∧ I2 0 = 0 ∧ I2 1 = 0)
    {f0 : (⟨2, ![B, 128]⟩ : Shape).Idx → (⟨2, ![523264, 128]⟩ : Shape).Idx}
    {f1 : (⟨2, ![128, 256]⟩ : Shape).Idx → (⟨2, ![128, 256]⟩ : Shape).Idx}
    {f2 : (⟨2, ![1, 256]⟩ : Shape).Idx → (⟨2, ![1, 256]⟩ : Shape).Idx}
    {f3 : (⟨2, ![B, 256]⟩ : Shape).Idx → (⟨2, ![n, 256]⟩ : Shape).Idx}
    (hf3 : ∀ j a, (f3 j a).val = I3 a * ![B, 256] a + (j a).val)
    (hf0 : ∀ j a, (f0 j a).val = I0 a * ![B, 128] a + (j a).val)
    (hf1 : ∀ j a, (f1 j a).val = I1 a * ![128, 256] a + (j a).val)
    (hf2 : ∀ j a, (f2 j a).val = I2 a * ![1, 256] a + (j a).val)
    (hx0 : ∀ j, x0 j = feat (f0 j)) (hx1 : ∀ j, x1 j = wt (f1 j)) (hx2 : ∀ j, x2 j = b2 (f2 j))
    (p : Fin B) (q : Fin 256) :
    Cert.Spec.leaf (fun k => x0 (ix2 p k)) (fun k => x1 (ix2 k q)) (x2 (ix2 0 q))
      = Cert.Spec.leafLevel n hn feat wt b2 (f3 (ix2 p q)) := by
  obtain ⟨h30, h31, h00, h01, h10, h11, h20, h21⟩ := hI
  have r0 : (f3 (ix2 p q) 0).val = T * B + p.val := by rw [← h30]; exact hf3 (ix2 p q) 0
  have q1 : f3 (ix2 p q) 1 = q := Fin.ext (by rw [hf3 (ix2 p q) 1, h31]; show 0 * 256 + q.val = q.val; omega)
  unfold Cert.Spec.leafLevel
  refine congr (congr (congrArg Cert.Spec.leaf (funext fun k => ?_)) (funext fun k => ?_)) ?_
  · rw [hx0]
    exact congrArg feat (placed (b0 := B) (x := p.val) (y := k.val) (hf0 (ix2 p k) 0) (hf0 (ix2 p k) 1) h00 h01 _ _
      (by show (f3 (ix2 p q) 0).val = _; rw [r0]) rfl)
  · rw [hx1, q1]
    exact congrArg wt (placed (b0 := 128) (x := k.val) (y := q.val) (hf1 (ix2 k q) 0) (hf1 (ix2 k q) 1) h10 h11 _ _ (by show k.val = _; omega) rfl)
  · rw [hx2, q1]
    exact congrArg b2 (placed (b0 := 1) (x := 0) (y := q.val) (hf2 (ix2 0 q) 0) (hf2 (ix2 0 q) 1) h20 h21 _ _ (by show 0 = _; omega) rfl)

/-- The output block of levels 1 to 7 is the node formula of the input blocks. -/
theorem out_node (x0 : Vec Ideal S2048x128 .f32) (x1 : Vec Ideal S4096x256 .f32) (x2 : Vec Ideal S4096x1 .i32)
    (x3 : Vec Ideal S16x256 .f32) (x4 : Vec Ideal S128x256 .f32) (x5 : Vec Ideal S1x256 .f32) (p : Fin 2048) (q : Fin 256) :
    out1_6 x0 x1 x2 x3 x4 x5 (ix2 p q)
      = Cert.Spec.node (fun k => x0 (ix2 p k)) (fun k => x4 (ix2 k q)) (x5 (ix2 0 q))
          (x1 (ix2 ⟨2 * p.val, by have := p.isLt; omega⟩ q))
          (Cert.Spec.emb (x2 (ix2 ⟨2 * p.val, by have := p.isLt; omega⟩ 0)) (fun t => x3 (ix2 t q)))
          (x1 (ix2 ⟨2 * p.val + 1, by have := p.isLt; omega⟩ q))
          (Cert.Spec.emb (x2 (ix2 ⟨2 * p.val + 1, by have := p.isLt; omega⟩ 0)) (fun t => x3 (ix2 t q))) := by
  unfold out1_6
  rw [View.canon_unit_zero hz]
  simp only [View.ld_unit_zero (S := S2048x128) hz, View.ld_unit_zero (S := S4096x256) hz, View.ld_unit_zero (S := S4096x1) hz,
    View.ld_unit_zero (S := S16x256) hz, View.ld_unit_zero (S := S128x256) hz, View.ld_unit_zero (S := S1x256) hz]
  exact pay1_apply x2 x3 x1 x0 x4 x5 p q

end Cert.Val

end
-- ==== Proof.Val.Arr0.lean ====
import proofs.«430205_j2405181685797_1_alg».proof.Proof.KI.R0
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx0 : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

variable (V : (c : Dev nD) → (b : Ref sig .tc) → Buf (Elt Ideal) ((c : Thread nD τ).loc b))

/-- Block `t` of the output after the region is block `t` of the leaf level, and the blocks of 8192 rows cover its 262144 rows. -/
theorem arr0 (c : Dev nD) :
    (dat0 V c).arrAt 3 cfg0.N = Cert.Spec.leafLevel 262144 (by decide) (V c main_arg0) (V c main_v1) (V c main_v2) :=
  (dat0 V c).arrAt_eq_of_cover 3 _ (fun t _ => by
    show (cfg0.win 3).cut (grid0.coords t) ((dat0 V c).after 3 t) = _
    rw [after0_3]
    unfold out0_3
    rw [View.canon_unit_zero hz]
    simp only [View.ld_unit_zero (S := S8192x128) hz, View.ld_unit_zero (S := S128x256) hz, View.ld_unit_zero (S := S1x256) hz]
    funext j
    obtain ⟨p, q, rfl⟩ : ∃ (p : Fin 8192) (q : Fin 256), j = ix2 p q := ⟨j 0, j 1, eq_ix2 j⟩
    refine (pay0_apply _ _ _ p q).trans ?_
    exact leaf_blocks (n := 262144) (B := 8192) (T := t.val) (by decide) (V c main_arg0) (V c main_v1) (V c main_v2) (idx0 t)
      ((cfg0.win 3).rect_emb_val t) (emb_ucast_val _ t (noclip0_0 t)) ((cfg0.win 1).rect_emb_val t) ((cfg0.win 2).rect_emb_val t)
      (fun j => Cert.Lib.fill_apply_of_uncut _ (noclip0_0 t) _ _ j) (fun _ => rfl) (fun _ => rfl) p q)
    fun (i : S262144x256.Idx) => by
      have hlt : (i 0).val / 8192 < cfg0.N := by have := idx2_lt0 i; have := N_0; show _ < grid0.N; omega
      refine ⟨⟨_, hlt⟩, flush0_3 _, ?_⟩
      show i ∈ ((View.whole main_v4).slice (win0_3.rect ⟨_, hlt⟩)).set
      rw [View.set_slice_whole, Rect.mem_set_unit]
      exact mem_rows i (idx0 ⟨_, hlt⟩).1 (idx0 ⟨_, hlt⟩).2.1 (by decide) rfl rfl rfl rfl

end Cert.Val

end
-- ==== Proof.Val.Arr1.lean ====
import proofs.«430205_j2405181685797_1_alg».proof.Proof.KI.R1
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx1 : ∀ t : Fin cfg1.N,
    win1_6.index t (0 : Fin 2) = t.val ∧ win1_6.index t (1 : Fin 2) = 0
    ∧ win1_0.index t (0 : Fin 2) = 128 + t.val ∧ win1_0.index t (1 : Fin 2) = 0
    ∧ win1_1.index t (0 : Fin 2) = t.val ∧ win1_1.index t (1 : Fin 2) = 0
    ∧ win1_2.index t (0 : Fin 2) = 0 + t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

variable (V : (c : Dev nD) → (b : Ref sig .tc) → Buf (Elt Ideal) ((c : Thread nD τ).loc b))

/-- Block `t` of the output after the region is block `t` of the level, and the blocks of 2048 rows cover the level's 131072 rows. -/
theorem arr1 (c : Dev nD) :
    (dat1 V c).arrAt 6 cfg1.N = Cert.Spec.nodeLevel 131072 262144 262144 0 rfl (by decide) (by decide) (V c main_arg0) (V c main_v4) (V c main_v3) (V c main_arg3) (V c main_v1) (V c main_v2) :=
  (dat1 V c).arrAt_eq_of_cover 6 _ (fun t _ => by
    show (cfg1.win 6).cut (grid1.coords t) ((dat1 V c).after 6 t) = _
    rw [after1_6]
    funext j
    obtain ⟨p, q, rfl⟩ : ∃ (p : Fin 2048) (q : Fin 256), j = ix2 p q := ⟨j 0, j 1, eq_ix2 j⟩
    refine (out_node _ _ _ _ _ _ p q).trans ?_
    exact node_blocks (n := 131072) (n2 := 262144) (off := 262144) (eoff := 0) (B := 2048) (B2 := 4096) (T := t.val) (cf := 128) (ce := 0)
      rfl (by decide) (by decide) rfl (V c main_arg0) (V c main_v4) (V c main_v3) (V c main_arg3) (V c main_v1) (V c main_v2)
      (idx1 t) rfl rfl ((cfg1.win 6).rect_emb_val t) (emb_ucast_val _ t (noclip1_0 t)) ((cfg1.win 1).rect_emb_val t)
      (emb_ucast_val _ t (noclip1_2 t)) ((cfg1.win 3).rect_emb_val t) ((cfg1.win 4).rect_emb_val t) ((cfg1.win 5).rect_emb_val t)
      (fun j => Cert.Lib.fill_apply_of_uncut _ (noclip1_0 t) _ _ j) (fun _ => rfl) (fun j => Cert.Lib.fill_apply_of_uncut _ (noclip1_2 t) _ _ j)
      (fun _ => rfl) (fun _ => rfl) (fun _ => rfl) p q)
    fun (i : S131072x256.Idx) => by
      have hlt : (i 0).val / 2048 < cfg1.N := by have := idx2_lt0 i; have := N_1; show _ < grid1.N; omega
      refine ⟨⟨_, hlt⟩, flush1_6 _, ?_⟩
      show i ∈ ((View.whole main_v5).slice (win1_6.rect ⟨_, hlt⟩)).set
      rw [View.set_slice_whole, Rect.mem_set_unit]
      exact mem_rows i (idx1 ⟨_, hlt⟩).1 (idx1 ⟨_, hlt⟩).2.1 (by decide) rfl rfl rfl rfl

end Cert.Val

end
-- ==== Proof.Val.Arr2.lean ====
import proofs.«430205_j2405181685797_1_alg».proof.Proof.KI.R2
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx2 : ∀ t : Fin cfg2.N,
    win2_6.index t (0 : Fin 2) = t.val ∧ win2_6.index t (1 : Fin 2) = 0
    ∧ win2_0.index t (0 : Fin 2) = 192 + t.val ∧ win2_0.index t (1 : Fin 2) = 0
    ∧ win2_1.index t (0 : Fin 2) = t.val ∧ win2_1.index t (1 : Fin 2) = 0
    ∧ win2_2.index t (0 : Fin 2) = 64 + t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

variable (V : (c : Dev nD) → (b : Ref sig .tc) → Buf (Elt Ideal) ((c : Thread nD τ).loc b))

/-- Block `t` of the output after the region is block `t` of the level, and the blocks of 2048 rows cover the level's 65536 rows. -/
theorem arr2 (c : Dev nD) :
    (dat2 V c).arrAt 6 cfg2.N = Cert.Spec.nodeLevel 65536 131072 393216 262144 rfl (by decide) (by decide) (V c main_arg0) (V c main_v5) (V c main_v3) (V c main_arg3) (V c main_v1) (V c main_v2) :=
  (dat2 V c).arrAt_eq_of_cover 6 _ (fun t _ => by
    show (cfg2.win 6).cut (grid2.coords t) ((dat2 V c).after 6 t) = _
    rw [after2_6]
    funext j
    obtain ⟨p, q, rfl⟩ : ∃ (p : Fin 2048) (q : Fin 256), j = ix2 p q := ⟨j 0, j 1, eq_ix2 j⟩
    refine (out_node _ _ _ _ _ _ p q).trans ?_
    exact node_blocks (n := 65536) (n2 := 131072) (off := 393216) (eoff := 262144) (B := 2048) (B2 := 4096) (T := t.val) (cf := 192) (ce := 64)
      rfl (by decide) (by decide) rfl (V c main_arg0) (V c main_v5) (V c main_v3) (V c main_arg3) (V c main_v1) (V c main_v2)
      (idx2 t) rfl rfl ((cfg2.win 6).rect_emb_val t) (emb_ucast_val _ t (noclip2_0 t)) ((cfg2.win 1).rect_emb_val t)
      (emb_ucast_val _ t (noclip2_2 t)) ((cfg2.win 3).rect_emb_val t) ((cfg2.win 4).rect_emb_val t) ((cfg2.win 5).rect_emb_val t)
      (fun j => Cert.Lib.fill_apply_of_uncut _ (noclip2_0 t) _ _ j) (fun _ => rfl) (fun j => Cert.Lib.fill_apply_of_uncut _ (noclip2_2 t) _ _ j)
      (fun _ => rfl) (fun _ => rfl) (fun _ => rfl) p q)
    fun (i : S65536x256.Idx) => by
      have hlt : (i 0).val / 2048 < cfg2.N := by have := idx2_lt0 i; have := N_2; show _ < grid2.N; omega
      refine ⟨⟨_, hlt⟩, flush2_6 _, ?_⟩
      show i ∈ ((View.whole main_v6).slice (win2_6.rect ⟨_, hlt⟩)).set
      rw [View.set_slice_whole, Rect.mem_set_unit]
      exact mem_rows i (idx2 ⟨_, hlt⟩).1 (idx2 ⟨_, hlt⟩).2.1 (by decide) rfl rfl rfl rfl

end Cert.Val

end
-- ==== Proof.Val.Arr3.lean ====
import proofs.«430205_j2405181685797_1_alg».proof.Proof.KI.R3
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx3 : ∀ t : Fin cfg3.N,
    win3_6.index t (0 : Fin 2) = t.val ∧ win3_6.index t (1 : Fin 2) = 0
    ∧ win3_0.index t (0 : Fin 2) = 224 + t.val ∧ win3_0.index t (1 : Fin 2) = 0
    ∧ win3_1.index t (0 : Fin 2) = t.val ∧ win3_1.index t (1 : Fin 2) = 0
    ∧ win3_2.index t (0 : Fin 2) = 96 + t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

variable (V : (c : Dev nD) → (b : Ref sig .tc) → Buf (Elt Ideal) ((c : Thread nD τ).loc b))

/-- Block `t` of the output after the region is block `t` of the level, and the blocks of 2048 rows cover the level's 32768 rows. -/
theorem arr3 (c : Dev nD) :
    (dat3 V c).arrAt 6 cfg3.N = Cert.Spec.nodeLevel 32768 65536 458752 393216 rfl (by decide) (by decide) (V c main_arg0) (V c main_v6) (V c main_v3) (V c main_arg3) (V c main_v1) (V c main_v2) :=
  (dat3 V c).arrAt_eq_of_cover 6 _ (fun t _ => by
    show (cfg3.win 6).cut (grid3.coords t) ((dat3 V c).after 6 t) = _
    rw [after3_6]
    funext j
    obtain ⟨p, q, rfl⟩ : ∃ (p : Fin 2048) (q : Fin 256), j = ix2 p q := ⟨j 0, j 1, eq_ix2 j⟩
    refine (out_node _ _ _ _ _ _ p q).trans ?_
    exact node_blocks (n := 32768) (n2 := 65536) (off := 458752) (eoff := 393216) (B := 2048) (B2 := 4096) (T := t.val) (cf := 224) (ce := 96)
      rfl (by decide) (by decide) rfl (V c main_arg0) (V c main_v6) (V c main_v3) (V c main_arg3) (V c main_v1) (V c main_v2)
      (idx3 t) rfl rfl ((cfg3.win 6).rect_emb_val t) (emb_ucast_val _ t (noclip3_0 t)) ((cfg3.win 1).rect_emb_val t)
      (emb_ucast_val _ t (noclip3_2 t)) ((cfg3.win 3).rect_emb_val t) ((cfg3.win 4).rect_emb_val t) ((cfg3.win 5).rect_emb_val t)
      (fun j => Cert.Lib.fill_apply_of_uncut _ (noclip3_0 t) _ _ j) (fun _ => rfl) (fun j => Cert.Lib.fill_apply_of_uncut _ (noclip3_2 t) _ _ j)
      (fun _ => rfl) (fun _ => rfl) (fun _ => rfl) p q)
    fun (i : S32768x256.Idx) => by
      have hlt : (i 0).val / 2048 < cfg3.N := by have := idx2_lt0 i; have := N_3; show _ < grid3.N; omega
      refine ⟨⟨_, hlt⟩, flush3_6 _, ?_⟩
      show i ∈ ((View.whole main_v7).slice (win3_6.rect ⟨_, hlt⟩)).set
      rw [View.set_slice_whole, Rect.mem_set_unit]
      exact mem_rows i (idx3 ⟨_, hlt⟩).1 (idx3 ⟨_, hlt⟩).2.1 (by decide) rfl rfl rfl rfl

end Cert.Val

end
-- ==== Proof.Val.Arr4.lean ====
import proofs.«430205_j2405181685797_1_alg».proof.Proof.KI.R4
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx4 : ∀ t : Fin cfg4.N,
    win4_6.index t (0 : Fin 2) = t.val ∧ win4_6.index t (1 : Fin 2) = 0
    ∧ win4_0.index t (0 : Fin 2) = 240 + t.val ∧ win4_0.index t (1 : Fin 2) = 0
    ∧ win4_1.index t (0 : Fin 2) = t.val ∧ win4_1.index t (1 : Fin 2) = 0
    ∧ win4_2.index t (0 : Fin 2) = 112 + t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

/-- Block `t` of the output after the region is block `t` of the level, and the blocks of 2048 rows cover the level's 16384 rows. -/
theorem arr4 (c : Dev nD) :
    (dat4 V c).arrAt 6 cfg4.N = Cert.Spec.nodeLevel 16384 32768 491520 458752 rfl (by decide) (by decide) (V c main_arg0) (V c main_v7) (V c main_v3) (V c main_arg3) (V c main_v1) (V c main_v2) :=
  (dat4 V c).arrAt_eq_of_cover 6 _ (fun t _ => by
    show (cfg4.win 6).cut (grid4.coords t) ((dat4 V c).after 6 t) = _
    rw [after4_6]
    funext j
    obtain ⟨p, q, rfl⟩ : ∃ (p : Fin 2048) (q : Fin 256), j = ix2 p q := ⟨j 0, j 1, eq_ix2 j⟩
    refine (out_node _ _ _ _ _ _ p q).trans ?_
    exact node_blocks (n := 16384) (n2 := 32768) (off := 491520) (eoff := 458752) (B := 2048) (B2 := 4096) (T := t.val) (cf := 240) (ce := 112)
      rfl (by decide) (by decide) rfl (V c main_arg0) (V c main_v7) (V c main_v3) (V c main_arg3) (V c main_v1) (V c main_v2)
      (idx4 t) rfl rfl ((cfg4.win 6).rect_emb_val t) (emb_ucast_val _ t (noclip4_0 t)) ((cfg4.win 1).rect_emb_val t)
      (emb_ucast_val _ t (noclip4_2 t)) ((cfg4.win 3).rect_emb_val t) ((cfg4.win 4).rect_emb_val t) ((cfg4.win 5).rect_emb_val t)
      (fun j => Cert.Lib.fill_apply_of_uncut _ (noclip4_0 t) _ _ j) (fun _ => rfl) (fun j => Cert.Lib.fill_apply_of_uncut _ (noclip4_2 t) _ _ j)
      (fun _ => rfl) (fun _ => rfl) (fun _ => rfl) p q)
    fun (i : S16384x256.Idx) => by
      have hlt : (i 0).val / 2048 < cfg4.N := by have := idx2_lt0 i; have := N_4; show _ < grid4.N; omega
      refine ⟨⟨_, hlt⟩, flush4_6 _, ?_⟩
      show i ∈ ((View.whole main_v8).slice (win4_6.rect ⟨_, hlt⟩)).set
      rw [View.set_slice_whole, Rect.mem_set_unit]
      exact mem_rows i (idx4 ⟨_, hlt⟩).1 (idx4 ⟨_, hlt⟩).2.1 (by decide) rfl rfl rfl rfl

end Cert.Val

end
-- ==== Proof.Val.Arr5.lean ====
import proofs.«430205_j2405181685797_1_alg».proof.Proof.KI.R5
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx5 : ∀ t : Fin cfg5.N,
    win5_6.index t (0 : Fin 2) = t.val ∧ win5_6.index t (1 : Fin 2) = 0
    ∧ win5_0.index t (0 : Fin 2) = 248 + t.val ∧ win5_0.index t (1 : Fin 2) = 0
    ∧ win5_1.index t (0 : Fin 2) = t.val ∧ win5_1.index t (1 : Fin 2) = 0
    ∧ win5_2.index t (0 : Fin 2) = 120 + t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

variable (V : (c : Dev nD) → (b : Ref sig .tc) → Buf (Elt Ideal) ((c : Thread nD τ).loc b))

/-- Block `t` of the output after the region is block `t` of the level, and the blocks of 2048 rows cover the level's 8192 rows. -/
theorem arr5 (c : Dev nD) :
    (dat5 V c).arrAt 6 cfg5.N = Cert.Spec.nodeLevel 8192 16384 507904 491520 rfl (by decide) (by decide) (V c main_arg0) (V c main_v8) (V c main_v3) (V c main_arg3) (V c main_v1) (V c main_v2) :=
  (dat5 V c).arrAt_eq_of_cover 6 _ (fun t _ => by
    show (cfg5.win 6).cut (grid5.coords t) ((dat5 V c).after 6 t) = _
    rw [after5_6]
    funext j
    obtain ⟨p, q, rfl⟩ : ∃ (p : Fin 2048) (q : Fin 256), j = ix2 p q := ⟨j 0, j 1, eq_ix2 j⟩
    refine (out_node _ _ _ _ _ _ p q).trans ?_
    exact node_blocks (n := 8192) (n2 := 16384) (off := 507904) (eoff := 491520) (B := 2048) (B2 := 4096) (T := t.val) (cf := 248) (ce := 120)
      rfl (by decide) (by decide) rfl (V c main_arg0) (V c main_v8) (V c main_v3) (V c main_arg3) (V c main_v1) (V c main_v2)
      (idx5 t) rfl rfl ((cfg5.win 6).rect_emb_val t) (emb_ucast_val _ t (noclip5_0 t)) ((cfg5.win 1).rect_emb_val t)
      (emb_ucast_val _ t (noclip5_2 t)) ((cfg5.win 3).rect_emb_val t) ((cfg5.win 4).rect_emb_val t) ((cfg5.win 5).rect_emb_val t)
      (fun j => Cert.Lib.fill_apply_of_uncut _ (noclip5_0 t) _ _ j) (fun _ => rfl) (fun j => Cert.Lib.fill_apply_of_uncut _ (noclip5_2 t) _ _ j)
      (fun _ => rfl) (fun _ => rfl) (fun _ => rfl) p q)
    fun (i : S8192x256.Idx) => by
      have hlt : (i 0).val / 2048 < cfg5.N := by have := idx2_lt0 i; have := N_5; show _ < grid5.N; omega
      refine ⟨⟨_, hlt⟩, flush5_6 _, ?_⟩
      show i ∈ ((View.whole main_v9).slice (win5_6.rect ⟨_, hlt⟩)).set
      rw [View.set_slice_whole, Rect.mem_set_unit]
      exact mem_rows i (idx5 ⟨_, hlt⟩).1 (idx5 ⟨_, hlt⟩).2.1 (by decide) rfl rfl rfl rfl

end Cert.Val

end
-- ==== Proof.Val.Arr6.lean ====
import proofs.«430205_j2405181685797_1_alg».proof.Proof.KI.R6
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx6 : ∀ t : Fin cfg6.N,
    win6_6.index t (0 : Fin 2) = t.val ∧ win6_6.index t (1 : Fin 2) = 0
    ∧ win6_0.index t (0 : Fin 2) = 252 + t.val ∧ win6_0.index t (1 : Fin 2) = 0
    ∧ win6_1.index t (0 : Fin 2) = t.val ∧ win6_1.index t (1 : Fin 2) = 0
    ∧ win6_2.index t (0 : Fin 2) = 124 + t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

variable (V : (c : Dev nD) → (b : Ref sig .tc) → Buf (Elt Ideal) ((c : Thread nD τ).loc b))

/-- Block `t` of the output after the region is block `t` of the level, and the blocks of 2048 rows cover the level's 4096 rows. -/
theorem arr6 (c : Dev nD) :
    (dat6 V c).arrAt 6 cfg6.N = Cert.Spec.nodeLevel 4096 8192 516096 507904 rfl (by decide) (by decide) (V c main_arg0) (V c main_v9) (V c main_v3) (V c main_arg3) (V c main_v1) (V c main_v2) :=
  (dat6 V c).arrAt_eq_of_cover 6 _ (fun t _ => by
    show (cfg6.win 6).cut (grid6.coords t) ((dat6 V c).after 6 t) = _
    rw [after6_6]
    funext j
    obtain ⟨p, q, rfl⟩ : ∃ (p : Fin 2048) (q : Fin 256), j = ix2 p q := ⟨j 0, j 1, eq_ix2 j⟩
    refine (out_node _ _ _ _ _ _ p q).trans ?_
    exact node_blocks (n := 4096) (n2 := 8192) (off := 516096) (eoff := 507904) (B := 2048) (B2 := 4096) (T := t.val) (cf := 252) (ce := 124)
      rfl (by decide) (by decide) rfl (V c main_arg0) (V c main_v9) (V c main_v3) (V c main_arg3) (V c main_v1) (V c main_v2)
      (idx6 t) rfl rfl ((cfg6.win 6).rect_emb_val t) (emb_ucast_val _ t (noclip6_0 t)) ((cfg6.win 1).rect_emb_val t)
      (emb_ucast_val _ t (noclip6_2 t)) ((cfg6.win 3).rect_emb_val t) ((cfg6.win 4).rect_emb_val t) ((cfg6.win 5).rect_emb_val t)
      (fun j => Cert.Lib.fill_apply_of_uncut _ (noclip6_0 t) _ _ j) (fun _ => rfl) (fun j => Cert.Lib.fill_apply_of_uncut _ (noclip6_2 t) _ _ j)
      (fun _ => rfl) (fun _ => rfl) (fun _ => rfl) p q)
    fun (i : S4096x256.Idx) => by
      have hlt : (i 0).val / 2048 < cfg6.N := by have := idx2_lt0 i; have := N_6; show _ < grid6.N; omega
      refine ⟨⟨_, hlt⟩, flush6_6 _, ?_⟩
      show i ∈ ((View.whole main_v10).slice (win6_6.rect ⟨_, hlt⟩)).set
      rw [View.set_slice_whole, Rect.mem_set_unit]
      exact mem_rows i (idx6 ⟨_, hlt⟩).1 (idx6 ⟨_, hlt⟩).2.1 (by decide) rfl rfl rfl rfl

end Cert.Val

end
-- ==== Proof.Val.Arr7.lean ====
import proofs.«430205_j2405181685797_1_alg».proof.Proof.KI.R7
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx7 : ∀ t : Fin cfg7.N,
    win7_6.index t (0 : Fin 2) = t.val ∧ win7_6.index t (1 : Fin 2) = 0
    ∧ win7_0.index t (0 : Fin 2) = 254 + t.val ∧ win7_0.index t (1 : Fin 2) = 0
    ∧ win7_1.index t (0 : Fin 2) = t.val ∧ win7_1.index t (1 : Fin 2) = 0
    ∧ win7_2.index t (0 : Fin 2) = 126 + t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

variable (V : (c : Dev nD) → (b : Ref sig .tc) → Buf (Elt Ideal) ((c : Thread nD τ).loc b))

/-- Block `t` of the output after the region is block `t` of the level, and the blocks of 2048 rows cover the level's 2048 rows. -/
theorem arr7 (c : Dev nD) :
    (dat7 V c).arrAt 6 cfg7.N = Cert.Spec.nodeLevel 2048 4096 520192 516096 rfl (by decide) (by decide) (V c main_arg0) (V c main_v10) (V c main_v3) (V c main_arg3) (V c main_v1) (V c main_v2) :=
  (dat7 V c).arrAt_eq_of_cover 6 _ (fun t _ => by
    show (cfg7.win 6).cut (grid7.coords t) ((dat7 V c).after 6 t) = _
    rw [after7_6]
    funext j
    obtain ⟨p, q, rfl⟩ : ∃ (p : Fin 2048) (q : Fin 256), j = ix2 p q := ⟨j 0, j 1, eq_ix2 j⟩
    refine (out_node _ _ _ _ _ _ p q).trans ?_
    exact node_blocks (n := 2048) (n2 := 4096) (off := 520192) (eoff := 516096) (B := 2048) (B2 := 4096) (T := t.val) (cf := 254) (ce := 126)
      rfl (by decide) (by decide) rfl (V c main_arg0) (V c main_v10) (V c main_v3) (V c main_arg3) (V c main_v1) (V c main_v2)
      (idx7 t) rfl rfl ((cfg7.win 6).rect_emb_val t) (emb_ucast_val _ t (noclip7_0 t)) ((cfg7.win 1).rect_emb_val t)
      (emb_ucast_val _ t (noclip7_2 t)) ((cfg7.win 3).rect_emb_val t) ((cfg7.win 4).rect_emb_val t) ((cfg7.win 5).rect_emb_val t)
      (fun j => Cert.Lib.fill_apply_of_uncut _ (noclip7_0 t) _ _ j) (fun _ => rfl) (fun j => Cert.Lib.fill_apply_of_uncut _ (noclip7_2 t) _ _ j)
      (fun _ => rfl) (fun _ => rfl) (fun _ => rfl) p q)
    fun (i : S2048x256.Idx) => by
      have hlt : (i 0).val / 2048 < cfg7.N := by have := idx2_lt0 i; have := N_7; show _ < grid7.N; omega
      refine ⟨⟨_, hlt⟩, flush7_6 _, ?_⟩
      show i ∈ ((View.whole main_v11).slice (win7_6.rect ⟨_, hlt⟩)).set
      rw [View.set_slice_whole, Rect.mem_set_unit]
      exact mem_rows i (idx7 ⟨_, hlt⟩).1 (idx7 ⟨_, hlt⟩).2.1 (by decide) rfl rfl rfl rfl

end Cert.Val

end
-- ==== Proof.Val.Arr8.lean ====
import proofs.«430205_j2405181685797_1_alg».proof.Proof.KI.R8
import proofs.«430205_j2405181685797_1_alg».proof.Proof.Val.ArrLib

noncomputable section

namespace Cert.Val

open Cert.KernelIdeal Cert.KernelIdeal.Gen Cert.KernelIdeal.Hand
open Idealize.ShloMosaic Idealize.ShloMosaic.ValueIdx Idealize.ShloMosaic.TcCoe

theorem idx8 : ∀ t : Fin cfg8.N,
    win8_6.index t (0 : Fin 2) = t.val ∧ win8_6.index t (1 : Fin 2) = 0
    ∧ win8_0.index t (0 : Fin 2) = 510 + t.val ∧ win8_0.index t (1 : Fin 2) = 0
    ∧ win8_1.index t (0 : Fin 2) = t.val ∧ win8_1.index t (1 : Fin 2) = 0
    ∧ win8_2.index t (0 : Fin 2) = 254 + t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

variable (V : (c : Dev nD) → (b : Ref sig .tc) → Buf (Elt Ideal) ((c : Thread nD τ).loc b))

/-- Block `t` of the output after the region is block `t` of the level, and the blocks of 1024 rows cover the level's 1024 rows. -/
theorem arr8 (c : Dev nD) :
    (dat8 V c).arrAt 6 cfg8.N = Cert.Spec.nodeLevel 1024 2048 522240 520192 rfl (by decide) (by decide) (V c main_arg0) (V c main_v11) (V c main_v3) (V c main_arg3) (V c main_v1) (V c main_v2) :=
  (dat8 V c).arrAt_eq_of_cover 6 _ (fun t _ => by
    show (cfg8.win 6).cut (grid8.coords t) ((dat8 V c).after 6 t) = _
    rw [after8_6]
    unfold out8_6
    rw [View.canon_unit_zero hz]
    simp only [View.ld_unit_zero (S := S1024x128) hz, View.ld_unit_zero (S := S2048x256) hz, View.ld_unit_zero (S := S2048x1) hz,
      View.ld_unit_zero (S := S16x256) hz, View.ld_unit_zero (S := S128x256) hz, View.ld_unit_zero (S := S1x256) hz]
    funext j
    obtain ⟨p, q, rfl⟩ : ∃ (p : Fin 1024) (q : Fin 256), j = ix2 p q := ⟨j 0, j 1, eq_ix2 j⟩
    refine (pay8_apply _ _ _ _ _ _ p q).trans ?_
    exact node_blocks (n := 1024) (n2 := 2048) (off := 522240) (eoff := 520192) (B := 1024) (B2 := 2048) (T := t.val) (cf := 510) (ce := 254)
      rfl (by decide) (by decide) rfl (V c main_arg0) (V c main_v11) (V c main_v3) (V c main_arg3) (V c main_v1) (V c main_v2)
      (idx8 t) rfl rfl ((cfg8.win 6).rect_emb_val t) ((cfg8.win 0).rect_emb_val t) ((cfg8.win 1).rect_emb_val t)
      ((cfg8.win 2).rect_emb_val t) ((cfg8.win 3).rect_emb_val t) ((cfg8.win 4).rect_emb_val t) ((cfg8.win 5).rect_emb_val t)
      (fun _ => rfl) (fun _ => rfl) (fun _ => rfl)
      (fun _ => rfl) (fun _ => rfl) (fun _ => rfl) p q)
    fun (i : S1024x256.Idx) => by
      have hlt : (i 0).val / 1024 < cfg8.N := by have := idx2_lt0 i; have := N_8; show _ < grid8.N; omega
      refine ⟨⟨_, hlt⟩, flush8_6 _, ?_⟩
      show i ∈ ((View.whole main_v12).slice (win8_6.rect ⟨_, hlt⟩)).set
      rw [View.set_slice_whole, Rect.mem_set_unit]
      exact mem_rows i (idx8 ⟨_, hlt⟩).1 (idx8 ⟨_, hlt⟩).2.1 (by decide) rfl rfl rfl rfl

end Cert.Val

end
-- ==== Proof.Val.Levels.lean ====
import proofs.«430205_j2405181685797_1_alg».proof.Proof.Val.Spec

noncomputable section

namespace Cert.Spec

open Idealize.ShloMosaic Idealize.ShloMosaic.ValueIdx

variable (feat : (⟨2, ![523264, 128]⟩ : Shape).Idx → EReal) (W : (⟨2, ![256, 256]⟩ : Shape).Idx → EReal)
  (b : (⟨1, ![256]⟩ : Shape).Idx → EReal) (E : (⟨2, ![16, 256]⟩ : Shape).Idx → EReal)
  (et : (⟨1, ![522240]⟩ : Shape).Idx → BitVec 32)

def lvl0 : (⟨2, ![262144, 256]⟩ : Shape).Idx → EReal := leafLevel 262144 (by decide) feat (wtOf W) (b2Of b)

def lvl1 : (⟨2, ![131072, 256]⟩ : Shape).Idx → EReal :=
  nodeLevel 131072 262144 262144 0 rfl (by decide) (by decide) feat (lvl0 feat W b) (et2Of et) E (wtOf W) (b2Of b)

def lvl2 : (⟨2, ![65536, 256]⟩ : Shape).Idx → EReal :=
  nodeLevel 65536 131072 393216 262144 rfl (by decide) (by decide) feat (lvl1 feat W b E et) (et2Of et) E (wtOf W) (b2Of b)

def lvl3 : (⟨2, ![32768, 256]⟩ : Shape).Idx → EReal :=
  nodeLevel 32768 65536 458752 393216 rfl (by decide) (by decide) feat (lvl2 feat W b E et) (et2Of et) E (wtOf W) (b2Of b)

def lvl4 : (⟨2, ![16384, 256]⟩ : Shape).Idx → EReal :=
  nodeLevel 16384 32768 491520 458752 rfl (by decide) (by decide) feat (lvl3 feat W b E et) (et2Of et) E (wtOf W) (b2Of b)

def lvl5 : (⟨2, ![8192, 256]⟩ : Shape).Idx → EReal :=
  nodeLevel 8192 16384 507904 491520 rfl (by decide) (by decide) feat (lvl4 feat W b E et) (et2Of et) E (wtOf W) (b2Of b)

def lvl6 : (⟨2, ![4096, 256]⟩ : Shape).Idx → EReal :=
  nodeLevel 4096 8192 516096 507904 rfl (by decide) (by decide) feat (lvl5 feat W b E et) (et2Of et) E (wtOf W) (b2Of b)

def lvl7 : (⟨2, ![2048, 256]⟩ : Shape).Idx → EReal :=
  nodeLevel 2048 4096 520192 516096 rfl (by decide) (by decide) feat (lvl6 feat W b E et) (et2Of et) E (wtOf W) (b2Of b)

def lvl8 : (⟨2, ![1024, 256]⟩ : Shape).Idx → EReal :=
  nodeLevel 1024 2048 522240 520192 rfl (by decide) (by decide) feat (lvl7 feat W b E et) (et2Of et) E (wtOf W) (b2Of b)

end Cert.Spec
end
-- ==== Proof.Val.Chain.lean ====
import proofs.«430205_j2405181685797_1_alg».proof.Proof.KI.Fold
import proofs.«430205_j2405181685797_1_alg».proof.Proof.Val.Arr0
import proofs.«430205_j2405181685797_1_alg».proof.Proof.Val.Arr1
import proofs.«430205_j2405181685797_1_alg».proof.Proof.Val.Arr2
import proofs.«430205_j2405181685797_1_alg».proof.Proof.Val.Arr3
import proofs.«430205_j2405181685797_1_alg».proof.Proof.Val.Arr4
import proofs.«430205_j2405181685797_1_alg».proof.Proof.Val.Arr5
import proofs.«430205_j2405181685797_1_alg».proof.Proof.Val.Arr6
import proofs.«430205_j2405181685797_1_alg».proof.Proof.Val.Arr7
import proofs.«430205_j2405181685797_1_alg».proof.Proof.Val.Arr8
import proofs.«430205_j2405181685797_1_alg».proof.Proof.Val.Levels
import Idealize.ShloMosaic.Lib.StableHlo.Run
import Idealize.ShloMosaic.Lib.Pipeline.Value
import Idealize.ShloMosaic.Lib.ValueIdx

noncomputable section

namespace Cert.Val

open Cert.KernelIdeal Cert.KernelIdeal.Gen Cert.KernelIdeal.Hand Cert.Lib
open Idealize.ShloMosaic Idealize.ShloMosaic.ValueIdx Idealize.ShloMosaic.TcCoe

variable (m : (ℓ : Loc nD τ sig) → Buf (Elt Ideal) ℓ) (ρ : Dev nD → PrngReg)

/-- The five launched arrays on core `c`, and the nine levels of them. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev l0 (c : Dev nD) := Cert.Spec.lvl0 (x0 m c) (x1 m c) (x2 m c)
abbrev l1 (c : Dev nD) := Cert.Spec.lvl1 (x0 m c) (x1 m c) (x2 m c) (x3 m c) (x4 m c)
abbrev l2 (c : Dev nD) := Cert.Spec.lvl2 (x0 m c) (x1 m c) (x2 m c) (x3 m c) (x4 m c)
abbrev l3 (c : Dev nD) := Cert.Spec.lvl3 (x0 m c) (x1 m c) (x2 m c) (x3 m c) (x4 m c)
abbrev l4 (c : Dev nD) := Cert.Spec.lvl4 (x0 m c) (x1 m c) (x2 m c) (x3 m c) (x4 m c)
abbrev l5 (c : Dev nD) := Cert.Spec.lvl5 (x0 m c) (x1 m c) (x2 m c) (x3 m c) (x4 m c)
abbrev l6 (c : Dev nD) := Cert.Spec.lvl6 (x0 m c) (x1 m c) (x2 m c) (x3 m c) (x4 m c)
abbrev l7 (c : Dev nD) := Cert.Spec.lvl7 (x0 m c) (x1 m c) (x2 m c) (x3 m c) (x4 m c)
abbrev l8 (c : Dev nD) := Cert.Spec.lvl8 (x0 m c) (x1 m c) (x2 m c) (x3 m c) (x4 m c)

/-- Entry (k, j) of the transposed 128-column slice is entry (j, k) of the matrix. -/
theorem wt_read (x : (⟨S256x256, .f32⟩ : BufTy).Contents (Elt Ideal)) :
    transpose S128x256 [1, 0] (extractStridedSlice S256x128 ![0, 0] x slices_S256x256_S256x128_0_0) transposes_S256x128_S128x256_1_0
      = Cert.Spec.wtOf x := by
  funext i
  have h0 : (i 0).val < 128 := (i 0).isLt
  refine (transpose_apply [1, 0] _ transposes_S256x128_S128x256_1_0 i (ix2 (i 1) (i 0)) (fun b => match b with
    | ⟨0, _⟩ => rfl
    | ⟨1, _⟩ => rfl)).trans ?_
  exact extractStridedSlice_apply ![0, 0] x slices_S256x256_S256x128_0_0 (ix2 (i 1) (i 0))
    (ix2 (i 1) ⟨(i 0).val, by omega⟩) (fun a => match a with
    | ⟨0, _⟩ => by show (i 1).val = 0 + (i 1).val; omega
    | ⟨1, _⟩ => by show (i 0).val = 0 + (i 0).val; omega)

/-- A vector read as a single row. -/
theorem b2_read (x : (⟨S256, .f32⟩ : BufTy).Contents (Elt Ideal)) :
    shapeCast S1x256 x shapeCasts_S256_S1x256 = Cert.Spec.b2Of x := by
  funext i
  have h0 : (i 0).val < 1 := (i 0).isLt
  exact shapeCast_apply x shapeCasts_S256_S1x256 i (ix1 (i 1))
    (by rw [Shape.rowMajor_val_two, Shape.rowMajor_val_one]; show (i 1).val = (i 0).val * 256 + (i 1).val; omega)

/-- A vector read as a single column. -/
theorem et2_read (x : (⟨S522240, .i32⟩ : BufTy).Contents (Elt Ideal)) :
    shapeCast S522240x1 x shapeCasts_S522240_S522240x1 = Cert.Spec.et2Of x := by
  funext i
  have h1 : (i 1).val < 1 := (i 1).isLt
  exact shapeCast_apply x shapeCasts_S522240_S522240x1 i (ix1 (i 0))
    (by rw [Shape.rowMajor_val_two, Shape.rowMajor_val_one]; show (i 0).val = (i 0).val * 1 + (i 1).val; omega)

/-- What the first line of host operations makes of the launched weights, bias and edge types (this and the next two). -/
theorem W1_wt (c : Dev nD) : W1 m ρ c (Proc.devRef .tc main_v1) = Cert.Spec.wtOf (x1 m c) := by
  have e : W1 m ρ c (Proc.devRef .tc main_v1)
      = transpose S128x256 [1, 0] (extractStridedSlice S256x128 ![0, 0] (x1 m c) slices_S256x256_S256x128_0_0) transposes_S256x128_S128x256_1_0 := by
    show StableHlo.after hostOps0 _ (Proc.devRef .tc main_v1) = _
    after_results
  exact e.trans (wt_read _)

theorem W1_b2 (c : Dev nD) : W1 m ρ c (Proc.devRef .tc main_v2) = Cert.Spec.b2Of (x2 m c) := by
  have e : W1 m ρ c (Proc.devRef .tc main_v2)
      = shapeCast S1x256 (x2 m c) shapeCasts_S256_S1x256 := by
    show StableHlo.after hostOps0 _ (Proc.devRef .tc main_v2) = _
    after_results
    rfl
  exact e.trans (b2_read _)

theorem W1_et2 (c : Dev nD) : W1 m ρ c (Proc.devRef .tc main_v3) = Cert.Spec.et2Of (x4 m c) := by
  have e : W1 m ρ c (Proc.devRef .tc main_v3)
      = shapeCast S522240x1 (x4 m c) shapeCasts_S522240_S522240x1 := by
    show StableHlo.after hostOps0 _ (Proc.devRef .tc main_v3) = _
    after_results
    rfl
  exact e.trans (et2_read _)

theorem W1_arg0 (c : Dev nD) : W1 m ρ c (Proc.devRef .tc main_arg0) = x0 m c :=
  W1_of_ne m ρ c main_arg0 (by decide) (by decide) (by decide) (by decide)
theorem W1_arg3 (c : Dev nD) : W1 m ρ c (Proc.devRef .tc main_arg3) = x3 m c :=
  W1_of_ne m ρ c main_arg3 (by decide) (by decide) (by decide) (by decide)

/-- The buffers at the boundary before region `k` (`k = 9`: after the last region). -/
def Wb : Fin 10 → Dev nD → Valuation τ sig (Elt Ideal)
  | ⟨0, _⟩ => W1 m ρ
  | ⟨1, _⟩ => W2 m ρ
  | ⟨2, _⟩ => W3 m ρ
  | ⟨3, _⟩ => W4 m ρ
  | ⟨4, _⟩ => W5 m ρ
  | ⟨5, _⟩ => W6 m ρ
  | ⟨6, _⟩ => W7 m ρ
  | ⟨7, _⟩ => W8 m ρ
  | ⟨8, _⟩ => W9 m ρ
  | ⟨9, _⟩ => W10 m ρ

abbrev NoOut (p : Fin 9) (b : Ref sig .tc) : Prop :=
  ∀ w, Pipeline.arrRef (cfgs p).spec w = b → ((cfgs p).win w).isOut = false

/-- A region leaves a buffer that is no output window's array of its as it found it. -/
theorem Wb_step (c : Dev nD) (b : Ref sig .tc) : ∀ p : Fin 9, NoOut p b →
    Wb m ρ p.succ c (Proc.devRef .tc b) = Wb m ρ p.castSucc c (Proc.devRef .tc b)
  | ⟨0, _⟩, h => exitVal_keep (dat0 (V1 m ρ) c) (W1 m ρ c) launch0.win.arr_inj (A_eq0 _ c) b h
  | ⟨1, _⟩, h => exitVal_keep (dat1 (V2 m ρ) c) (W2 m ρ c) launch1.win.arr_inj (A_eq1 _ c) b h
  | ⟨2, _⟩, h => exitVal_keep (dat2 (V3 m ρ) c) (W3 m ρ c) launch2.win.arr_inj (A_eq2 _ c) b h
  | ⟨3, _⟩, h => exitVal_keep (dat3 (V4 m ρ) c) (W4 m ρ c) launch3.win.arr_inj (A_eq3 _ c) b h
  | ⟨4, _⟩, h => exitVal_keep (dat4 (V5 m ρ) c) (W5 m ρ c) launch4.win.arr_inj (A_eq4 _ c) b h
  | ⟨5, _⟩, h => exitVal_keep (dat5 (V6 m ρ) c) (W6 m ρ c) launch5.win.arr_inj (A_eq5 _ c) b h
  | ⟨6, _⟩, h => exitVal_keep (dat6 (V7 m ρ) c) (W7 m ρ c) launch6.win.arr_inj (A_eq6 _ c) b h
  | ⟨7, _⟩, h => exitVal_keep (dat7 (V8 m ρ) c) (W8 m ρ c) launch7.win.arr_inj (A_eq7 _ c) b h
  | ⟨8, _⟩, h => exitVal_keep (dat8 (V9 m ρ) c) (W9 m ρ c) launch8.win.arr_inj (A_eq8 _ c) b h

/-- So does a run of regions none of which has it as an output. -/
theorem Wb_keep (c : Dev nD) (b : Ref sig .tc) (j : ℕ) : ∀ (k : ℕ) (hk : k < 10) (hj : j ≤ k),
    (∀ p : Fin 9, j ≤ p.val → p.val < k → NoOut p b) →
    Wb m ρ ⟨k, hk⟩ c (Proc.devRef .tc b) = Wb m ρ ⟨j, by omega⟩ c (Proc.devRef .tc b)
  | 0, _, hj, _ => by obtain rfl : j = 0 := Nat.le_zero.mp hj; rfl
  | k + 1, hk, hj, hb => by
    rcases Nat.eq_or_lt_of_le hj with rfl | hlt
    · rfl
    · exact (Wb_step m ρ c b ⟨k, by omega⟩ (hb _ (Nat.lt_succ_iff.mp hlt) (Nat.lt_succ_self k))).trans
        (Wb_keep c b j k (by omega) (Nat.lt_succ_iff.mp hlt) fun p h1 h2 => hb p h1 (Nat.lt_succ_of_lt h2))

/-- At a boundary the five arrays every level reads are what the first host stretch made of the launched ones. -/
structure Ins (c : Dev nD) (W : Valuation τ sig (Elt Ideal)) : Prop where
  f : W (Proc.devRef .tc main_arg0) = x0 m c
  E : W (Proc.devRef .tc main_arg3) = x3 m c
  w : W (Proc.devRef .tc main_v1) = Cert.Spec.wtOf (x1 m c)
  b : W (Proc.devRef .tc main_v2) = Cert.Spec.b2Of (x2 m c)
  e : W (Proc.devRef .tc main_v3) = Cert.Spec.et2Of (x4 m c)

/-- No region has one of the five as an output, so they are so at every boundary. -/
theorem ins (c : Dev nD) (n : ℕ) (h : n < 10) : Ins m c (Wb m ρ ⟨n, h⟩ c) :=
  have k := fun (b : Ref sig .tc) (hb : ∀ p, NoOut p b) => Wb_keep m ρ c b 0 n h (Nat.zero_le n) fun p _ _ => hb p
  ⟨(k main_arg0 (by decide)).trans (W1_arg0 m ρ c), (k main_arg3 (by decide)).trans (W1_arg3 m ρ c),
    (k main_v1 (by decide)).trans (W1_wt m ρ c), (k main_v2 (by decide)).trans (W1_b2 m ρ c),
    (k main_v3 (by decide)).trans (W1_et2 m ρ c)⟩

variable {m} in
/-- A leaf level of arrays that are the launched ones is that level of the launched arrays. -/
theorem leaf_step {c : Dev nD} {W : Valuation τ sig (Elt Ideal)} (h : Ins m c W) {n : ℕ} {hn : n ≤ 523264}
    {X : (⟨2, ![n, 256]⟩ : Shape).Idx → EReal}
    (hX : X = Cert.Spec.leafLevel n hn (W (Proc.devRef .tc main_arg0)) (W (Proc.devRef .tc main_v1)) (W (Proc.devRef .tc main_v2))) :
    X = Cert.Spec.leafLevel n hn (x0 m c) (Cert.Spec.wtOf (x1 m c)) (Cert.Spec.b2Of (x2 m c)) := by
  rw [hX, h.f, h.w, h.b]

variable {m} in
/-- An internal level of such arrays over a level of the launched arrays is the next level of the launched arrays. -/
theorem node_step {c : Dev nD} {W : Valuation τ sig (Elt Ideal)} (h : Ins m c W) {n n2 off eoff : ℕ} {hn2 : 2 * n = n2}
    {hoff : off + n ≤ 523264} {heoff : eoff + n2 ≤ 522240} {X : (⟨2, ![n, 256]⟩ : Shape).Idx → EReal}
    {p P : (⟨2, ![n2, 256]⟩ : Shape).Idx → EReal}
    (hX : X = Cert.Spec.nodeLevel n n2 off eoff hn2 hoff heoff (W (Proc.devRef .tc main_arg0)) p (W (Proc.devRef .tc main_v3))
      (W (Proc.devRef .tc main_arg3)) (W (Proc.devRef .tc main_v1)) (W (Proc.devRef .tc main_v2))) (hp : p = P) :
    X = Cert.Spec.nodeLevel n n2 off eoff hn2 hoff heoff (x0 m c) P (Cert.Spec.et2Of (x4 m c)) (x3 m c)
      (Cert.Spec.wtOf (x1 m c)) (Cert.Spec.b2Of (x2 m c)) := by
  rw [hX, h.f, h.e, h.E, h.w, h.b, hp]

/-- Level `N`'s array at its region's exit is level `N` of the launched arrays (here and below). -/
theorem W_lvl0 (c : Dev nD) : W2 m ρ c (Proc.devRef .tc main_v4) = l0 m c :=
  leaf_step (ins m ρ c 0 (by decide)) ((W2_arr m ρ c 3).trans (arr0 (V1 m ρ) c))
theorem W_lvl1 (c : Dev nD) : W3 m ρ c (Proc.devRef .tc main_v5) = l1 m c :=
  node_step (ins m ρ c 1 (by decide)) ((W3_arr m ρ c 6).trans (arr1 (V2 m ρ) c)) (W_lvl0 m ρ c)
theorem W_lvl2 (c : Dev nD) : W4 m ρ c (Proc.devRef .tc main_v6) = l2 m c :=
  node_step (ins m ρ c 2 (by decide)) ((W4_arr m ρ c 6).trans (arr2 (V3 m ρ) c)) (W_lvl1 m ρ c)
theorem W_lvl3 (c : Dev nD) : W5 m ρ c (Proc.devRef .tc main_v7) = l3 m c :=
  node_step (ins m ρ c 3 (by decide)) ((W5_arr m ρ c 6).trans (arr3 (V4 m ρ) c)) (W_lvl2 m ρ c)
theorem W_lvl4 (c : Dev nD) : W6 m ρ c (Proc.devRef .tc main_v8) = l4 m c :=
  node_step (ins m ρ c 4 (by decide)) ((W6_arr m ρ c 6).trans (arr4 (V5 m ρ) c)) (W_lvl3 m ρ c)
theorem W_lvl5 (c : Dev nD) : W7 m ρ c (Proc.devRef .tc main_v9) = l5 m c :=
  node_step (ins m ρ c 5 (by decide)) ((W7_arr m ρ c 6).trans (arr5 (V6 m ρ) c)) (W_lvl4 m ρ c)
theorem W_lvl6 (c : Dev nD) : W8 m ρ c (Proc.devRef .tc main_v10) = l6 m c :=
  node_step (ins m ρ c 6 (by decide)) ((W8_arr m ρ c 6).trans (arr6 (V7 m ρ) c)) (W_lvl5 m ρ c)
theorem W_lvl7 (c : Dev nD) : W9 m ρ c (Proc.devRef .tc main_v11) = l7 m c :=
  node_step (ins m ρ c 7 (by decide)) ((W9_arr m ρ c 6).trans (arr7 (V8 m ρ) c)) (W_lvl6 m ρ c)
theorem W_lvl8 (c : Dev nD) : W10 m ρ c (Proc.devRef .tc main_v12) = l8 m c :=
  node_step (ins m ρ c 8 (by decide)) ((W10_arr m ρ c 6).trans (arr8 (V9 m ρ) c)) (W_lvl7 m ρ c)

/-- Level `N`'s array at the last region's exit: no later region has it as an output (here and below). -/
theorem W10_lvl0 (c : Dev nD) : W10 m ρ c (Proc.devRef .tc main_v4) = l0 m c :=
  (Wb_keep m ρ c main_v4 1 9 (by decide) (by decide) (by decide)).trans (W_lvl0 m ρ c)
theorem W10_lvl1 (c : Dev nD) : W10 m ρ c (Proc.devRef .tc main_v5) = l1 m c :=
  (Wb_keep m ρ c main_v5 2 9 (by decide) (by decide) (by decide)).trans (W_lvl1 m ρ c)
theorem W10_lvl2 (c : Dev nD) : W10 m ρ c (Proc.devRef .tc main_v6) = l2 m c :=
  (Wb_keep m ρ c main_v6 3 9 (by decide) (by decide) (by decide)).trans (W_lvl2 m ρ c)
theorem W10_lvl3 (c : Dev nD) : W10 m ρ c (Proc.devRef .tc main_v7) = l3 m c :=
  (Wb_keep m ρ c main_v7 4 9 (by decide) (by decide) (by decide)).trans (W_lvl3 m ρ c)
theorem W10_lvl4 (c : Dev nD) : W10 m ρ c (Proc.devRef .tc main_v8) = l4 m c :=
  (Wb_keep m ρ c main_v8 5 9 (by decide) (by decide) (by decide)).trans (W_lvl4 m ρ c)
theorem W10_lvl5 (c : Dev nD) : W10 m ρ c (Proc.devRef .tc main_v9) = l5 m c :=
  (Wb_keep m ρ c main_v9 6 9 (by decide) (by decide) (by decide)).trans (W_lvl5 m ρ c)
theorem W10_lvl6 (c : Dev nD) : W10 m ρ c (Proc.devRef .tc main_v10) = l6 m c :=
  (Wb_keep m ρ c main_v10 7 9 (by decide) (by decide) (by decide)).trans (W_lvl6 m ρ c)
theorem W10_lvl7 (c : Dev nD) : W10 m ρ c (Proc.devRef .tc main_v11) = l7 m c :=
  (Wb_keep m ρ c main_v11 8 9 (by decide) (by decide) (by decide)).trans (W_lvl7 m ρ c)

/-- The nine levels of five argument arrays, stacked. -/
abbrev forest (a0 : (⟨S523264x128, .f32⟩ : BufTy).Contents (Elt Ideal)) (a1 : (⟨S256x256, .f32⟩ : BufTy).Contents (Elt Ideal))
    (a2 : (⟨S256, .f32⟩ : BufTy).Contents (Elt Ideal)) (a3 : (⟨S16x256, .f32⟩ : BufTy).Contents (Elt Ideal))
    (a4 : (⟨S522240, .i32⟩ : BufTy).Contents (Elt Ideal)) :=
  concatenate S523264x256 0 [⟨S262144x256, Cert.Spec.lvl0 a0 a1 a2⟩, ⟨S131072x256, Cert.Spec.lvl1 a0 a1 a2 a3 a4⟩, ⟨S65536x256, Cert.Spec.lvl2 a0 a1 a2 a3 a4⟩, ⟨S32768x256, Cert.Spec.lvl3 a0 a1 a2 a3 a4⟩, ⟨S16384x256, Cert.Spec.lvl4 a0 a1 a2 a3 a4⟩, ⟨S8192x256, Cert.Spec.lvl5 a0 a1 a2 a3 a4⟩, ⟨S4096x256, Cert.Spec.lvl6 a0 a1 a2 a3 a4⟩, ⟨S2048x256, Cert.Spec.lvl7 a0 a1 a2 a3 a4⟩, ⟨S1024x256, Cert.Spec.lvl8 a0 a1 a2 a3 a4⟩] concatenates_S262144x256_S131072x256_S65536x256_S32768x256_S16384x256_S8192x256_S4096x256_S2048x256_S1024x256_S523264x256_d0

/-- The program's result buffer at the end. -/
theorem out_eq (c : Dev nD) : W11 m ρ c (Proc.devRef .tc main_v13) = forest (x0 m c) (x1 m c) (x2 m c) (x3 m c) (x4 m c) := by
  have e : W11 m ρ c (Proc.devRef .tc main_v13) =
      concatenate S523264x256 0 [⟨S262144x256, W10 m ρ c (Proc.devRef .tc main_v4)⟩, ⟨S131072x256, W10 m ρ c (Proc.devRef .tc main_v5)⟩, ⟨S65536x256, W10 m ρ c (Proc.devRef .tc main_v6)⟩, ⟨S32768x256, W10 m ρ c (Proc.devRef .tc main_v7)⟩, ⟨S16384x256, W10 m ρ c (Proc.devRef .tc main_v8)⟩, ⟨S8192x256, W10 m ρ c (Proc.devRef .tc main_v9)⟩, ⟨S4096x256, W10 m ρ c (Proc.devRef .tc main_v10)⟩, ⟨S2048x256, W10 m ρ c (Proc.devRef .tc main_v11)⟩, ⟨S1024x256, W10 m ρ c (Proc.devRef .tc main_v12)⟩] concatenates_S262144x256_S131072x256_S65536x256_S32768x256_S16384x256_S8192x256_S4096x256_S2048x256_S1024x256_S523264x256_d0 := by
    show StableHlo.after hostOps9 _ (Proc.devRef .tc main_v13) = _
    after_results
    rfl
  rw [e, W10_lvl0 m ρ c, W10_lvl1 m ρ c, W10_lvl2 m ρ c, W10_lvl3 m ρ c, W10_lvl4 m ρ c, W10_lvl5 m ρ c, W10_lvl6 m ρ c, W10_lvl7 m ρ c, W_lvl8 m ρ c]

end Cert.Val

end
-- ==== Proof.Val.Range.lean ====
import proofs.«430205_j2405181685797_1_alg».proof.Defs
import proofs.«430205_j2405181685797_1_alg».proof.Proof.Gen.Pre_finite_inputs
import Idealize.ShloMosaic.Lib.ValueIdx
import Idealize.ShloMosaic.Lib.ReduceAll
import Idealize.ShloMosaic.Lib.StableHlo.Predicate

noncomputable section

namespace Cert.Val

open Idealize.ShloMosaic Idealize.ShloMosaic.ValueIdx

instance : Subsingleton Cert.Pre_finite_inputs.S_.Idx := ⟨fun a b => funext fun d => d.elim0⟩

theorem word_lt_16 (w : BitVec 32) (h0 : IntOp.cmpi .sge w 0#32 = 1#1) (h1 : IntOp.cmpi .slt w 16#32 = 1#1) :
    ∃ t : Fin 16, w = BitVec.ofNat 32 t.val := by
  simp only [IntOp.cmpi, StableHlo.Predicate.ofBool_eq_one_iff, BitVec.sle, BitVec.slt, decide_eq_true_eq] at h0 h1
  have e0 : (0#32 : BitVec 32).toInt = 0 := by decide
  have e16 : (16#32 : BitVec 32).toInt = 16 := by decide
  rw [e0] at h0
  rw [e16] at h1
  have hn : w.toNat < 16 := by
    have hw := w.isLt
    rw [BitVec.toInt_eq_toNat_cond] at h0 h1
    split at h0 <;> omega
  exact ⟨⟨w.toNat, hn⟩, by apply BitVec.eq_of_toNat_eq; simp only [BitVec.toNat_ofNat]; omega⟩

theorem et_range_of_fn [hP : Cert.Pre_finite_inputs.Facts]
    (a0 : FVec Ideal Cert.Pre_finite_inputs.S523264x128 .f32) (a1 : FVec Ideal Cert.Pre_finite_inputs.S256x256 .f32)
    (a2 : FVec Ideal Cert.Pre_finite_inputs.S256 .f32) (a3 : FVec Ideal Cert.Pre_finite_inputs.S16x256 .f32)
    (a4 : IVec Cert.Pre_finite_inputs.S522240 32)
    (h : Cert.Pre_finite_inputs.fn (F := Ideal) a0 a1 a2 a3 a4 = fun _ => 1#1) (i : Fin 522240) :
    ∃ t : Fin 16, a4 (ix1 i) = BitVec.ofNat 32 t.val := by
  have h0 := congrFun h ValueIdx.ix0
  dsimp only [Cert.Pre_finite_inputs.fn, Cert.Pre_finite_inputs.fn_part1] at h0
  have hr := (IntOp.andi_eq_one.1 h0).2
  have hb := Host.reduce_andi_all _ _ _ _ _ hr (ix1 i)
  obtain ⟨hge, hlt⟩ := IntOp.andi_eq_one.1 hb
  exact word_lt_16 (a4 (ix1 i)) hge hlt

theorem et_range [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Fin 522240) :
    ∃ t : Fin 16, m ((c.tc : Thread Cert.KernelIdeal.nD Cert.KernelIdeal.τ).loc Cert.KernelIdeal.main_arg4) (ix1 i) = BitVec.ofNat 32 t.val :=
  et_range_of_fn _ _ _ _ _ (h c) i

end Cert.Val
end
-- ==== Proof.Ref.RunRead.lean ====
import proofs.«430205_j2405181685797_1_alg».proof.Proof.Gen.ReferenceIdeal.Read
import proofs.«430205_j2405181685797_1_alg».proof.Proof.Gen.ReferenceIdeal.Run
-- ==== Proof.Ref.Level0.lean ====
import proofs.«430205_j2405181685797_1_alg».proof.Proof.Ref.RunRead
import proofs.«430205_j2405181685797_1_alg».proof.Proof.Val.Levels
import Idealize.ShloMosaic.Lib.ValueIdx
import Idealize.ShloMosaic.Lib.Pipeline.Value
import Idealize.ShloMosaic.PureOps.Ideal.Laws

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem pad_lo (r : Fin 523264) (k : Fin 128) :
    val_main_v1 (F := Ideal) x0 (ix2 r ⟨k.val, by omega⟩) = x0 (ix2 r k) := by
  unfold val_main_v1
  exact concatenate_pair_apply_left (t := S523264x256) (s₁ := S523264x128) (s₂ := S523264x128) (1 : Fin 2) x0
    (val_main_v0 (F := Ideal)) concatenates_S523264x128_S523264x128_S523264x256_d1 _ rfl (ix2 r k)
    (fun b => match b with | ⟨0, _⟩ => rfl | ⟨1, _⟩ => rfl)

theorem pad_hi (r : Fin 523264) (k : Fin 128) :
    val_main_v1 (F := Ideal) x0 (ix2 r ⟨128 + k.val, by omega⟩) = 0 := by
  unfold val_main_v1
  refine (concatenate_pair_apply_right (t := S523264x256) (s₁ := S523264x128) (s₂ := S523264x128) (1 : Fin 2) x0
    (val_main_v0 (F := Ideal)) concatenates_S523264x128_S523264x128_S523264x256_d1 _ rfl rfl (ix2 r k)
    (fun b => match b with | ⟨0, _⟩ => fun _ => rfl | ⟨1, _⟩ => fun h => absurd rfl h)
    (by show k.val + 128 = 128 + k.val; omega)).trans ?_
  rw [val_main_v0_apply, val_main_cst_apply, Ideal.ofBits_def, Ideal.ofBits_zero_f32]

theorem sum_halves (f : Fin 256 → EReal) :
    ∑ k : Fin 256, f k = ∑ k : Fin 128, f ⟨k.val, by omega⟩ + ∑ k : Fin 128, f ⟨128 + k.val, by omega⟩ :=
  Fin.sum_univ_add (a := 128) (b := 128) f

theorem padded_dot (r : Fin 523264) (q : Fin 256) :
    ∑ k : Fin 256, val_main_v1 (F := Ideal) x0 (ix2 r k) * x1 (ix2 q k)
      = ∑ k : Fin 128, x0 (ix2 r k) * x1 (ix2 q ⟨k.val, by omega⟩) := by
  rw [sum_halves, Finset.sum_eq_zero (s := Finset.univ) (f := fun k : Fin 128 => val_main_v1 (F := Ideal) x0 (ix2 r ⟨128 + k.val, by omega⟩) * x1 (ix2 q ⟨128 + k.val, by omega⟩))
    (fun k _ => by rw [pad_hi, zero_mul]), add_zero]
  exact Finset.sum_congr rfl fun k _ => by rw [pad_lo]

theorem level0 :
    val_main_v15 (F := Ideal) x0 x1 x2 = Cert.Spec.lvl0 x0 x1 x2 := by
  funext i
  obtain ⟨p, q, rfl⟩ : ∃ (p : Fin 262144) (q : Fin 256), i = ix2 p q := ⟨i 0, i 1, eq_ix2 i⟩
  have hrow : ∀ k : Fin 256, idx_main_v9 (lidx_main_v11 (ix2 p q) k) = ix2 (⟨p.val, by omega⟩ : Fin 523264) k :=
    fun k => Shape.idx_ext₂ rfl rfl
  have hcol : ∀ k : Fin 256, idx_main_v10 (ridx_main_v11 (ix2 p q) k) = ix2 q k :=
    fun k => Shape.idx_ext₂ rfl rfl
  have hb : idx_main_v12 (idx_main_v13 (ix2 p q)) = ix1 q :=
    funext fun a => Fin.ext (by match a with | ⟨0, _⟩ => rfl)
  rw [val_main_v15_apply, val_main_v14_apply, val_main_v11_apply, val_main_v13_apply, val_main_v12_apply, hb]
  simp only [val_main_v9_apply, val_main_v10_apply, hrow, hcol]
  rw [padded_dot, Ideal.hostUnary_tanh_def, Ideal.addf_def]
  rfl

theorem word_wrap (t : Fin 16) :
    Scalar.select (IntOp.cmpi .slt (BitVec.ofNat 32 t.val) 0#32) (IntOp.addi (BitVec.ofNat 32 t.val) 16#32)
      (BitVec.ofNat 32 t.val) = BitVec.ofNat 32 t.val := by
  revert t; decide

theorem word_clamp (t : Fin 16) : min (BitVec.ofNat 32 t.val).toInt.toNat (16 - 1) = t.val := by
  revert t; decide

theorem emb_row (e : Fin 522240) (j : Fin 256) (t : Fin 16)
    (h : x4 (ix1 e) = BitVec.ofNat 32 t.val) :
    val_main_v8 (F := Ideal) x3 x4 (ix2 e j) = x3 (ix2 t j) := by
  unfold val_main_v8 Host.gather
  congr 1
  funext a
  refine Fin.ext ?_
  match a with
  | ⟨0, _⟩ =>
    show gather_S16x256_S522240x1_S522240x256_1_0_n_n_0_1_1256.start (ix2 e j) (val_main_v7 (F := Ideal) x4) 0
      + gather_S16x256_S522240x1_S522240x256_1_0_n_n_0_1_1256.batchCoord (ix2 e j) 0
      + gather_S16x256_S522240x1_S522240x256_1_0_n_n_0_1_1256.offCoord (ix2 e j) 0 = t.val
    have hsi : gather_S16x256_S522240x1_S522240x256_1_0_n_n_0_1_1256.siIdx (ix2 e j)
        ⟨List.idxOf (0 : Fin S16x256.rank) gather_S16x256_S522240x1_S522240x256_1_0_n_n_0_1_1256.startIndexMap,
          List.idxOf_lt_length_iff.2 (show (0 : Fin S16x256.rank) ∈ gather_S16x256_S522240x1_S522240x256_1_0_n_n_0_1_1256.startIndexMap by decide)⟩
        = ix2 e (0 : Fin 1) := by
      funext b; refine Fin.ext ?_
      match b with
      | ⟨0, _⟩ => rfl
      | ⟨1, _⟩ => rfl
    have hi7 : idx_main_v7 (ix2 e (0 : Fin 1)) = ix1 e :=
      funext fun a => Fin.ext (by match a with | ⟨0, _⟩ => rfl)
    rw [GatherDims.batchCoord_eq_zero _ _ _
        (show (0 : Fin S16x256.rank) ∉ gather_S16x256_S522240x1_S522240x256_1_0_n_n_0_1_1256.operandBatchingDims from List.not_mem_nil),
      GatherDims.offCoord_eq_zero _ _ _ (show (0 : Fin S16x256.rank) ∉ gather_S16x256_S522240x1_S522240x256_1_0_n_n_0_1_1256.sKept by decide)]
    unfold GatherDims.start
    rw [dif_pos (show (0 : Fin S16x256.rank) ∈ gather_S16x256_S522240x1_S522240x256_1_0_n_n_0_1_1256.startIndexMap by decide), hsi,
      val_main_v7_apply, hi7, val_main_v6_apply, val_main_v3_apply, val_main_v5_apply, val_main_v2_apply,
      val_main_v4_apply, val_main_c_apply, val_main_c_0_apply, h, word_wrap]
    exact word_clamp t
  | ⟨1, _⟩ =>
    show gather_S16x256_S522240x1_S522240x256_1_0_n_n_0_1_1256.start (ix2 e j) (val_main_v7 (F := Ideal) x4) 1
      + gather_S16x256_S522240x1_S522240x256_1_0_n_n_0_1_1256.batchCoord (ix2 e j) 1
      + gather_S16x256_S522240x1_S522240x256_1_0_n_n_0_1_1256.offCoord (ix2 e j) 1 = j.val
    rw [GatherDims.batchCoord_eq_zero _ _ _
      (show (1 : Fin S16x256.rank) ∉ gather_S16x256_S522240x1_S522240x256_1_0_n_n_0_1_1256.operandBatchingDims from List.not_mem_nil)]
    unfold GatherDims.start GatherDims.offCoord
    rw [dif_neg (show ¬(1 : Fin S16x256.rank) ∈ gather_S16x256_S522240x1_S522240x256_1_0_n_n_0_1_1256.startIndexMap by decide),
      dif_pos (show (1 : Fin S16x256.rank) ∈ gather_S16x256_S522240x1_S522240x256_1_0_n_n_0_1_1256.sKept by decide)]
    simp only [Nat.zero_add]
    rfl

/-- A node as the reference reads it is the specification's: the padded half of the contraction is zero, a gathered row is the one-hot product. -/
theorem node_read (hr : Cert.Spec.InRange x4)
    (r : Fin 523264) (q : Fin 256) (e0 e1 : Fin 522240) (c0 c1 : Ideal .f32) :
    FloatOps.hostUnary (F := Ideal) (φ := .f32) HostUnaryOp.tanh
        (FloatOps.addf (φ := .f32) (FloatOps.addf (φ := .f32) (∑ k : Fin 256, val_main_v1 (F := Ideal) x0 (ix2 r k) * x1 (ix2 q k)) (x2 (ix1 q)))
          (FloatOps.mulf (φ := .f32) c0 (val_main_v8 (F := Ideal) x3 x4 (ix2 e0 q)) + FloatOps.mulf (φ := .f32) c1 (val_main_v8 (F := Ideal) x3 x4 (ix2 e1 q))))
      = Cert.Spec.node (fun k => x0 (ix2 r k)) (fun k => Cert.Spec.wtOf x1 (ix2 k q)) (Cert.Spec.b2Of x2 (ix2 0 q)) c0
          (Cert.Spec.emb (Cert.Spec.et2Of x4 (ix2 e0 0)) fun t => x3 (ix2 t q)) c1
          (Cert.Spec.emb (Cert.Spec.et2Of x4 (ix2 e1 0)) fun t => x3 (ix2 t q)) := by
  obtain ⟨t0, ht0⟩ := hr e0
  obtain ⟨t1, ht1⟩ := hr e1
  have hm0 : Cert.Spec.emb (x4 (ix1 e0)) (fun t => x3 (ix2 t q)) = x3 (ix2 t0 q) := Cert.Spec.emb_eq _ _ t0 ht0
  have hm1 : Cert.Spec.emb (x4 (ix1 e1)) (fun t => x3 (ix2 t q)) = x3 (ix2 t1 q) := Cert.Spec.emb_eq _ _ t1 ht1
  rw [padded_dot, emb_row x3 x4 e0 q t0 ht0, emb_row x3 x4 e1 q t1 ht1, ← hm0, ← hm1]
  simp only [Ideal.hostUnary_tanh_def, Ideal.addf_def, Ideal.mulf_def]
  rfl

end Cert.RefLevels

end
-- ==== Proof.Ref.Level1.lean ====
import proofs.«430205_j2405181685797_1_alg».proof.Proof.Ref.Level0

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem level1 (hr : Cert.Spec.InRange x4) : val_main_v28 (F := Ideal) x0 x1 x2 x3 x4 = Cert.Spec.lvl1 x0 x1 x2 x3 x4 := by
  unfold Cert.Spec.lvl1; rw [← level0 x0 x1 x2]
  funext i
  obtain ⟨p, q, rfl⟩ : ∃ (p : Fin 131072) (q : Fin 256), i = ix2 p q := ⟨i 0, i 1, eq_ix2 i⟩
  have hrow : ∀ k : Fin 256, idx_main_v21 (lidx_main_v23 (ix2 p q) k) = ix2 (⟨262144 + p.val, by omega⟩ : Fin 523264) k :=
    fun k => Shape.idx_ext₂ rfl rfl
  have hcol : ∀ k : Fin 256, idx_main_v22 (ridx_main_v23 (ix2 p q) k) = ix2 q k :=
    fun k => Shape.idx_ext₂ rfl rfl
  have hb : idx_main_v24 (idx_main_v25 (ix2 p q)) = ix1 q :=
    funext fun a => Fin.ext (by match a with | ⟨0, _⟩ => rfl)
  have hc0 : idx_main_v18 (idx_main_v20 (ix2 p q) 0) = ix2 (⟨2 * p.val, by omega⟩ : Fin 262144) q :=
    Shape.idx_ext₂ (by show ((p.val * 2 + 0) * 256 + q.val) / 256 = 2 * p.val; omega) (by show ((p.val * 2 + 0) * 256 + q.val) % 256 = q.val; omega)
  have hc1 : idx_main_v18 (idx_main_v20 (ix2 p q) 1) = ix2 (⟨2 * p.val + 1, by omega⟩ : Fin 262144) q :=
    Shape.idx_ext₂ (by show ((p.val * 2 + 1) * 256 + q.val) / 256 = 2 * p.val + 1; omega) (by show ((p.val * 2 + 1) * 256 + q.val) % 256 = q.val; omega)
  have he0 : idx_main_v16 (idx_main_v17 (idx_main_v20 (ix2 p q) 0)) = ix2 (⟨0 + 2 * p.val, by omega⟩ : Fin 522240) q :=
    Shape.idx_ext₂ (by show ((p.val * 2 + 0) * 256 + q.val) / 256 = 0 + 2 * p.val; omega) (by show ((p.val * 2 + 0) * 256 + q.val) % 256 = q.val; omega)
  have he1 : idx_main_v16 (idx_main_v17 (idx_main_v20 (ix2 p q) 1)) = ix2 (⟨0 + 2 * p.val + 1, by omega⟩ : Fin 522240) q :=
    Shape.idx_ext₂ (by show ((p.val * 2 + 1) * 256 + q.val) / 256 = 0 + 2 * p.val + 1; omega) (by show ((p.val * 2 + 1) * 256 + q.val) % 256 = q.val; omega)
  rw [val_main_v28_apply, val_main_v27_apply, val_main_v26_apply, val_main_v23_apply, val_main_v25_apply,
    val_main_v24_apply, hb, val_main_v20_apply, val_main_cst_1_apply, Ideal.ofBits_def, Ideal.ofBits_zero_f32, zero_add,
    Fin.sum_univ_two]
  simp only [val_main_v21_apply, val_main_v22_apply, hrow, hcol, val_main_v19_apply, val_main_v18_apply,
    val_main_v17_apply, val_main_v16_apply, hc0, hc1, he0, he1]
  exact node_read x0 x1 x2 x3 x4 hr _ q _ _ _ _

end Cert.RefLevels

end
-- ==== Proof.Ref.Level2.lean ====
import proofs.«430205_j2405181685797_1_alg».proof.Proof.Ref.Level1

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem level2 (hr : Cert.Spec.InRange x4) : val_main_v41 (F := Ideal) x0 x1 x2 x3 x4 = Cert.Spec.lvl2 x0 x1 x2 x3 x4 := by
  unfold Cert.Spec.lvl2; rw [← level1 x0 x1 x2 x3 x4 hr]
  funext i
  obtain ⟨p, q, rfl⟩ : ∃ (p : Fin 65536) (q : Fin 256), i = ix2 p q := ⟨i 0, i 1, eq_ix2 i⟩
  have hrow : ∀ k : Fin 256, idx_main_v34 (lidx_main_v36 (ix2 p q) k) = ix2 (⟨393216 + p.val, by omega⟩ : Fin 523264) k :=
    fun k => Shape.idx_ext₂ rfl rfl
  have hcol : ∀ k : Fin 256, idx_main_v35 (ridx_main_v36 (ix2 p q) k) = ix2 q k :=
    fun k => Shape.idx_ext₂ rfl rfl
  have hb : idx_main_v37 (idx_main_v38 (ix2 p q)) = ix1 q :=
    funext fun a => Fin.ext (by match a with | ⟨0, _⟩ => rfl)
  have hc0 : idx_main_v31 (idx_main_v33 (ix2 p q) 0) = ix2 (⟨2 * p.val, by omega⟩ : Fin 131072) q :=
    Shape.idx_ext₂ (by show ((p.val * 2 + 0) * 256 + q.val) / 256 = 2 * p.val; omega) (by show ((p.val * 2 + 0) * 256 + q.val) % 256 = q.val; omega)
  have hc1 : idx_main_v31 (idx_main_v33 (ix2 p q) 1) = ix2 (⟨2 * p.val + 1, by omega⟩ : Fin 131072) q :=
    Shape.idx_ext₂ (by show ((p.val * 2 + 1) * 256 + q.val) / 256 = 2 * p.val + 1; omega) (by show ((p.val * 2 + 1) * 256 + q.val) % 256 = q.val; omega)
  have he0 : idx_main_v29 (idx_main_v30 (idx_main_v33 (ix2 p q) 0)) = ix2 (⟨262144 + 2 * p.val, by omega⟩ : Fin 522240) q :=
    Shape.idx_ext₂ (by show 262144 + ((p.val * 2 + 0) * 256 + q.val) / 256 = 262144 + 2 * p.val; omega) (by show ((p.val * 2 + 0) * 256 + q.val) % 256 = q.val; omega)
  have he1 : idx_main_v29 (idx_main_v30 (idx_main_v33 (ix2 p q) 1)) = ix2 (⟨262144 + 2 * p.val + 1, by omega⟩ : Fin 522240) q :=
    Shape.idx_ext₂ (by show 262144 + ((p.val * 2 + 1) * 256 + q.val) / 256 = 262144 + 2 * p.val + 1; omega) (by show ((p.val * 2 + 1) * 256 + q.val) % 256 = q.val; omega)
  rw [val_main_v41_apply, val_main_v40_apply, val_main_v39_apply, val_main_v36_apply, val_main_v38_apply,
    val_main_v37_apply, hb, val_main_v33_apply, val_main_cst_2_apply, Ideal.ofBits_def, Ideal.ofBits_zero_f32, zero_add,
    Fin.sum_univ_two]
  simp only [val_main_v34_apply, val_main_v35_apply, hrow, hcol, val_main_v32_apply, val_main_v31_apply,
    val_main_v30_apply, val_main_v29_apply, hc0, hc1, he0, he1]
  exact node_read x0 x1 x2 x3 x4 hr _ q _ _ _ _

end Cert.RefLevels

end
-- ==== Proof.Ref.Level3.lean ====
import proofs.«430205_j2405181685797_1_alg».proof.Proof.Ref.Level2

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem level3 (hr : Cert.Spec.InRange x4) : val_main_v54 (F := Ideal) x0 x1 x2 x3 x4 = Cert.Spec.lvl3 x0 x1 x2 x3 x4 := by
  unfold Cert.Spec.lvl3; rw [← level2 x0 x1 x2 x3 x4 hr]
  funext i
  obtain ⟨p, q, rfl⟩ : ∃ (p : Fin 32768) (q : Fin 256), i = ix2 p q := ⟨i 0, i 1, eq_ix2 i⟩
  have hrow : ∀ k : Fin 256, idx_main_v47 (lidx_main_v49 (ix2 p q) k) = ix2 (⟨458752 + p.val, by omega⟩ : Fin 523264) k :=
    fun k => Shape.idx_ext₂ rfl rfl
  have hcol : ∀ k : Fin 256, idx_main_v48 (ridx_main_v49 (ix2 p q) k) = ix2 q k :=
    fun k => Shape.idx_ext₂ rfl rfl
  have hb : idx_main_v50 (idx_main_v51 (ix2 p q)) = ix1 q :=
    funext fun a => Fin.ext (by match a with | ⟨0, _⟩ => rfl)
  have hc0 : idx_main_v44 (idx_main_v46 (ix2 p q) 0) = ix2 (⟨2 * p.val, by omega⟩ : Fin 65536) q :=
    Shape.idx_ext₂ (by show ((p.val * 2 + 0) * 256 + q.val) / 256 = 2 * p.val; omega) (by show ((p.val * 2 + 0) * 256 + q.val) % 256 = q.val; omega)
  have hc1 : idx_main_v44 (idx_main_v46 (ix2 p q) 1) = ix2 (⟨2 * p.val + 1, by omega⟩ : Fin 65536) q :=
    Shape.idx_ext₂ (by show ((p.val * 2 + 1) * 256 + q.val) / 256 = 2 * p.val + 1; omega) (by show ((p.val * 2 + 1) * 256 + q.val) % 256 = q.val; omega)
  have he0 : idx_main_v42 (idx_main_v43 (idx_main_v46 (ix2 p q) 0)) = ix2 (⟨393216 + 2 * p.val, by omega⟩ : Fin 522240) q :=
    Shape.idx_ext₂ (by show 393216 + ((p.val * 2 + 0) * 256 + q.val) / 256 = 393216 + 2 * p.val; omega) (by show ((p.val * 2 + 0) * 256 + q.val) % 256 = q.val; omega)
  have he1 : idx_main_v42 (idx_main_v43 (idx_main_v46 (ix2 p q) 1)) = ix2 (⟨393216 + 2 * p.val + 1, by omega⟩ : Fin 522240) q :=
    Shape.idx_ext₂ (by show 393216 + ((p.val * 2 + 1) * 256 + q.val) / 256 = 393216 + 2 * p.val + 1; omega) (by show ((p.val * 2 + 1) * 256 + q.val) % 256 = q.val; omega)
  rw [val_main_v54_apply, val_main_v53_apply, val_main_v52_apply, val_main_v49_apply, val_main_v51_apply,
    val_main_v50_apply, hb, val_main_v46_apply, val_main_cst_3_apply, Ideal.ofBits_def, Ideal.ofBits_zero_f32, zero_add,
    Fin.sum_univ_two]
  simp only [val_main_v47_apply, val_main_v48_apply, hrow, hcol, val_main_v45_apply, val_main_v44_apply,
    val_main_v43_apply, val_main_v42_apply, hc0, hc1, he0, he1]
  exact node_read x0 x1 x2 x3 x4 hr _ q _ _ _ _

end Cert.RefLevels

end
-- ==== Proof.Ref.Level4.lean ====
import proofs.«430205_j2405181685797_1_alg».proof.Proof.Ref.Level3

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem level4 (hr : Cert.Spec.InRange x4) : val_main_v67 (F := Ideal) x0 x1 x2 x3 x4 = Cert.Spec.lvl4 x0 x1 x2 x3 x4 := by
  unfold Cert.Spec.lvl4; rw [← level3 x0 x1 x2 x3 x4 hr]
  funext i
  obtain ⟨p, q, rfl⟩ : ∃ (p : Fin 16384) (q : Fin 256), i = ix2 p q := ⟨i 0, i 1, eq_ix2 i⟩
  have hrow : ∀ k : Fin 256, idx_main_v60 (lidx_main_v62 (ix2 p q) k) = ix2 (⟨491520 + p.val, by omega⟩ : Fin 523264) k :=
    fun k => Shape.idx_ext₂ rfl rfl
  have hcol : ∀ k : Fin 256, idx_main_v61 (ridx_main_v62 (ix2 p q) k) = ix2 q k :=
    fun k => Shape.idx_ext₂ rfl rfl
  have hb : idx_main_v63 (idx_main_v64 (ix2 p q)) = ix1 q :=
    funext fun a => Fin.ext (by match a with | ⟨0, _⟩ => rfl)
  have hc0 : idx_main_v57 (idx_main_v59 (ix2 p q) 0) = ix2 (⟨2 * p.val, by omega⟩ : Fin 32768) q :=
    Shape.idx_ext₂ (by show ((p.val * 2 + 0) * 256 + q.val) / 256 = 2 * p.val; omega) (by show ((p.val * 2 + 0) * 256 + q.val) % 256 = q.val; omega)
  have hc1 : idx_main_v57 (idx_main_v59 (ix2 p q) 1) = ix2 (⟨2 * p.val + 1, by omega⟩ : Fin 32768) q :=
    Shape.idx_ext₂ (by show ((p.val * 2 + 1) * 256 + q.val) / 256 = 2 * p.val + 1; omega) (by show ((p.val * 2 + 1) * 256 + q.val) % 256 = q.val; omega)
  have he0 : idx_main_v55 (idx_main_v56 (idx_main_v59 (ix2 p q) 0)) = ix2 (⟨458752 + 2 * p.val, by omega⟩ : Fin 522240) q :=
    Shape.idx_ext₂ (by show 458752 + ((p.val * 2 + 0) * 256 + q.val) / 256 = 458752 + 2 * p.val; omega) (by show ((p.val * 2 + 0) * 256 + q.val) % 256 = q.val; omega)
  have he1 : idx_main_v55 (idx_main_v56 (idx_main_v59 (ix2 p q) 1)) = ix2 (⟨458752 + 2 * p.val + 1, by omega⟩ : Fin 522240) q :=
    Shape.idx_ext₂ (by show 458752 + ((p.val * 2 + 1) * 256 + q.val) / 256 = 458752 + 2 * p.val + 1; omega) (by show ((p.val * 2 + 1) * 256 + q.val) % 256 = q.val; omega)
  rw [val_main_v67_apply, val_main_v66_apply, val_main_v65_apply, val_main_v62_apply, val_main_v64_apply,
    val_main_v63_apply, hb, val_main_v59_apply, val_main_cst_4_apply, Ideal.ofBits_def, Ideal.ofBits_zero_f32, zero_add,
    Fin.sum_univ_two]
  simp only [val_main_v60_apply, val_main_v61_apply, hrow, hcol, val_main_v58_apply, val_main_v57_apply,
    val_main_v56_apply, val_main_v55_apply, hc0, hc1, he0, he1]
  exact node_read x0 x1 x2 x3 x4 hr _ q _ _ _ _

end Cert.RefLevels

end
-- ==== Proof.Ref.Level5.lean ====
import proofs.«430205_j2405181685797_1_alg».proof.Proof.Ref.Level4

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem level5 (hr : Cert.Spec.InRange x4) : val_main_v80 (F := Ideal) x0 x1 x2 x3 x4 = Cert.Spec.lvl5 x0 x1 x2 x3 x4 := by
  unfold Cert.Spec.lvl5; rw [← level4 x0 x1 x2 x3 x4 hr]
  funext i
  obtain ⟨p, q, rfl⟩ : ∃ (p : Fin 8192) (q : Fin 256), i = ix2 p q := ⟨i 0, i 1, eq_ix2 i⟩
  have hrow : ∀ k : Fin 256, idx_main_v73 (lidx_main_v75 (ix2 p q) k) = ix2 (⟨507904 + p.val, by omega⟩ : Fin 523264) k :=
    fun k => Shape.idx_ext₂ rfl rfl
  have hcol : ∀ k : Fin 256, idx_main_v74 (ridx_main_v75 (ix2 p q) k) = ix2 q k :=
    fun k => Shape.idx_ext₂ rfl rfl
  have hb : idx_main_v76 (idx_main_v77 (ix2 p q)) = ix1 q :=
    funext fun a => Fin.ext (by match a with | ⟨0, _⟩ => rfl)
  have hc0 : idx_main_v70 (idx_main_v72 (ix2 p q) 0) = ix2 (⟨2 * p.val, by omega⟩ : Fin 16384) q :=
    Shape.idx_ext₂ (by show ((p.val * 2 + 0) * 256 + q.val) / 256 = 2 * p.val; omega) (by show ((p.val * 2 + 0) * 256 + q.val) % 256 = q.val; omega)
  have hc1 : idx_main_v70 (idx_main_v72 (ix2 p q) 1) = ix2 (⟨2 * p.val + 1, by omega⟩ : Fin 16384) q :=
    Shape.idx_ext₂ (by show ((p.val * 2 + 1) * 256 + q.val) / 256 = 2 * p.val + 1; omega) (by show ((p.val * 2 + 1) * 256 + q.val) % 256 = q.val; omega)
  have he0 : idx_main_v68 (idx_main_v69 (idx_main_v72 (ix2 p q) 0)) = ix2 (⟨491520 + 2 * p.val, by omega⟩ : Fin 522240) q :=
    Shape.idx_ext₂ (by show 491520 + ((p.val * 2 + 0) * 256 + q.val) / 256 = 491520 + 2 * p.val; omega) (by show ((p.val * 2 + 0) * 256 + q.val) % 256 = q.val; omega)
  have he1 : idx_main_v68 (idx_main_v69 (idx_main_v72 (ix2 p q) 1)) = ix2 (⟨491520 + 2 * p.val + 1, by omega⟩ : Fin 522240) q :=
    Shape.idx_ext₂ (by show 491520 + ((p.val * 2 + 1) * 256 + q.val) / 256 = 491520 + 2 * p.val + 1; omega) (by show ((p.val * 2 + 1) * 256 + q.val) % 256 = q.val; omega)
  rw [val_main_v80_apply, val_main_v79_apply, val_main_v78_apply, val_main_v75_apply, val_main_v77_apply,
    val_main_v76_apply, hb, val_main_v72_apply, val_main_cst_5_apply, Ideal.ofBits_def, Ideal.ofBits_zero_f32, zero_add,
    Fin.sum_univ_two]
  simp only [val_main_v73_apply, val_main_v74_apply, hrow, hcol, val_main_v71_apply, val_main_v70_apply,
    val_main_v69_apply, val_main_v68_apply, hc0, hc1, he0, he1]
  exact node_read x0 x1 x2 x3 x4 hr _ q _ _ _ _

end Cert.RefLevels

end
-- ==== Proof.Ref.Level6.lean ====
import proofs.«430205_j2405181685797_1_alg».proof.Proof.Ref.Level5

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem level6 (hr : Cert.Spec.InRange x4) : val_main_v93 (F := Ideal) x0 x1 x2 x3 x4 = Cert.Spec.lvl6 x0 x1 x2 x3 x4 := by
  unfold Cert.Spec.lvl6; rw [← level5 x0 x1 x2 x3 x4 hr]
  funext i
  obtain ⟨p, q, rfl⟩ : ∃ (p : Fin 4096) (q : Fin 256), i = ix2 p q := ⟨i 0, i 1, eq_ix2 i⟩
  have hrow : ∀ k : Fin 256, idx_main_v86 (lidx_main_v88 (ix2 p q) k) = ix2 (⟨516096 + p.val, by omega⟩ : Fin 523264) k :=
    fun k => Shape.idx_ext₂ rfl rfl
  have hcol : ∀ k : Fin 256, idx_main_v87 (ridx_main_v88 (ix2 p q) k) = ix2 q k :=
    fun k => Shape.idx_ext₂ rfl rfl
  have hb : idx_main_v89 (idx_main_v90 (ix2 p q)) = ix1 q :=
    funext fun a => Fin.ext (by match a with | ⟨0, _⟩ => rfl)
  have hc0 : idx_main_v83 (idx_main_v85 (ix2 p q) 0) = ix2 (⟨2 * p.val, by omega⟩ : Fin 8192) q :=
    Shape.idx_ext₂ (by show ((p.val * 2 + 0) * 256 + q.val) / 256 = 2 * p.val; omega) (by show ((p.val * 2 + 0) * 256 + q.val) % 256 = q.val; omega)
  have hc1 : idx_main_v83 (idx_main_v85 (ix2 p q) 1) = ix2 (⟨2 * p.val + 1, by omega⟩ : Fin 8192) q :=
    Shape.idx_ext₂ (by show ((p.val * 2 + 1) * 256 + q.val) / 256 = 2 * p.val + 1; omega) (by show ((p.val * 2 + 1) * 256 + q.val) % 256 = q.val; omega)
  have he0 : idx_main_v81 (idx_main_v82 (idx_main_v85 (ix2 p q) 0)) = ix2 (⟨507904 + 2 * p.val, by omega⟩ : Fin 522240) q :=
    Shape.idx_ext₂ (by show 507904 + ((p.val * 2 + 0) * 256 + q.val) / 256 = 507904 + 2 * p.val; omega) (by show ((p.val * 2 + 0) * 256 + q.val) % 256 = q.val; omega)
  have he1 : idx_main_v81 (idx_main_v82 (idx_main_v85 (ix2 p q) 1)) = ix2 (⟨507904 + 2 * p.val + 1, by omega⟩ : Fin 522240) q :=
    Shape.idx_ext₂ (by show 507904 + ((p.val * 2 + 1) * 256 + q.val) / 256 = 507904 + 2 * p.val + 1; omega) (by show ((p.val * 2 + 1) * 256 + q.val) % 256 = q.val; omega)
  rw [val_main_v93_apply, val_main_v92_apply, val_main_v91_apply, val_main_v88_apply, val_main_v90_apply,
    val_main_v89_apply, hb, val_main_v85_apply, val_main_cst_6_apply, Ideal.ofBits_def, Ideal.ofBits_zero_f32, zero_add,
    Fin.sum_univ_two]
  simp only [val_main_v86_apply, val_main_v87_apply, hrow, hcol, val_main_v84_apply, val_main_v83_apply,
    val_main_v82_apply, val_main_v81_apply, hc0, hc1, he0, he1]
  exact node_read x0 x1 x2 x3 x4 hr _ q _ _ _ _

end Cert.RefLevels

end
-- ==== Proof.Ref.Level7.lean ====
import proofs.«430205_j2405181685797_1_alg».proof.Proof.Ref.Level6

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem level7 (hr : Cert.Spec.InRange x4) : val_main_v106 (F := Ideal) x0 x1 x2 x3 x4 = Cert.Spec.lvl7 x0 x1 x2 x3 x4 := by
  unfold Cert.Spec.lvl7; rw [← level6 x0 x1 x2 x3 x4 hr]
  funext i
  obtain ⟨p, q, rfl⟩ : ∃ (p : Fin 2048) (q : Fin 256), i = ix2 p q := ⟨i 0, i 1, eq_ix2 i⟩
  have hrow : ∀ k : Fin 256, idx_main_v99 (lidx_main_v101 (ix2 p q) k) = ix2 (⟨520192 + p.val, by omega⟩ : Fin 523264) k :=
    fun k => Shape.idx_ext₂ rfl rfl
  have hcol : ∀ k : Fin 256, idx_main_v100 (ridx_main_v101 (ix2 p q) k) = ix2 q k :=
    fun k => Shape.idx_ext₂ rfl rfl
  have hb : idx_main_v102 (idx_main_v103 (ix2 p q)) = ix1 q :=
    funext fun a => Fin.ext (by match a with | ⟨0, _⟩ => rfl)
  have hc0 : idx_main_v96 (idx_main_v98 (ix2 p q) 0) = ix2 (⟨2 * p.val, by omega⟩ : Fin 4096) q :=
    Shape.idx_ext₂ (by show ((p.val * 2 + 0) * 256 + q.val) / 256 = 2 * p.val; omega) (by show ((p.val * 2 + 0) * 256 + q.val) % 256 = q.val; omega)
  have hc1 : idx_main_v96 (idx_main_v98 (ix2 p q) 1) = ix2 (⟨2 * p.val + 1, by omega⟩ : Fin 4096) q :=
    Shape.idx_ext₂ (by show ((p.val * 2 + 1) * 256 + q.val) / 256 = 2 * p.val + 1; omega) (by show ((p.val * 2 + 1) * 256 + q.val) % 256 = q.val; omega)
  have he0 : idx_main_v94 (idx_main_v95 (idx_main_v98 (ix2 p q) 0)) = ix2 (⟨516096 + 2 * p.val, by omega⟩ : Fin 522240) q :=
    Shape.idx_ext₂ (by show 516096 + ((p.val * 2 + 0) * 256 + q.val) / 256 = 516096 + 2 * p.val; omega) (by show ((p.val * 2 + 0) * 256 + q.val) % 256 = q.val; omega)
  have he1 : idx_main_v94 (idx_main_v95 (idx_main_v98 (ix2 p q) 1)) = ix2 (⟨516096 + 2 * p.val + 1, by omega⟩ : Fin 522240) q :=
    Shape.idx_ext₂ (by show 516096 + ((p.val * 2 + 1) * 256 + q.val) / 256 = 516096 + 2 * p.val + 1; omega) (by show ((p.val * 2 + 1) * 256 + q.val) % 256 = q.val; omega)
  rw [val_main_v106_apply, val_main_v105_apply, val_main_v104_apply, val_main_v101_apply, val_main_v103_apply,
    val_main_v102_apply, hb, val_main_v98_apply, val_main_cst_7_apply, Ideal.ofBits_def, Ideal.ofBits_zero_f32, zero_add,
    Fin.sum_univ_two]
  simp only [val_main_v99_apply, val_main_v100_apply, hrow, hcol, val_main_v97_apply, val_main_v96_apply,
    val_main_v95_apply, val_main_v94_apply, hc0, hc1, he0, he1]
  exact node_read x0 x1 x2 x3 x4 hr _ q _ _ _ _

end Cert.RefLevels

end
-- ==== Proof.Ref.Level8.lean ====
import proofs.«430205_j2405181685797_1_alg».proof.Proof.Ref.Level7

noncomputable section

namespace Cert.RefLevels

open Cert.ReferenceIdeal Cert.ReferenceIdeal.Gen Cert.ReferenceIdeal.Read Idealize.ShloMosaic Idealize.ShloMosaic.ValueIdx
open scoped BigOperators

variable (x0 : (⟨S523264x128, .f32⟩ : BufTy).Contents (Elt Ideal)) (x1 : (⟨S256x256, .f32⟩ : BufTy).Contents (Elt Ideal)) (x2 : (⟨S256, .f32⟩ : BufTy).Contents (Elt Ideal)) (x3 : (⟨S16x256, .f32⟩ : BufTy).Contents (Elt Ideal)) (x4 : (⟨S522240, .i32⟩ : BufTy).Contents (Elt Ideal))

theorem level8 (hr : Cert.Spec.InRange x4) : val_main_v119 (F := Ideal) x0 x1 x2 x3 x4 = Cert.Spec.lvl8 x0 x1 x2 x3 x4 := by
  unfold Cert.Spec.lvl8; rw [← level7 x0 x1 x2 x3 x4 hr]
  funext i
  obtain ⟨p, q, rfl⟩ : ∃ (p : Fin 1024) (q : Fin 256), i = ix2 p q := ⟨i 0, i 1, eq_ix2 i⟩
  have hrow : ∀ k : Fin 256, idx_main_v112 (lidx_main_v114 (ix2 p q) k) = ix2 (⟨522240 + p.val, by omega⟩ : Fin 523264) k :=
    fun k => Shape.idx_ext₂ rfl rfl
  have hcol : ∀ k : Fin 256, idx_main_v113 (ridx_main_v114 (ix2 p q) k) = ix2 q k :=
    fun k => Shape.idx_ext₂ rfl rfl
  have hb : idx_main_v115 (idx_main_v116 (ix2 p q)) = ix1 q :=
    funext fun a => Fin.ext (by match a with | ⟨0, _⟩ => rfl)
  have hc0 : idx_main_v109 (idx_main_v111 (ix2 p q) 0) = ix2 (⟨2 * p.val, by omega⟩ : Fin 2048) q :=
    Shape.idx_ext₂ (by show ((p.val * 2 + 0) * 256 + q.val) / 256 = 2 * p.val; omega) (by show ((p.val * 2 + 0) * 256 + q.val) % 256 = q.val; omega)
  have hc1 : idx_main_v109 (idx_main_v111 (ix2 p q) 1) = ix2 (⟨2 * p.val + 1, by omega⟩ : Fin 2048) q :=
    Shape.idx_ext₂ (by show ((p.val * 2 + 1) * 256 + q.val) / 256 = 2 * p.val + 1; omega) (by show ((p.val * 2 + 1) * 256 + q.val) % 256 = q.val; omega)
  have he0 : idx_main_v107 (idx_main_v108 (idx_main_v111 (ix2 p q) 0)) = ix2 (⟨520192 + 2 * p.val, by omega⟩ : Fin 522240) q :=
    Shape.idx_ext₂ (by show 520192 + ((p.val * 2 + 0) * 256 + q.val) / 256 = 520192 + 2 * p.val; omega) (by show ((p.val * 2 + 0) * 256 + q.val) % 256 = q.val; omega)
  have he1 : idx_main_v107 (idx_main_v108 (idx_main_v111 (ix2 p q) 1)) = ix2 (⟨520192 + 2 * p.val + 1, by omega⟩ : Fin 522240) q :=
    Shape.idx_ext₂ (by show 520192 + ((p.val * 2 + 1) * 256 + q.val) / 256 = 520192 + 2 * p.val + 1; omega) (by show ((p.val * 2 + 1) * 256 + q.val) % 256 = q.val; omega)
  rw [val_main_v119_apply, val_main_v118_apply, val_main_v117_apply, val_main_v114_apply, val_main_v116_apply,
    val_main_v115_apply, hb, val_main_v111_apply, val_main_cst_8_apply, Ideal.ofBits_def, Ideal.ofBits_zero_f32, zero_add,
    Fin.sum_univ_two]
  simp only [val_main_v112_apply, val_main_v113_apply, hrow, hcol, val_main_v110_apply, val_main_v109_apply,
    val_main_v108_apply, val_main_v107_apply, hc0, hc1, he0, he1]
  exact node_read x0 x1 x2 x3 x4 hr _ q _ _ _ _

end Cert.RefLevels

end
-- ==== Proof.lean ====
import proofs.«430205_j2405181685797_1_alg».proof.Defs
import proofs.«430205_j2405181685797_1_alg».proof.Proof.Gen.Kernel
import proofs.«430205_j2405181685797_1_alg».proof.Proof.Gen.KernelIdeal
import proofs.«430205_j2405181685797_1_alg».proof.Proof.Gen.ReferenceIdeal
import proofs.«430205_j2405181685797_1_alg».proof.Proof.Gen.Pre_finite_inputs
import proofs.«430205_j2405181685797_1_alg».proof.Proof.K.Launch
import proofs.«430205_j2405181685797_1_alg».proof.Proof.KI.Launch
import proofs.«430205_j2405181685797_1_alg».proof.Proof.Val.Chain
import proofs.«430205_j2405181685797_1_alg».proof.Proof.Val.Range
import proofs.«430205_j2405181685797_1_alg».proof.Proof.Ref.Level8

noncomputable section

namespace Cert.Proof

open Idealize.ShloMosaic Idealize.ShloMosaic.TcCoe Idealize.SL.Sem

/-- The reference's result is the nine levels stacked, when every edge type names a table row. -/
theorem ref_out (x0 : (⟨Cert.ReferenceIdeal.S523264x128, .f32⟩ : BufTy).Contents (Elt Ideal)) (x1 : (⟨Cert.ReferenceIdeal.S256x256, .f32⟩ : BufTy).Contents (Elt Ideal)) (x2 : (⟨Cert.ReferenceIdeal.S256, .f32⟩ : BufTy).Contents (Elt Ideal)) (x3 : (⟨Cert.ReferenceIdeal.S16x256, .f32⟩ : BufTy).Contents (Elt Ideal)) (x4 : (⟨Cert.ReferenceIdeal.S522240, .i32⟩ : BufTy).Contents (Elt Ideal)) (hr : Cert.Spec.InRange x4) :
    Cert.ReferenceIdeal.Read.val_main_v120 (F := Ideal) x0 x1 x2 x3 x4 = Cert.Val.forest x0 x1 x2 x3 x4 := by
  unfold Cert.ReferenceIdeal.Read.val_main_v120
  rw [Cert.RefLevels.level0 x0 x1 x2, Cert.RefLevels.level1 x0 x1 x2 x3 x4 hr, Cert.RefLevels.level2 x0 x1 x2 x3 x4 hr, Cert.RefLevels.level3 x0 x1 x2 x3 x4 hr, Cert.RefLevels.level4 x0 x1 x2 x3 x4 hr, Cert.RefLevels.level5 x0 x1 x2 x3 x4 hr, Cert.RefLevels.level6 x0 x1 x2 x3 x4 hr, Cert.RefLevels.level7 x0 x1 x2 x3 x4 hr, Cert.RefLevels.level8 x0 x1 x2 x3 x4 hr]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the nine levels of the (agreeing) arguments stacked. -/
theorem algebraic : Cert.algebraic_KernelIdeal_ReferenceIdeal := by
  intro m ρ m' ρ' hpre hagree
  refine ⟨fun c => Cert.Val.forest (Cert.Val.x0 m c) (Cert.Val.x1 m c) (Cert.Val.x2 m c) (Cert.Val.x3 m c) (Cert.Val.x4 m c), ?_, ?_⟩
  · exact (θ_run Cert.KernelIdeal.defs _ _).mono (fun r h c => ⟨(h c).1.trans (Cert.Val.out_eq m ρ c), (h c).2⟩)
      (Cert.KernelIdeal.Hand.run_out m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v120_eq, (hagree c).1, (hagree c).2.1, (hagree c).2.2.1, (hagree c).2.2.2.1, (hagree c).2.2.2.2]
    exact ref_out _ _ _ _ _ (fun i => Cert.Val.et_range m hpre c i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
